-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S2048x2048 : Shape := ⟨2, ![2048, 2048]⟩
abbrev S2048x512 : Shape := ⟨2, ![2048, 512]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x2048x128 : S_.BroadcastsInDim S2x2048x128 (![] : Fin 0 → Fin S2x2048x128.rank)
  reducesTo_S2x2048x128_S_d0_1_2 : S2x2048x128.ReducesTo [0, 1, 2] S_
  bcast_S_S2x1x2048x2048 : S_.BroadcastsInDim S2x1x2048x2048 (![] : Fin 0 → Fin S2x1x2048x2048.rank)
  reducesTo_S2x1x2048x2048_S_d0_1_2_3 : S2x1x2048x2048.ReducesTo [0, 1, 2, 3] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x512 .f32) (main_arg6 : FVec F S2048x512 .f32) (main_arg7 : FVec F S2048x2048 .f32) (main_v13 : IVec S_ 1) (main_v16 : IVec S2x1x2048x2048 1) : IVec S_ 1 :=
  let main_c_5 : IVec S_ 1 := constantI S_ 1 1#1
  let main_v17 : IVec S_ 1 := (fun x v => Host.reduce IntOp.andi x v reducesTo_S2x1x2048x2048_S_d0_1_2_3 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_v33

def fn {F : FTy → Type} [FloatOps F] (main_arg0 : FVec F S2x2048x2048 .f32) (main_arg1 : FVec F S2x2048x128 .f32) (main_arg2 : FVec F S2x2048x128 .f32) (main_arg3 : FVec F S2x1x2048x2048 .f32) (main_arg4 : FVec F S2048x2048 .f32) (main_arg5 : FVec F S2048x512 .f32) (main_arg6 : FVec F S2048x512 .f32) (main_arg7 : FVec F S2048x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x2048x128 .f32 := Host.absf main_arg1
  let main_cst_0 : FVec F S_ .f32 := constant S_ .f32 0x7F800000#32
  let main_v5 : FVec F S2x2048x128 .f32 := broadcastInDim S2x2048x128 ![] bcast_S_S2x2048x128 main_cst_0
  let main_v6 : IVec S2x2048x128 1 := cmpf .olt main_v4 main_v5
  let main_c_1 : IVec S_ 1 := constantI S_ 1 1#1
  let main_v7 : IVec S_ 1 := (fun x v => Host.reduce IntOp.andi x v reducesTo_S2x2048x128_S_d0_1_2 h_S_) main_v6 main_c_1
  let main_v8 : IVec S_ 1 := andi main_v3 main_v7
  let main_v9 : FVec F S2x2048x128 .f32 := Host.absf main_arg2
  let main_cst_2 : FVec F S_ .f32 := constant S_ .f32 0x7F800000#32
  let main_v10 : FVec F S2x2048x128 .f32 := broadcastInDim S2x2048x128 ![] bcast_S_S2x2048x128 main_cst_2
  let main_v11 : IVec S2x2048x128 1 := cmpf .olt main_v9 main_v10
  let main_c_3 : IVec S_ 1 := constantI S_ 1 1#1
  let main_v12 : IVec S_ 1 := (fun x v => Host.reduce IntOp.andi x v reducesTo_S2x2048x128_S_d0_1_2 h_S_) main_v11 main_c_3
  let main_v13 : IVec S_ 1 := andi main_v8 main_v12
  let main_v14 : FVec F S2x1x2048x2048 .f32 := Host.absf main_arg3
  let main_cst_4 : FVec F S_ .f32 := constant S_ .f32 0x7F800000#32
  let main_v15 : FVec F S2x1x2048x2048 .f32 := broadcastInDim S2x1x2048x2048 ![] bcast_S_S2x1x2048x2048 main_cst_4
  let main_v16 : IVec S2x1x2048x2048 1 := cmpf .olt main_v14 main_v15
  fn_part1 (F := F) main_arg4 main_arg5 main_arg6 main_arg7 main_v13 main_v16
-- ==== Kernel.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S2048x2048 : Shape := ⟨2, ![2048, 2048]⟩
abbrev S2048x512 : Shape := ⟨2, ![2048, 512]⟩
abbrev S4096x2048 : Shape := ⟨2, ![4096, 2048]⟩
abbrev S1024x512 : Shape := ⟨2, ![1024, 512]⟩
abbrev S512x512 : Shape := ⟨2, ![512, 512]⟩
abbrev S4096x512 : Shape := ⟨2, ![4096, 512]⟩
abbrev S2x2048x512 : Shape := ⟨3, ![2, 2048, 512]⟩
abbrev S2x16x2048x2048 : Shape := ⟨4, ![2, 16, 2048, 2048]⟩
abbrev S1x256x128 : Shape := ⟨3, ![1, 256, 128]⟩
abbrev S1x2048x128 : Shape := ⟨3, ![1, 2048, 128]⟩
abbrev S1x1x256x2048 : Shape := ⟨4, ![1, 1, 256, 2048]⟩
abbrev S256x128 : Shape := ⟨2, ![256, 128]⟩
abbrev S256x64 : Shape := ⟨2, ![256, 64]⟩
abbrev S2048x128 : Shape := ⟨2, ![2048, 128]⟩
abbrev S2048x64 : Shape := ⟨2, ![2048, 64]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 48
  | .smem => 0
  | _ => 0

abbrev bufTy : (tb : Table) → Fin (tcTables nBuf tb) → BufTy
  | .hbm, ⟨0, _⟩ => ⟨S2x2048x2048, .f32⟩
  | .hbm, ⟨1, _⟩ => ⟨S2x2048x128, .f32⟩
  | .hbm, ⟨2, _⟩ => ⟨S2x2048x128, .f32⟩
  | .hbm, ⟨3, _⟩ => ⟨S2x1x2048x2048, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x512, .f32⟩
  | .hbm, ⟨11, _⟩ => ⟨S4096x512, .f32⟩
  | .hbm, ⟨12, _⟩ => ⟨S2x2048x2048, .f32⟩
  | .hbm, ⟨13, _⟩ => ⟨S2x2048x512, .f32⟩
  | .hbm, ⟨14, _⟩ => ⟨S2x2048x512, .f32⟩
  | .hbm, ⟨15, _⟩ => ⟨S2x16x2048x2048, .f32⟩
  | .hbm, ⟨16, _⟩ => ⟨S2x2048x2048, .f32⟩
  | .hbm, ⟨17, _⟩ => ⟨S4096x2048, .f32⟩
  | .hbm, ⟨18, _⟩ => ⟨S4096x2048, .f32⟩
  | .hbm, ⟨19, _⟩ => ⟨S2x2048x2048, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S512x512, .f32⟩
  | .local _ .vmem, ⟨10, _⟩ => ⟨S512x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S512x512, .f32⟩
  | .local _ .vmem, ⟨17, _⟩ => ⟨S512x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1x256x128, .f32⟩
  | .local _ .vmem, ⟨22, _⟩ => ⟨S1x256x128, .f32⟩
  | .local _ .vmem, ⟨23, _⟩ => ⟨S1x2048x128, .f32⟩
  | .local _ .vmem, ⟨24, _⟩ => ⟨S1x2048x128, .f32⟩
  | .local _ .vmem, ⟨25, _⟩ => ⟨S1x2048x128, .f32⟩
  | .local _ .vmem, ⟨26, _⟩ => ⟨S1x2048x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x2048x128, .f32⟩
  | .local _ .vmem, ⟨32, _⟩ => ⟨S1x2048x128, .f32⟩
  | .local _ .vmem, ⟨33, _⟩ => ⟨S1x2048x128, .f32⟩
  | .local _ .vmem, ⟨34, _⟩ => ⟨S1x2048x128, .f32⟩
  | .local _ .vmem, ⟨35, _⟩ => ⟨S1x1x256x2048, .f32⟩
  | .local _ .vmem, ⟨36, _⟩ => ⟨S1x1x256x2048, .f32⟩
  | .local _ .vmem, ⟨37, _⟩ => ⟨S1x1x256x2048, .f32⟩
  | .local _ .vmem, ⟨38, _⟩ => ⟨S1x1x256x2048, .f32⟩
  | .local _ .vmem, ⟨39, _⟩ => ⟨S1x256x128, .f32⟩
  | .local _ .vmem, ⟨40, _⟩ => ⟨S1x256x128, .f32⟩
  | .local _ .vmem, ⟨41, _⟩ => ⟨S1024x512, .f32⟩
  | .local _ .vmem, ⟨42, _⟩ => ⟨S1024x512, .f32⟩
  | .local _ .vmem, ⟨43, _⟩ => ⟨S512x512, .f32⟩
  | .local _ .vmem, ⟨44, _⟩ => ⟨S512x512, .f32⟩
  | .local _ .vmem, ⟨45, _⟩ => ⟨S1024x512, .f32⟩
  | .local _ .vmem, ⟨46, _⟩ => ⟨S1024x512, .f32⟩
  | .local _ .vmem, ⟨47, _⟩ => ⟨S1024x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc3_stg7_0 : Ref sig .tc := ⟨.vmem, 35, rfl⟩
abbrev cc3_stg7_1 : Ref sig .tc := ⟨.vmem, 36, rfl⟩
abbrev cc3_stg8_0 : Ref sig .tc := ⟨.vmem, 37, rfl⟩
abbrev cc3_stg8_1 : Ref sig .tc := ⟨.vmem, 38, rfl⟩
abbrev cc3_stg9_0 : Ref sig .tc := ⟨.vmem, 39, rfl⟩
abbrev cc3_stg9_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc3_sem7_0 : DmaSem sig := 32
abbrev cc3_sem7_1 : DmaSem sig := 33
abbrev cc3_sem8_0 : DmaSem sig := 34
abbrev cc3_sem8_1 : DmaSem sig := 35
abbrev cc3_sem9_0 : DmaSem sig := 36
abbrev cc3_sem9_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 16], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc3_transform_8 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_9 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S1x256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1x2048x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false, false]

abbrev stage3_6 : Fin 2 → Memref sig .tc .vmem S1x2048x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false, false]

abbrev stage3_7 : Fin 2 → Memref sig .tc .vmem S1x1x256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true, false]

abbrev stage3_8 : Fin 2 → Memref sig .tc .vmem S1x1x256x2048 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true, true]

abbrev stage3_9 : Fin 2 → Memref sig .tc .vmem S1x256x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true, true]

abbrev grid4 : Pipeline.Grid := ⟨3, ![4, 4, 4], ![false, false, false]⟩

def k4_cond2 (i : grid4.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  shapeCasts_S2x2048x2048_S4096x2048 : S2x2048x2048.ShapeCasts S4096x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S4096x2048_S2x2048x2048 : S4096x2048.ShapeCasts S2x2048x2048
  shapeCasts_S4096x512_S2x2048x512 : S4096x512.ShapeCasts S2x2048x512
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  slices_S256x128_o0_0_S256x64 : S256x128.Slices ![0, 0] S256x64
  slices_S256x128_o0_64_S256x64 : S256x128.Slices ![0, 64] S256x64
  concatenates_S256x64_S256x64_S256x128_d1 : Shape.Concatenates [S256x64, S256x64] S256x128 1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S2048x128_o0_0_S2048x64 : S2048x128.Slices ![0, 0] S2048x64
  slices_S2048x128_o0_64_S2048x64 : S2048x128.Slices ![0, 64] S2048x64
  concatenates_S2048x64_S2048x64_S2048x128_d1 : Shape.Concatenates [S2048x64, S2048x64] S2048x128 1
  transposes_S2048x128_p1_0_S128x2048 : S2048x128.Transposes [1, 0] S128x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  shapeCasts_S256x128_S1x256x128 : S256x128.ShapeCasts S1x256x128
  dot_S1024x512_S512x512_S1024x512_1_0_0_1_n_n_wf : DotDims.WF S1024x512 S512x512 S1024x512 [1] [0] [0] [1] [] []
  dot_S256x128_S128x2048_S256x2048_1_0_0_1_n_n_wf : DotDims.WF S256x128 S128x2048 S256x2048 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .f32 = 32 ∨ (Rect.block (s := S4096x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x2048.size a
  hwx0_2 : ∀ i : grid0.Coords, EltTy.bits .f32 = 32 ∨ (Rect.block (s := S4096x2048) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x2048.size a
  hwx1_0 : ∀ i : grid1.Coords, EltTy.bits .f32 = 32 ∨ (Rect.block (s := S4096x2048) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S2048x512.size a
  hwx1_1 : ∀ i : grid1.Coords, EltTy.bits .f32 = 32 ∨ (Rect.block (s := S2048x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x512.size a
  hwx1_2 : ∀ i : grid1.Coords, EltTy.bits .f32 = 32 ∨ (Rect.block (s := S4096x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x2048.size a
  hwx2_0 : ∀ i : grid2.Coords, EltTy.bits .f32 = 32 ∨ (Rect.block (s := S4096x2048) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S2048x512.size a
  hwx2_1 : ∀ i : grid2.Coords, EltTy.bits .f32 = 32 ∨ (Rect.block (s := S2048x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S4096x512.size a
  hwx2_2 : ∀ i : grid2.Coords, EltTy.bits .f32 = 32 ∨ (Rect.block (s := S4096x512) S1024x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x128.size a ≤ S2x2048x2048.size a
  hwx3_0 : ∀ i : grid3.Coords, EltTy.bits .f32 = 32 ∨ (Rect.block (s := S2x2048x2048) S1x256x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S2x2048x512.size a
  hwx3_1 : ∀ i : grid3.Coords, EltTy.bits .f32 = 32 ∨ (Rect.block (s := S2x2048x512) S1x2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S2x2048x512.size a
  hwx3_2 : ∀ i : grid3.Coords, EltTy.bits .f32 = 32 ∨ (Rect.block (s := S2x2048x512) S1x2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x128.size a ≤ S2x2048x128.size a
  hwx3_3 : ∀ i : grid3.Coords, EltTy.bits .f32 = 32 ∨ (Rect.block (s := S2x2048x128) S1x256x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256x128.size a ≤ S2x2048x128.size a
  hwx3_4 : ∀ i : grid3.Coords, EltTy.bits .f32 = 32 ∨ (Rect.block (s := S2x2048x128) S1x256x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x2048x128.size a ≤ S2x2048x128.size a
  hwx3_5 : ∀ i : grid3.Coords, EltTy.bits .f32 = 32 ∨ (Rect.block (s := S2x2048x128) S1x2048x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x2048x128.size a ≤ S2x2048x128.size a
  hwx3_6 : ∀ i : grid3.Coords, EltTy.bits .f32 = 32 ∨ (Rect.block (s := S2x2048x128) S1x2048x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x1x256x2048.size a ≤ S2x1x2048x2048.size a
  hwx3_7 : ∀ i : grid3.Coords, EltTy.bits .f32 = 32 ∨ (Rect.block (s := S2x1x2048x2048) S1x1x256x2048.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x256x2048.size a ≤ S2x16x2048x2048.size a
  hwx3_8 : ∀ i : grid3.Coords, EltTy.bits .f32 = 32 ∨ (Rect.block (s := S2x16x2048x2048) S1x1x256x2048.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x256x128.size a ≤ S2x2048x2048.size a
  hwx3_9 : ∀ i : grid3.Coords, EltTy.bits .f32 = 32 ∨ (Rect.block (s := S2x2048x2048) S1x256x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x2048.size a
  hwx4_0 : ∀ i : grid4.Coords, EltTy.bits .f32 = 32 ∨ (Rect.block (s := S4096x2048) S1024x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S2048x2048.size a
  hwx4_1 : ∀ i : grid4.Coords, EltTy.bits .f32 = 32 ∨ (Rect.block (s := S2048x2048) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S4096x2048.size a
  hwx4_2 : ∀ i : grid4.Coords, EltTy.bits .f32 = 32 ∨ (Rect.block (s := S4096x2048) S1024x512.size (cc4_transform_2 i) (hinb4_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v4) S1x256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S1x256x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg2) S1x256x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg1) S1x2048x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg2) S1x2048x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg3) S1x1x256x2048.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v7_0) S1x1x256x2048.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v7_1) S1x256x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v8) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S512x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9) S1024x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S2048x2048 : Shape := ⟨2, ![2048, 2048]⟩
abbrev S2048x512 : Shape := ⟨2, ![2048, 512]⟩
abbrev S2x2048x16x128 : Shape := ⟨4, ![2, 2048, 16, 128]⟩
abbrev S2x16x2048x128 : Shape := ⟨4, ![2, 16, 2048, 128]⟩
abbrev S2x2048x512 : Shape := ⟨3, ![2, 2048, 512]⟩
abbrev S2x2048x4x128 : Shape := ⟨4, ![2, 2048, 4, 128]⟩
abbrev S2x4x2048x128 : Shape := ⟨4, ![2, 4, 2048, 128]⟩
abbrev S2x1x2048x128 : Shape := ⟨4, ![2, 1, 2048, 128]⟩
abbrev S2x16x2048x64 : Shape := ⟨4, ![2, 16, 2048, 64]⟩
abbrev S2x4x2048x64 : Shape := ⟨4, ![2, 4, 2048, 64]⟩
abbrev S2x4x4x2048x128 : Shape := ⟨5, ![2, 4, 4, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x128, .f32⟩
  | .hbm, ⟨2, _⟩ => ⟨S2x2048x128, .f32⟩
  | .hbm, ⟨3, _⟩ => ⟨S2x1x2048x2048, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S2048x2048, .f32⟩
  | .hbm, ⟨8, _⟩ => ⟨S2x2048x2048, .f32⟩
  | .hbm, ⟨9, _⟩ => ⟨S2x2048x16x128, .f32⟩
  | .hbm, ⟨10, _⟩ => ⟨S2x16x2048x128, .f32⟩
  | .hbm, ⟨11, _⟩ => ⟨S2x2048x512, .f32⟩
  | .hbm, ⟨12, _⟩ => ⟨S2x2048x4x128, .f32⟩
  | .hbm, ⟨13, _⟩ => ⟨S2x4x2048x128, .f32⟩
  | .hbm, ⟨14, _⟩ => ⟨S2x2048x512, .f32⟩
  | .hbm, ⟨15, _⟩ => ⟨S2x2048x4x128, .f32⟩
  | .hbm, ⟨16, _⟩ => ⟨S2x4x2048x128, .f32⟩
  | .hbm, ⟨17, _⟩ => ⟨S2x1x2048x128, .f32⟩
  | .hbm, ⟨18, _⟩ => ⟨S2x1x2048x128, .f32⟩
  | .hbm, ⟨19, _⟩ => ⟨S2x16x2048x128, .f32⟩
  | .hbm, ⟨20, _⟩ => ⟨S2x16x2048x128, .f32⟩
  | .hbm, ⟨21, _⟩ => ⟨S2x16x2048x64, .f32⟩
  | .hbm, ⟨22, _⟩ => ⟨S2x16x2048x64, .f32⟩
  | .hbm, ⟨23, _⟩ => ⟨S2x16x2048x64, .f32⟩
  | .hbm, ⟨24, _⟩ => ⟨S2x16x2048x128, .f32⟩
  | .hbm, ⟨25, _⟩ => ⟨S2x16x2048x128, .f32⟩
  | .hbm, ⟨26, _⟩ => ⟨S2x16x2048x128, .f32⟩
  | .hbm, ⟨27, _⟩ => ⟨S2x16x2048x128, .f32⟩
  | .hbm, ⟨28, _⟩ => ⟨S2x4x2048x128, .f32⟩
  | .hbm, ⟨29, _⟩ => ⟨S2x4x2048x128, .f32⟩
  | .hbm, ⟨30, _⟩ => ⟨S2x4x2048x64, .f32⟩
  | .hbm, ⟨31, _⟩ => ⟨S2x4x2048x64, .f32⟩
  | .hbm, ⟨32, _⟩ => ⟨S2x4x2048x64, .f32⟩
  | .hbm, ⟨33, _⟩ => ⟨S2x4x2048x128, .f32⟩
  | .hbm, ⟨34, _⟩ => ⟨S2x4x2048x128, .f32⟩
  | .hbm, ⟨35, _⟩ => ⟨S2x4x2048x128, .f32⟩
  | .hbm, ⟨36, _⟩ => ⟨S2x4x2048x128, .f32⟩
  | .hbm, ⟨37, _⟩ => ⟨S2x4x4x2048x128, .f32⟩
  | .hbm, ⟨38, _⟩ => ⟨S2x16x2048x128, .f32⟩
  | .hbm, ⟨39, _⟩ => ⟨S2x4x4x2048x128, .f32⟩
  | .hbm, ⟨40, _⟩ => ⟨S2x16x2048x128, .f32⟩
  | .hbm, ⟨41, _⟩ => ⟨S2x16x2048x2048, .f32⟩
  | .hbm, ⟨42, _⟩ => ⟨S_, .f32⟩
  | .hbm, ⟨43, _⟩ => ⟨S2x16x2048x2048, .f32⟩
  | .hbm, ⟨44, _⟩ => ⟨S2x16x2048x2048, .f32⟩
  | .hbm, ⟨45, _⟩ => ⟨S2x16x2048x2048, .f32⟩
  | .hbm, ⟨46, _⟩ => ⟨S2x16x2048x2048, .f32⟩
  | .hbm, ⟨47, _⟩ => ⟨S_, .f32⟩
  | .hbm, ⟨48, _⟩ => ⟨S2x16x2048, .f32⟩
  | .hbm, ⟨49, _⟩ => ⟨S_, .f32⟩
  | .hbm, ⟨50, _⟩ => ⟨S2x16x2048, .f32⟩
  | .hbm, ⟨51, _⟩ => ⟨S2x16x2048, .f32⟩
  | .hbm, ⟨52, _⟩ => ⟨S2x16x2048x1, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S_, .f32⟩
  | .hbm, ⟨57, _⟩ => ⟨S2x16x2048, .f32⟩
  | .hbm, ⟨58, _⟩ => ⟨S2x16x2048x1, .f32⟩
  | .hbm, ⟨59, _⟩ => ⟨S2x16x2048x2048, .f32⟩
  | .hbm, ⟨60, _⟩ => ⟨S2x16x2048x2048, .f32⟩
  | .hbm, ⟨61, _⟩ => ⟨S2x16x2048x128, .f32⟩
  | .hbm, ⟨62, _⟩ => ⟨S2x2048x16x128, .f32⟩
  | .hbm, ⟨63, _⟩ => ⟨S2x2048x2048, .f32⟩
  | .hbm, ⟨64, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_cst_1 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]

class Facts₀ : Prop where
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  shapeCasts_S2x2048x512_S2x2048x4x128 : S2x2048x512.ShapeCasts S2x2048x4x128
  transposes_S2x2048x4x128_S2x4x2048x128_0_2_1_3 : S2x2048x4x128.Transposes [0, 2, 1, 3] S2x4x2048x128
  bcast_S2x2048x128_S2x1x2048x128_0_2_3 : S2x2048x128.BroadcastsInDim S2x1x2048x128 (![0, 2, 3] : Fin 3 → Fin S2x1x2048x128.rank)
  bcast_S2x1x2048x128_S2x16x2048x128_0_1_2_3 : S2x1x2048x128.BroadcastsInDim S2x16x2048x128 (![0, 1, 2, 3] : Fin 4 → Fin S2x16x2048x128.rank)
  slices_S2x16x2048x128_S2x16x2048x64_0_0_0_0 : S2x16x2048x128.Slices ![0, 0, 0, 0] S2x16x2048x64
  slices_S2x16x2048x128_S2x16x2048x64_0_0_0_64 : S2x16x2048x128.Slices ![0, 0, 0, 64] S2x16x2048x64
  concatenates_S2x16x2048x64_S2x16x2048x64_S2x16x2048x128_d3 : Shape.Concatenates [S2x16x2048x64, S2x16x2048x64] S2x16x2048x128 3
  bcast_S2x1x2048x128_S2x4x2048x128_0_1_2_3 : S2x1x2048x128.BroadcastsInDim S2x4x2048x128 (![0, 1, 2, 3] : Fin 4 → Fin S2x4x2048x128.rank)
  slices_S2x4x2048x128_S2x4x2048x64_0_0_0_0 : S2x4x2048x128.Slices ![0, 0, 0, 0] S2x4x2048x64
  slices_S2x4x2048x128_S2x4x2048x64_0_0_0_64 : S2x4x2048x128.Slices ![0, 0, 0, 64] S2x4x2048x64
  concatenates_S2x4x2048x64_S2x4x2048x64_S2x4x2048x128_d3 : Shape.Concatenates [S2x4x2048x64, S2x4x2048x64] S2x4x2048x128 3
  bcast_S2x4x2048x128_S2x4x4x2048x128_0_1_3_4 : S2x4x2048x128.BroadcastsInDim S2x4x4x2048x128 (![0, 1, 3, 4] : Fin 4 → Fin S2x4x4x2048x128.rank)
  shapeCasts_S2x4x4x2048x128_S2x16x2048x128 : S2x4x4x2048x128.ShapeCasts S2x16x2048x128
  bcast_S_S2x16x2048x2048 : S_.BroadcastsInDim S2x16x2048x2048 (![] : Fin 0 → Fin S2x16x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S2048x2048_S2x2048x2048_2_0_01_1_n_n_wf : DotDims.WF S2x2048x2048 S2048x2048 S2x2048x2048 [2] [0] [0, 1] [1] [] []
  dot_S2x2048x2048_S2048x512_S2x2048x512_2_0_01_1_n_n_wf : DotDims.WF S2x2048x2048 S2048x512 S2x2048x512 [2] [0] [0, 1] [1] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S2048x2048_S2x2048x2048_2_0_01_1_n_n : DotDims S2x2048x2048 S2048x2048 S2x2048x2048 where
  lhsContracting := [2]
  rhsContracting := [0]
  lhsNonContracting := [0, 1]
  rhsNonContracting := [1]
  lhsBatch := []
  rhsBatch := []
  wf := dot_S2x2048x2048_S2048x2048_S2x2048x2048_2_0_01_1_n_n_wf
def dot_S2x2048x2048_S2048x512_S2x2048x512_2_0_01_1_n_n : DotDims S2x2048x2048 S2048x512 S2x2048x512 where
  lhsContracting := [2]
  rhsContracting := [0]
  lhsNonContracting := [0, 1]
  rhsNonContracting := [1]
  lhsBatch := []
  rhsBatch := []
  wf := dot_S2x2048x2048_S2048x512_S2x2048x512_2_0_01_1_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.MmRun0.lean ====
import proofs.«403689_j2439541424354_3_alg».proof.Proof.Gen.KernelIdeal.Launch
import proofs.«403689_j2439541424354_3_alg».proof.Proof.Gen.KernelIdeal.Skeleton
import proofs.«403689_j2439541424354_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

abbrev mm0_first (i : grid0.Coords) : Prop :=
  (Scalar.cmpi .ne (Scalar.extui (Scalar.cmpi .eq (BitVec.ofNat 32 (i 2).val) 0#32)) 0#32) = 1#1

theorem mm0_first_iff : ∀ t : Fin cfg0.N, mm0_first (grid0.coords t) ↔ t.val % 4 = 0 := by decide +kernel

abbrev mm0_last (i : grid0.Coords) : Prop := k0_cond2 i = 1#1

theorem mm0_last_iff : ∀ t : Fin cfg0.N, mm0_last (grid0.coords t) ↔ t.val % 4 = 3 := by decide +kernel

theorem mm0_live0 : ∀ t : Fin cfg0.N, cfg0.idle 0 (grid0.coords t) = false := by decide +kernel
theorem mm0_live1 : ∀ t : Fin cfg0.N, cfg0.idle 1 (grid0.coords t) = false := by decide +kernel

theorem mm0_idle2 : ∀ t : Fin cfg0.N, ¬mm0_last (grid0.coords t) → cfg0.idle 2 (grid0.coords t) = true := by decide +kernel
theorem mm0_noflush2 : ∀ t : Fin cfg0.N, ¬mm0_last (grid0.coords t) → (cfg0.win 2).flush t = false := by decide +kernel

theorem mm0_live2 : ∀ t : Fin cfg0.N, mm0_last (grid0.coords t) → cfg0.idle 2 (grid0.coords t) = false := by decide +kernel

abbrev mm0_m0 (t : Fin cfg0.N) : Memref sig .tc .vmem S1024x512 .f32 := win0_0.stage (cfg0.slots t 0)
abbrev mm0_h0 (t : Fin cfg0.N) : (mm0_m0 t).IsWhole := hstage0_0 ((cfg0.slots t 0).cast nbuf0_0)
abbrev mm0_m1 (t : Fin cfg0.N) : Memref sig .tc .vmem S512x512 .f32 := win0_1.stage (cfg0.slots t 1)
abbrev mm0_h1 (t : Fin cfg0.N) : (mm0_m1 t).IsWhole := hstage0_1 ((cfg0.slots t 1).cast nbuf0_1)
abbrev mm0_m2 (t : Fin cfg0.N) : Memref sig .tc .vmem S1024x512 .f32 := win0_2.stage (cfg0.slots t 2)
abbrev mm0_h2 (t : Fin cfg0.N) : (mm0_m2 t).IsWhole := hstage0_2 ((cfg0.slots t 2).cast nbuf0_2)

abbrev mm0_sc : Memref sig .tc .vmem S1024x512 .f32 := Memref.whole cc0_scratch0

abbrev mm0_VO : View sig .tc .vmem S1024x512 .f32 := (Memref.whole cc0_stg2_0 : Memref sig .tc .vmem S1024x512 .f32).view
abbrev mm0_VS : View sig .tc .vmem S1024x512 .f32 := mm0_sc.view

theorem mm0_PhiA_eq (c : Dev nD) :
    (Pipeline.ΦA spec0 c : sProp 𝕄)
      = iprop(iprop((∃ d, owns (c : Thread nD τ) mm0_sc fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [mm0_sc, owns_whole]; try rfl

-- A whole memref is owned at x exactly when it holds the raw contents that read x.
theorem mm0_owns_eq {s : Shape} {m : Memref sig .tc .vmem s .f32} (h : m.IsWhole) (c : Dev nD) (x : Vec F s .f32) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

-- The kernel's triple: both factors come back as found; P5, PS hold the output block and the accumulator before, Q5, QS after.
def mm0_triple (x0 : Vec F S1024x512 .f32) (x1 : Vec F S512x512 .f32) (P5 PS Q5 QS : sProp 𝕄) : Prop :=
  ∀ (E : Set ℕ) (K : PUnit → sProp 𝕄),
    iprop(owns (c : Thread nD τ) arg3 fullShare x0 ∗ owns (c : Thread nD τ) arg4 fullShare x1 ∗ P5 ∗ PS ∗ (iprop(owns (c : Thread nD τ) arg3 fullShare x0 ∗ owns (c : Thread nD τ) arg4 fullShare x1 ∗ Q5 ∗ QS) -∗ K ⟨⟩))
      ⊢ wp frame (wpE (defs₀ (F := F)) Variants.none c none) E (cc0__matmul_kernel i arg3 harg3 arg4 harg4 arg5 harg5 arg6 harg6) K

def mm0_runA (hc0 : mm0_first i) (hc1 : ¬mm0_last i) (x0 : Vec F S1024x512 .f32) (x1 : Vec F S512x512 .f32) :
    { LS0 : List (View.Piece (Elt F) S1024x512 .f32) //
      ∀ xi2 : Vec F S1024x512 .f32, mm0_triple c i arg3 harg3 arg4 harg4 arg5 harg5 arg6 harg6 x0 x1 (owns (c : Thread nD τ) arg5 fullShare xi2) iprop(∃ d, owns (c : Thread nD τ) arg6 fullShare d) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc0__matmul_kernel_eq_skeleton, mm0_owns_eq harg3, mm0_owns_eq harg4, mm0_owns_eq harg5, mm0_owns_eq harg6]; unfold cc0__matmul_kernel_skel
    iintro ⟨H0, H1, H2, ⟨%ds0, HS0⟩, Hk⟩
    sl_exec (disch := first | exact hc0 | exact hc1)
    sl_step
    iapply Hk
    iframe H0 H1 H2
    iexists _; iexact HS0

def mm0_runB (hc0 : ¬mm0_first i) (hc1 : ¬mm0_last i) (x0 : Vec F S1024x512 .f32) (x1 : Vec F S512x512 .f32) (xs0 : Vec F S1024x512 .f32) :
    { LS0 : List (View.Piece (Elt F) S1024x512 .f32) //
      ∀ xi2 : Vec F S1024x512 .f32, mm0_triple c i arg3 harg3 arg4 harg4 arg5 harg5 arg6 harg6 x0 x1 (owns (c : Thread nD τ) arg5 fullShare xi2) (owns (c : Thread nD τ) arg6 fullShare xs0) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc0__matmul_kernel_eq_skeleton, mm0_owns_eq harg3, mm0_owns_eq harg4, mm0_owns_eq harg5, mm0_owns_eq harg6]; unfold cc0__matmul_kernel_skel
    iintro ⟨H0, H1, H2, HS0, Hk⟩
    sl_exec (disch := first | exact hc0 | exact hc1)
    sl_step
    iapply Hk
    iframe H0 H1 H2
    iexists _; iexact HS0

def mm0_runC (hc0 : ¬mm0_first i) (hc1 : mm0_last i) (x0 : Vec F S1024x512 .f32) (x1 : Vec F S512x512 .f32) (xs0 : Vec F S1024x512 .f32) :
    Σ' (L2 : List (View.Piece (Elt F) S1024x512 .f32)), { LS0 : List (View.Piece (Elt F) S1024x512 .f32) //
      mm0_triple c i arg3 harg3 arg4 harg4 arg5 harg5 arg6 harg6 x0 x1 iprop(∃ d, owns (c : Thread nD τ) arg5 fullShare d) (owns (c : Thread nD τ) arg6 fullShare xs0) iprop(∃ f, arg5.view.loc (c : Thread nD τ) ↦[arg5.view.set]{fullShare} arg5.view.writes (Elt F) f L2) iprop(∃ f, arg6.view.loc (c : Thread nD τ) ↦[arg6.view.set]{fullShare} arg6.view.writes (Elt F) f LS0) } := by
  refine ⟨?_, ?_, fun E K => ?run⟩
  case run =>
    simp only [cc0__matmul_kernel_eq_skeleton, mm0_owns_eq harg3, mm0_owns_eq harg4, mm0_owns_eq harg5, mm0_owns_eq harg6]; unfold cc0__matmul_kernel_skel
    iintro ⟨H0, H1, ⟨%d2, H2⟩, HS0, Hk⟩
    sl_exec (disch := first | exact hc0 | exact hc1)
    sl_step
    iapply Hk
    iframe H0 H1
    isplitl [H2]; · iexists _; iexact H2
    iexists _; iexact HS0
end

end Cert.KernelIdeal.Hand

end
-- ==== Proof.MmDat0.lean ====
import proofs.«403689_j2439541424354_3_alg».proof.Proof.MmRun0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def mm0_iblk (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (i : grid0.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

section
variable (hc0 : mm0_first i) (hc1 : ¬mm0_last i) (x0 : Vec F S1024x512 .f32) (x1 : Vec F S512x512 .f32)
theorem mm0_scoverA (y : S1024x512.Idx) : ∃ pc ∈ (mm0_runA c i arg3 harg3 arg4 harg4 arg5 harg5 arg6 harg6 hc0 hc1 x0 x1).1, y ∈ pc.1.set :=
  View.cover_of_tiledL _ S1024x512.size (by sl_kernel_rfl) y
def mm0_soutA : Vec F S1024x512 .f32 :=
  mm0_VS.read (Elt F) (mm0_VS.writes (Elt F) mm0_VS.junk (mm0_runA c i arg3 harg3 arg4 harg4 arg5 harg5 arg6 harg6 hc0 hc1 x0 x1).1)
end

section
variable (hc0 : ¬mm0_first i) (hc1 : ¬mm0_last i) (x0 : Vec F S1024x512 .f32) (x1 : Vec F S512x512 .f32) (xs0 : Vec F S1024x512 .f32)
theorem mm0_scoverB (y : S1024x512.Idx) : ∃ pc ∈ (mm0_runB c i arg3 harg3 arg4 harg4 arg5 harg5 arg6 harg6 hc0 hc1 x0 x1 xs0).1, y ∈ pc.1.set :=
  View.cover_of_tiledL _ S1024x512.size (by sl_kernel_rfl) y
def mm0_soutB : Vec F S1024x512 .f32 :=
  mm0_VS.read (Elt F) (mm0_VS.writes (Elt F) mm0_VS.junk (mm0_runB c i arg3 harg3 arg4 harg4 arg5 harg5 arg6 harg6 hc0 hc1 x0 x1 xs0).1)
end

section
variable (hc0 : ¬mm0_first i) (hc1 : mm0_last i) (x0 : Vec F S1024x512 .f32) (x1 : Vec F S512x512 .f32) (xs0 : Vec F S1024x512 .f32)
theorem mm0_scoverC (y : S1024x512.Idx) : ∃ pc ∈ (mm0_runC c i arg3 harg3 arg4 harg4 arg5 harg5 arg6 harg6 hc0 hc1 x0 x1 xs0).2.1, y ∈ pc.1.set :=
  View.cover_of_tiledL _ S1024x512.size (by sl_kernel_rfl) y
theorem mm0_coverC (y : S1024x512.Idx) : ∃ pc ∈ (mm0_runC c i arg3 harg3 arg4 harg4 arg5 harg5 arg6 harg6 hc0 hc1 x0 x1 xs0).1, y ∈ pc.1.set :=
  View.cover_of_tiledL _ S1024x512.size (by sl_kernel_rfl) y
def mm0_soutC : Vec F S1024x512 .f32 :=
  mm0_VS.read (Elt F) (mm0_VS.writes (Elt F) mm0_VS.junk (mm0_runC c i arg3 harg3 arg4 harg4 arg5 harg5 arg6 harg6 hc0 hc1 x0 x1 xs0).2.1)
def mm0_outC : Vec F S1024x512 .f32 :=
  mm0_VO.read (Elt F) (mm0_VO.writes (Elt F) mm0_VO.junk (mm0_runC c i arg3 harg3 arg4 harg4 arg5 harg5 arg6 harg6 hc0 hc1 x0 x1 xs0).1)
end
end

def mm0_outIdle : Vec F S1024x512 .f32 := mm0_VO.read (Elt F) mm0_VO.junk

variable (t : Fin cfg0.N)

-- Each case at grid point t, on the point's blocks; a later K step continues from the accumulator a.
abbrev mm0_atA (h0 : t.val % 4 = 0) (h1 : ¬t.val % 4 = 3) : Vec F S1024x512 .f32 :=
  mm0_soutA c (grid0.coords t) (mm0_m0 t) (mm0_h0 t) (mm0_m1 t) (mm0_h1 t) (mm0_m2 t) (mm0_h2 t) mm0_sc (Memref.isWhole_whole _) ((mm0_first_iff t).mpr h0) (fun h => h1 ((mm0_last_iff t).mp h)) (mm0_iblk V c 0 t) (mm0_iblk V c 1 t)
abbrev mm0_atB (h0 : ¬t.val % 4 = 0) (h1 : ¬t.val % 4 = 3) (a : Vec F S1024x512 .f32) : Vec F S1024x512 .f32 :=
  mm0_soutB c (grid0.coords t) (mm0_m0 t) (mm0_h0 t) (mm0_m1 t) (mm0_h1 t) (mm0_m2 t) (mm0_h2 t) mm0_sc (Memref.isWhole_whole _) (fun h => h0 ((mm0_first_iff t).mp h)) (fun h => h1 ((mm0_last_iff t).mp h)) (mm0_iblk V c 0 t) (mm0_iblk V c 1 t) a
abbrev mm0_atC (h0 : ¬t.val % 4 = 0) (h1 : t.val % 4 = 3) (a : Vec F S1024x512 .f32) : Vec F S1024x512 .f32 :=
  mm0_soutC c (grid0.coords t) (mm0_m0 t) (mm0_h0 t) (mm0_m1 t) (mm0_h1 t) (mm0_m2 t) (mm0_h2 t) mm0_sc (Memref.isWhole_whole _) (fun h => h0 ((mm0_first_iff t).mp h)) ((mm0_last_iff t).mpr h1) (mm0_iblk V c 0 t) (mm0_iblk V c 1 t) a
abbrev mm0_atO (h0 : ¬t.val % 4 = 0) (h1 : t.val % 4 = 3) (a : Vec F S1024x512 .f32) : Vec F S1024x512 .f32 :=
  mm0_outC c (grid0.coords t) (mm0_m0 t) (mm0_h0 t) (mm0_m1 t) (mm0_h1 t) (mm0_m2 t) (mm0_h2 t) mm0_sc (Memref.isWhole_whole _) (fun h => h0 ((mm0_first_iff t).mp h)) ((mm0_last_iff t).mpr h1) (mm0_iblk V c 0 t) (mm0_iblk V c 1 t) a

-- The pair (output block, accumulator) after point n, by recursion on n.
def mm0_outsAt : (n : ℕ) → n < cfg0.N → Vec F S1024x512 .f32 × Vec F S1024x512 .f32
  | 0, hn => (mm0_outIdle, mm0_atA V c ⟨0, hn⟩ (Nat.zero_mod 4) (by show ¬0 % 4 = 3; decide))
  | n + 1, hn =>
    if h0 : (n + 1) % 4 = 0 then (mm0_outIdle, mm0_atA V c ⟨n + 1, hn⟩ h0 (by show ¬(n + 1) % 4 = 3; omega))
    else if h1 : (n + 1) % 4 = 3 then (mm0_atO V c ⟨n + 1, hn⟩ h0 h1 (mm0_outsAt n (Nat.lt_of_succ_lt hn)).2, mm0_atC V c ⟨n + 1, hn⟩ h0 h1 (mm0_outsAt n (Nat.lt_of_succ_lt hn)).2)
    else (mm0_outIdle, mm0_atB V c ⟨n + 1, hn⟩ h0 h1 (mm0_outsAt n (Nat.lt_of_succ_lt hn)).2)

theorem mm0_outsAt_A (h0 : t.val % 4 = 0) (h1 : ¬t.val % 4 = 3) :
    mm0_outsAt V c t.val t.isLt = (mm0_outIdle, mm0_atA V c t h0 h1) := by
  obtain ⟨n, hn⟩ := t
  cases n with
  | zero => rfl
  | succ n => exact dif_pos h0

theorem mm0_outsAt_B (h0 : ¬t.val % 4 = 0) (h1 : ¬t.val % 4 = 3) :
    mm0_outsAt V c t.val t.isLt = (mm0_outIdle, mm0_atB V c t h0 h1 (mm0_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_neg h1)

theorem mm0_outsAt_C (h0 : ¬t.val % 4 = 0) (h1 : t.val % 4 = 3) :
    mm0_outsAt V c t.val t.isLt = (mm0_atO V c t h0 h1 (mm0_outsAt V c (t.val - 1) (Nat.lt_of_le_of_lt (Nat.sub_le _ _) t.isLt)).2,
      mm0_atC V c t h0 h1 (mm0_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_pos h1)

-- The accumulator before point n: arbitrary before the first point, then what point n - 1 left.
def mm0_acc : (n : ℕ) → n ≤ cfg0.N → sProp 𝕄
  | 0, _ => iprop(∃ d, owns (c : Thread nD τ) mm0_sc fullShare d)
  | n + 1, hn => owns (c : Thread nD τ) mm0_sc fullShare (mm0_outsAt V c n hn).2

theorem mm0_acc_any (n : ℕ) (h : n ≤ cfg0.N) : mm0_acc V c n h ⊢ iprop(∃ d, owns (c : Thread nD τ) mm0_sc fullShare d) := by
  cases n with
  | zero => exact Idealize.SL.BI.Entails.refl _
  | succ n => unfold mm0_acc; iintro H; iexists _; iexact H

theorem mm0_acc_pos (n : ℕ) (h : n ≤ cfg0.N) (h0 : ¬n % 4 = 0) :
    mm0_acc V c n h = owns (c : Thread nD τ) mm0_sc fullShare (mm0_outsAt V c (n - 1) (by omega)).2 := by
  cases n with
  | zero => exact absurd (Nat.zero_mod 4) h0
  | succ n => rfl

-- The invariant between points; P is what it says of the accumulator.
def mm0_inv (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

def mm0_dat : Dat τ (Elt F) Unit ℕ (UR sig nD τ) ℕ cfg0 c where
  A w := V c (Pipeline.arrRef spec0 w)
  after w t := match w with
    | ⟨0, _⟩ => mm0_iblk V c 0 t
    | ⟨1, _⟩ => mm0_iblk V c 1 t
    | ⟨2, _⟩ => (mm0_outsAt V c t.val t.isLt).1
  Φ t := mm0_inv c (mm0_acc V c t.val (Nat.le_of_lt_succ t.isLt))
  q _ := fullShare
  owed _ := 0

theorem mm0_A_eq (w : Fin cfg0.W) : (mm0_dat V c).A w = V c (Pipeline.arrRef spec0 w) := rfl

theorem mm0_after2 : (mm0_dat V c).after 2 t = (mm0_outsAt V c t.val t.isLt).1 := rfl

theorem mm0_before0 (d) : (mm0_dat V c).before 0 t d = mm0_iblk V c 0 t :=
  ((mm0_dat V c).before_in_eq_fetched 0 rfl (fun _ => rfl) (fun _ _ _ => rfl) (fun _ => rfl) t d).trans rfl
theorem mm0_before1 (d) : (mm0_dat V c).before 1 t d = mm0_iblk V c 1 t :=
  ((mm0_dat V c).before_in_eq_fetched 1 rfl (fun _ => rfl) (fun _ _ _ => rfl) (fun _ => rfl) t d).trans rfl

theorem mm0_leaves (w : Fin cfg0.W) (h : cfg0.idle w (grid0.coords t) = false) :
    (mm0_dat V c).leavesExact w t = owns (c : Thread nD τ) ((cfg0.win w).stage (cfg0.slots t w)) fullShare ((mm0_dat V c).after w t) := by
  unfold Dat.leavesExact; rw [h]

-- By cases on the point's position modulo 4.
theorem mm0_sound_body :
    iprop((mm0_dat V c).Φ t.castSucc ∗ (mm0_dat V c).owesAt () t.castSucc
        ∗ (∃ d, owns (c : Thread nD τ) (mm0_m0 t) fullShare ((mm0_dat V c).before 0 t d))
        ∗ (∃ d, owns (c : Thread nD τ) (mm0_m1 t) fullShare ((mm0_dat V c).before 1 t d))
        ∗ (∃ d, owns (c : Thread nD τ) (mm0_m2 t) fullShare ((mm0_dat V c).before 2 t d)))
      ⊢ wp frame (wpE (defs₀ (F := F)) Variants.none c none) Set.univ (bodyAt0 t) fun _ =>
        iprop((mm0_dat V c).Φ t.succ ∗ (mm0_dat V c).owesAt () t.succ
          ∗ (mm0_dat V c).leavesExact 0 t ∗ (mm0_dat V c).leavesExact 1 t ∗ (mm0_dat V c).leavesExact 2 t) := by
  unfold bodyAt0
  simp only [mm0_before0, mm0_before1]
  rw [show (mm0_dat V c).owesAt () t.succ = (mm0_dat V c).owesAt () t.castSucc from rfl,
    show (mm0_dat V c).Φ t.succ = mm0_inv c (owns (c : Thread nD τ) mm0_sc fullShare (mm0_outsAt V c t.val t.isLt).2) from rfl,
    show (mm0_dat V c).Φ t.castSucc = mm0_inv c (mm0_acc V c t.val (Nat.le_of_lt t.isLt)) from rfl,
    mm0_leaves V c t 0 (mm0_live0 t), mm0_leaves V c t 1 (mm0_live1 t),
    show (mm0_dat V c).after 0 t = mm0_iblk V c 0 t from rfl, show (mm0_dat V c).after 1 t = mm0_iblk V c 1 t from rfl]
  unfold mm0_inv
  by_cases h1 : t.val % 4 = 3
  · have h0 : ¬t.val % 4 = 0 := by omega
    rw [mm0_acc_pos V c _ _ h0, mm0_leaves V c t 2 (mm0_live2 t ((mm0_last_iff t).mpr h1)), mm0_after2, mm0_outsAt_C V c t h0 h1]
    unfold mm0_atO mm0_atC mm0_outC mm0_soutC; dsimp only
    iintro ⟨⟨⟨HS0, HR⟩, Hg⟩, Ho, ⟨%d0, H0⟩, ⟨%d1, H1⟩, ⟨%d2, H2⟩⟩
    iapply ((mm0_runC _ _ _ _ _ _ _ _ _ _ (fun h => h0 ((mm0_first_iff t).mp h)) ((mm0_last_iff t).mpr h1) _ _ _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (mm0_scoverC c _ _ _ _ _ _ _ _ _ _ _ _ _ _)
    unfold owns; iexists _; isplitr
    swap; · iexact H2
    ipureintro; exact View.read_writes_of_cover _ _ _ _ _ (mm0_coverC c _ _ _ _ _ _ _ _ _ _ _ _ _ _)
  have hl : ¬mm0_last (grid0.coords t) := fun h => h1 ((mm0_last_iff t).mp h)
  rw [Dat.leavesExact_idle (mm0_dat V c) 2 t (mm0_idle2 t hl) (mm0_noflush2 t hl)]
  by_cases h0 : t.val % 4 = 0
  · rw [mm0_outsAt_A V c t h0 h1]
    unfold mm0_atA mm0_soutA; dsimp only
    iintro ⟨⟨⟨HS0, HR⟩, Hg⟩, Ho, ⟨%d0, H0⟩, ⟨%d1, H1⟩, ⟨%d2, H2⟩⟩
    iapply ((mm0_runA _ _ _ _ _ _ _ _ _ _ ((mm0_first_iff t).mpr h0) hl _ _).2 _ Set.univ _)
    iframe H0 H1 H2
    isplitl [HS0]; · iapply (mm0_acc_any V c _ _); iexact HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm0_scoverA c _ _ _ _ _ _ _ _ _ _ _ _ _)
    iexists _; iexact H2
  · rw [mm0_acc_pos V c _ _ h0, mm0_outsAt_B V c t h0 h1]
    unfold mm0_atB mm0_soutB; dsimp only
    iintro ⟨⟨⟨HS0, HR⟩, Hg⟩, Ho, ⟨%d0, H0⟩, ⟨%d1, H1⟩, ⟨%d2, H2⟩⟩
    iapply ((mm0_runB _ _ _ _ _ _ _ _ _ _ (fun h => h0 ((mm0_first_iff t).mp h)) hl _ _ _).2 _ Set.univ _)
    iframe H0 H1 H2 HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm0_scoverB c _ _ _ _ _ _ _ _ _ _ _ _ _ _)
    iexists _; iexact H2

theorem mm0_body_obligation : BodyObligation (mm0_dat (F := F) V c) (defs₀ (F := F)) Variants.none () Set.univ := fun t => by
  rw [bigSep_W0, bigSep_W0]
  exact mm0_sound_body V c t

theorem mm0_hin : Pipeline.ΦA spec0 c ⊢ (mm0_dat V c).Φ 0 := Entails.of_eq (mm0_PhiA_eq c)

theorem mm0_hout : (mm0_dat V c).Φ (Fin.last cfg0.N) ⊢ Pipeline.ΦA spec0 c := by
  rw [mm0_PhiA_eq]
  exact sep_mono_left (sep_mono_left (mm0_acc_any V c _ _))

theorem mm0_hin' (P : sProp 𝕄) :
    iprop((∃ r, prngReg c r) ∗ P ∗ Pipeline.scopedRest (Ix := Unit) (Name := ℕ) (U := UR sig nD τ) (Lvl := ℕ) (Val := Elt F) spec0 c) ⊢ (mm0_dat V c).Φ 0 := by
  refine BIBase.Entails.trans ?_ (mm0_hin V c)
  unfold Pipeline.ΦA
  iintro ⟨Hp, -, Hr⟩
  iframe

theorem mm0_hout' :
    (mm0_dat V c).Φ (Fin.last cfg0.N) ⊢ iprop((∃ r, prngReg c r) ∗ (BI.emp : sProp 𝕄) ∗ Pipeline.scopedRest (Ix := Unit) (Name := ℕ) (U := UR sig nD τ) (Lvl := ℕ) (Val := Elt F) spec0 c) := by
  refine BIBase.Entails.trans (mm0_hout V c) ?_
  unfold Pipeline.ΦA
  iintro ⟨Hr, Hp⟩
  iframe; iempintro

end Cert.KernelIdeal.Hand

end
-- ==== Proof.MmRun1.lean ====
import proofs.«403689_j2439541424354_3_alg».proof.Proof.Gen.KernelIdeal.Launch
import proofs.«403689_j2439541424354_3_alg».proof.Proof.Gen.KernelIdeal.Skeleton
import proofs.«403689_j2439541424354_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

abbrev mm1_first (i : grid1.Coords) : Prop :=
  (Scalar.cmpi .ne (Scalar.extui (Scalar.cmpi .eq (BitVec.ofNat 32 (i 2).val) 0#32)) 0#32) = 1#1

theorem mm1_first_iff : ∀ t : Fin cfg1.N, mm1_first (grid1.coords t) ↔ t.val % 4 = 0 := by decide +kernel

abbrev mm1_last (i : grid1.Coords) : Prop := k1_cond2 i = 1#1

theorem mm1_last_iff : ∀ t : Fin cfg1.N, mm1_last (grid1.coords t) ↔ t.val % 4 = 3 := by decide +kernel

theorem mm1_live0 : ∀ t : Fin cfg1.N, cfg1.idle 0 (grid1.coords t) = false := by decide +kernel
theorem mm1_live1 : ∀ t : Fin cfg1.N, cfg1.idle 1 (grid1.coords t) = false := by decide +kernel

theorem mm1_idle2 : ∀ t : Fin cfg1.N, ¬mm1_last (grid1.coords t) → cfg1.idle 2 (grid1.coords t) = true := by decide +kernel
theorem mm1_noflush2 : ∀ t : Fin cfg1.N, ¬mm1_last (grid1.coords t) → (cfg1.win 2).flush t = false := by decide +kernel

theorem mm1_live2 : ∀ t : Fin cfg1.N, mm1_last (grid1.coords t) → cfg1.idle 2 (grid1.coords t) = false := by decide +kernel

abbrev mm1_m0 (t : Fin cfg1.N) : Memref sig .tc .vmem S1024x512 .f32 := win1_0.stage (cfg1.slots t 0)
abbrev mm1_h0 (t : Fin cfg1.N) : (mm1_m0 t).IsWhole := hstage1_0 ((cfg1.slots t 0).cast nbuf1_0)
abbrev mm1_m1 (t : Fin cfg1.N) : Memref sig .tc .vmem S512x512 .f32 := win1_1.stage (cfg1.slots t 1)
abbrev mm1_h1 (t : Fin cfg1.N) : (mm1_m1 t).IsWhole := hstage1_1 ((cfg1.slots t 1).cast nbuf1_1)
abbrev mm1_m2 (t : Fin cfg1.N) : Memref sig .tc .vmem S1024x512 .f32 := win1_2.stage (cfg1.slots t 2)
abbrev mm1_h2 (t : Fin cfg1.N) : (mm1_m2 t).IsWhole := hstage1_2 ((cfg1.slots t 2).cast nbuf1_2)

abbrev mm1_sc : Memref sig .tc .vmem S1024x512 .f32 := Memref.whole cc1_scratch0

abbrev mm1_VO : View sig .tc .vmem S1024x512 .f32 := (Memref.whole cc1_stg2_0 : Memref sig .tc .vmem S1024x512 .f32).view
abbrev mm1_VS : View sig .tc .vmem S1024x512 .f32 := mm1_sc.view

theorem mm1_PhiA_eq (c : Dev nD) :
    (Pipeline.ΦA spec1 c : sProp 𝕄)
      = iprop(iprop((∃ d, owns (c : Thread nD τ) mm1_sc fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [mm1_sc, owns_whole]; try rfl

-- A whole memref is owned at x exactly when it holds the raw contents that read x.
theorem mm1_owns_eq {s : Shape} {m : Memref sig .tc .vmem s .f32} (h : m.IsWhole) (c : Dev nD) (x : Vec F s .f32) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

-- The kernel's triple: both factors come back as found; P5, PS hold the output block and the accumulator before, Q5, QS after.
def mm1_triple (x0 : Vec F S1024x512 .f32) (x1 : Vec F S512x512 .f32) (P5 PS Q5 QS : sProp 𝕄) : Prop :=
  ∀ (E : Set ℕ) (K : PUnit → sProp 𝕄),
    iprop(owns (c : Thread nD τ) arg3 fullShare x0 ∗ owns (c : Thread nD τ) arg4 fullShare x1 ∗ P5 ∗ PS ∗ (iprop(owns (c : Thread nD τ) arg3 fullShare x0 ∗ owns (c : Thread nD τ) arg4 fullShare x1 ∗ Q5 ∗ QS) -∗ K ⟨⟩))
      ⊢ wp frame (wpE (defs₀ (F := F)) Variants.none c none) E (cc1__matmul_kernel i arg3 harg3 arg4 harg4 arg5 harg5 arg6 harg6) K

def mm1_runA (hc0 : mm1_first i) (hc1 : ¬mm1_last i) (x0 : Vec F S1024x512 .f32) (x1 : Vec F S512x512 .f32) :
    { LS0 : List (View.Piece (Elt F) S1024x512 .f32) //
      ∀ xi2 : Vec F S1024x512 .f32, mm1_triple c i arg3 harg3 arg4 harg4 arg5 harg5 arg6 harg6 x0 x1 (owns (c : Thread nD τ) arg5 fullShare xi2) iprop(∃ d, owns (c : Thread nD τ) arg6 fullShare d) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc1__matmul_kernel_eq_skeleton, mm1_owns_eq harg3, mm1_owns_eq harg4, mm1_owns_eq harg5, mm1_owns_eq harg6]; unfold cc1__matmul_kernel_skel
    iintro ⟨H0, H1, H2, ⟨%ds0, HS0⟩, Hk⟩
    sl_exec (disch := first | exact hc0 | exact hc1)
    sl_step
    iapply Hk
    iframe H0 H1 H2
    iexists _; iexact HS0

def mm1_runB (hc0 : ¬mm1_first i) (hc1 : ¬mm1_last i) (x0 : Vec F S1024x512 .f32) (x1 : Vec F S512x512 .f32) (xs0 : Vec F S1024x512 .f32) :
    { LS0 : List (View.Piece (Elt F) S1024x512 .f32) //
      ∀ xi2 : Vec F S1024x512 .f32, mm1_triple c i arg3 harg3 arg4 harg4 arg5 harg5 arg6 harg6 x0 x1 (owns (c : Thread nD τ) arg5 fullShare xi2) (owns (c : Thread nD τ) arg6 fullShare xs0) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc1__matmul_kernel_eq_skeleton, mm1_owns_eq harg3, mm1_owns_eq harg4, mm1_owns_eq harg5, mm1_owns_eq harg6]; unfold cc1__matmul_kernel_skel
    iintro ⟨H0, H1, H2, HS0, Hk⟩
    sl_exec (disch := first | exact hc0 | exact hc1)
    sl_step
    iapply Hk
    iframe H0 H1 H2
    iexists _; iexact HS0

def mm1_runC (hc0 : ¬mm1_first i) (hc1 : mm1_last i) (x0 : Vec F S1024x512 .f32) (x1 : Vec F S512x512 .f32) (xs0 : Vec F S1024x512 .f32) :
    Σ' (L2 : List (View.Piece (Elt F) S1024x512 .f32)), { LS0 : List (View.Piece (Elt F) S1024x512 .f32) //
      mm1_triple c i arg3 harg3 arg4 harg4 arg5 harg5 arg6 harg6 x0 x1 iprop(∃ d, owns (c : Thread nD τ) arg5 fullShare d) (owns (c : Thread nD τ) arg6 fullShare xs0) iprop(∃ f, arg5.view.loc (c : Thread nD τ) ↦[arg5.view.set]{fullShare} arg5.view.writes (Elt F) f L2) iprop(∃ f, arg6.view.loc (c : Thread nD τ) ↦[arg6.view.set]{fullShare} arg6.view.writes (Elt F) f LS0) } := by
  refine ⟨?_, ?_, fun E K => ?run⟩
  case run =>
    simp only [cc1__matmul_kernel_eq_skeleton, mm1_owns_eq harg3, mm1_owns_eq harg4, mm1_owns_eq harg5, mm1_owns_eq harg6]; unfold cc1__matmul_kernel_skel
    iintro ⟨H0, H1, ⟨%d2, H2⟩, HS0, Hk⟩
    sl_exec (disch := first | exact hc0 | exact hc1)
    sl_step
    iapply Hk
    iframe H0 H1
    isplitl [H2]; · iexists _; iexact H2
    iexists _; iexact HS0
end

end Cert.KernelIdeal.Hand

end
-- ==== Proof.MmDat1.lean ====
import proofs.«403689_j2439541424354_3_alg».proof.Proof.MmRun1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def mm1_iblk (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (i : grid1.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

section
variable (hc0 : mm1_first i) (hc1 : ¬mm1_last i) (x0 : Vec F S1024x512 .f32) (x1 : Vec F S512x512 .f32)
theorem mm1_scoverA (y : S1024x512.Idx) : ∃ pc ∈ (mm1_runA c i arg3 harg3 arg4 harg4 arg5 harg5 arg6 harg6 hc0 hc1 x0 x1).1, y ∈ pc.1.set :=
  View.cover_of_tiledL _ S1024x512.size (by sl_kernel_rfl) y
def mm1_soutA : Vec F S1024x512 .f32 :=
  mm1_VS.read (Elt F) (mm1_VS.writes (Elt F) mm1_VS.junk (mm1_runA c i arg3 harg3 arg4 harg4 arg5 harg5 arg6 harg6 hc0 hc1 x0 x1).1)
end

section
variable (hc0 : ¬mm1_first i) (hc1 : ¬mm1_last i) (x0 : Vec F S1024x512 .f32) (x1 : Vec F S512x512 .f32) (xs0 : Vec F S1024x512 .f32)
theorem mm1_scoverB (y : S1024x512.Idx) : ∃ pc ∈ (mm1_runB c i arg3 harg3 arg4 harg4 arg5 harg5 arg6 harg6 hc0 hc1 x0 x1 xs0).1, y ∈ pc.1.set :=
  View.cover_of_tiledL _ S1024x512.size (by sl_kernel_rfl) y
def mm1_soutB : Vec F S1024x512 .f32 :=
  mm1_VS.read (Elt F) (mm1_VS.writes (Elt F) mm1_VS.junk (mm1_runB c i arg3 harg3 arg4 harg4 arg5 harg5 arg6 harg6 hc0 hc1 x0 x1 xs0).1)
end

section
variable (hc0 : ¬mm1_first i) (hc1 : mm1_last i) (x0 : Vec F S1024x512 .f32) (x1 : Vec F S512x512 .f32) (xs0 : Vec F S1024x512 .f32)
theorem mm1_scoverC (y : S1024x512.Idx) : ∃ pc ∈ (mm1_runC c i arg3 harg3 arg4 harg4 arg5 harg5 arg6 harg6 hc0 hc1 x0 x1 xs0).2.1, y ∈ pc.1.set :=
  View.cover_of_tiledL _ S1024x512.size (by sl_kernel_rfl) y
theorem mm1_coverC (y : S1024x512.Idx) : ∃ pc ∈ (mm1_runC c i arg3 harg3 arg4 harg4 arg5 harg5 arg6 harg6 hc0 hc1 x0 x1 xs0).1, y ∈ pc.1.set :=
  View.cover_of_tiledL _ S1024x512.size (by sl_kernel_rfl) y
def mm1_soutC : Vec F S1024x512 .f32 :=
  mm1_VS.read (Elt F) (mm1_VS.writes (Elt F) mm1_VS.junk (mm1_runC c i arg3 harg3 arg4 harg4 arg5 harg5 arg6 harg6 hc0 hc1 x0 x1 xs0).2.1)
def mm1_outC : Vec F S1024x512 .f32 :=
  mm1_VO.read (Elt F) (mm1_VO.writes (Elt F) mm1_VO.junk (mm1_runC c i arg3 harg3 arg4 harg4 arg5 harg5 arg6 harg6 hc0 hc1 x0 x1 xs0).1)
end
end

def mm1_outIdle : Vec F S1024x512 .f32 := mm1_VO.read (Elt F) mm1_VO.junk

variable (t : Fin cfg1.N)

-- Each case at grid point t, on the point's blocks; a later K step continues from the accumulator a.
abbrev mm1_atA (h0 : t.val % 4 = 0) (h1 : ¬t.val % 4 = 3) : Vec F S1024x512 .f32 :=
  mm1_soutA c (grid1.coords t) (mm1_m0 t) (mm1_h0 t) (mm1_m1 t) (mm1_h1 t) (mm1_m2 t) (mm1_h2 t) mm1_sc (Memref.isWhole_whole _) ((mm1_first_iff t).mpr h0) (fun h => h1 ((mm1_last_iff t).mp h)) (mm1_iblk V c 0 t) (mm1_iblk V c 1 t)
abbrev mm1_atB (h0 : ¬t.val % 4 = 0) (h1 : ¬t.val % 4 = 3) (a : Vec F S1024x512 .f32) : Vec F S1024x512 .f32 :=
  mm1_soutB c (grid1.coords t) (mm1_m0 t) (mm1_h0 t) (mm1_m1 t) (mm1_h1 t) (mm1_m2 t) (mm1_h2 t) mm1_sc (Memref.isWhole_whole _) (fun h => h0 ((mm1_first_iff t).mp h)) (fun h => h1 ((mm1_last_iff t).mp h)) (mm1_iblk V c 0 t) (mm1_iblk V c 1 t) a
abbrev mm1_atC (h0 : ¬t.val % 4 = 0) (h1 : t.val % 4 = 3) (a : Vec F S1024x512 .f32) : Vec F S1024x512 .f32 :=
  mm1_soutC c (grid1.coords t) (mm1_m0 t) (mm1_h0 t) (mm1_m1 t) (mm1_h1 t) (mm1_m2 t) (mm1_h2 t) mm1_sc (Memref.isWhole_whole _) (fun h => h0 ((mm1_first_iff t).mp h)) ((mm1_last_iff t).mpr h1) (mm1_iblk V c 0 t) (mm1_iblk V c 1 t) a
abbrev mm1_atO (h0 : ¬t.val % 4 = 0) (h1 : t.val % 4 = 3) (a : Vec F S1024x512 .f32) : Vec F S1024x512 .f32 :=
  mm1_outC c (grid1.coords t) (mm1_m0 t) (mm1_h0 t) (mm1_m1 t) (mm1_h1 t) (mm1_m2 t) (mm1_h2 t) mm1_sc (Memref.isWhole_whole _) (fun h => h0 ((mm1_first_iff t).mp h)) ((mm1_last_iff t).mpr h1) (mm1_iblk V c 0 t) (mm1_iblk V c 1 t) a

-- The pair (output block, accumulator) after point n, by recursion on n.
def mm1_outsAt : (n : ℕ) → n < cfg1.N → Vec F S1024x512 .f32 × Vec F S1024x512 .f32
  | 0, hn => (mm1_outIdle, mm1_atA V c ⟨0, hn⟩ (Nat.zero_mod 4) (by show ¬0 % 4 = 3; decide))
  | n + 1, hn =>
    if h0 : (n + 1) % 4 = 0 then (mm1_outIdle, mm1_atA V c ⟨n + 1, hn⟩ h0 (by show ¬(n + 1) % 4 = 3; omega))
    else if h1 : (n + 1) % 4 = 3 then (mm1_atO V c ⟨n + 1, hn⟩ h0 h1 (mm1_outsAt n (Nat.lt_of_succ_lt hn)).2, mm1_atC V c ⟨n + 1, hn⟩ h0 h1 (mm1_outsAt n (Nat.lt_of_succ_lt hn)).2)
    else (mm1_outIdle, mm1_atB V c ⟨n + 1, hn⟩ h0 h1 (mm1_outsAt n (Nat.lt_of_succ_lt hn)).2)

theorem mm1_outsAt_A (h0 : t.val % 4 = 0) (h1 : ¬t.val % 4 = 3) :
    mm1_outsAt V c t.val t.isLt = (mm1_outIdle, mm1_atA V c t h0 h1) := by
  obtain ⟨n, hn⟩ := t
  cases n with
  | zero => rfl
  | succ n => exact dif_pos h0

theorem mm1_outsAt_B (h0 : ¬t.val % 4 = 0) (h1 : ¬t.val % 4 = 3) :
    mm1_outsAt V c t.val t.isLt = (mm1_outIdle, mm1_atB V c t h0 h1 (mm1_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_neg h1)

theorem mm1_outsAt_C (h0 : ¬t.val % 4 = 0) (h1 : t.val % 4 = 3) :
    mm1_outsAt V c t.val t.isLt = (mm1_atO V c t h0 h1 (mm1_outsAt V c (t.val - 1) (Nat.lt_of_le_of_lt (Nat.sub_le _ _) t.isLt)).2,
      mm1_atC V c t h0 h1 (mm1_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_pos h1)

-- The accumulator before point n: arbitrary before the first point, then what point n - 1 left.
def mm1_acc : (n : ℕ) → n ≤ cfg1.N → sProp 𝕄
  | 0, _ => iprop(∃ d, owns (c : Thread nD τ) mm1_sc fullShare d)
  | n + 1, hn => owns (c : Thread nD τ) mm1_sc fullShare (mm1_outsAt V c n hn).2

theorem mm1_acc_any (n : ℕ) (h : n ≤ cfg1.N) : mm1_acc V c n h ⊢ iprop(∃ d, owns (c : Thread nD τ) mm1_sc fullShare d) := by
  cases n with
  | zero => exact Idealize.SL.BI.Entails.refl _
  | succ n => unfold mm1_acc; iintro H; iexists _; iexact H

theorem mm1_acc_pos (n : ℕ) (h : n ≤ cfg1.N) (h0 : ¬n % 4 = 0) :
    mm1_acc V c n h = owns (c : Thread nD τ) mm1_sc fullShare (mm1_outsAt V c (n - 1) (by omega)).2 := by
  cases n with
  | zero => exact absurd (Nat.zero_mod 4) h0
  | succ n => rfl

-- The invariant between points; P is what it says of the accumulator.
def mm1_inv (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

def mm1_dat : Dat τ (Elt F) Unit ℕ (UR sig nD τ) ℕ cfg1 c where
  A w := V c (Pipeline.arrRef spec1 w)
  after w t := match w with
    | ⟨0, _⟩ => mm1_iblk V c 0 t
    | ⟨1, _⟩ => mm1_iblk V c 1 t
    | ⟨2, _⟩ => (mm1_outsAt V c t.val t.isLt).1
  Φ t := mm1_inv c (mm1_acc V c t.val (Nat.le_of_lt_succ t.isLt))
  q _ := fullShare
  owed _ := 0

theorem mm1_A_eq (w : Fin cfg1.W) : (mm1_dat V c).A w = V c (Pipeline.arrRef spec1 w) := rfl

theorem mm1_after2 : (mm1_dat V c).after 2 t = (mm1_outsAt V c t.val t.isLt).1 := rfl

theorem mm1_before0 (d) : (mm1_dat V c).before 0 t d = mm1_iblk V c 0 t :=
  ((mm1_dat V c).before_in_eq_fetched 0 rfl (fun _ => rfl) (fun _ _ _ => rfl) (fun _ => rfl) t d).trans rfl
theorem mm1_before1 (d) : (mm1_dat V c).before 1 t d = mm1_iblk V c 1 t :=
  ((mm1_dat V c).before_in_eq_fetched 1 rfl (fun _ => rfl) (fun _ _ _ => rfl) (fun _ => rfl) t d).trans rfl

theorem mm1_leaves (w : Fin cfg1.W) (h : cfg1.idle w (grid1.coords t) = false) :
    (mm1_dat V c).leavesExact w t = owns (c : Thread nD τ) ((cfg1.win w).stage (cfg1.slots t w)) fullShare ((mm1_dat V c).after w t) := by
  unfold Dat.leavesExact; rw [h]

-- By cases on the point's position modulo 4.
theorem mm1_sound_body :
    iprop((mm1_dat V c).Φ t.castSucc ∗ (mm1_dat V c).owesAt () t.castSucc
        ∗ (∃ d, owns (c : Thread nD τ) (mm1_m0 t) fullShare ((mm1_dat V c).before 0 t d))
        ∗ (∃ d, owns (c : Thread nD τ) (mm1_m1 t) fullShare ((mm1_dat V c).before 1 t d))
        ∗ (∃ d, owns (c : Thread nD τ) (mm1_m2 t) fullShare ((mm1_dat V c).before 2 t d)))
      ⊢ wp frame (wpE (defs₀ (F := F)) Variants.none c none) Set.univ (bodyAt1 t) fun _ =>
        iprop((mm1_dat V c).Φ t.succ ∗ (mm1_dat V c).owesAt () t.succ
          ∗ (mm1_dat V c).leavesExact 0 t ∗ (mm1_dat V c).leavesExact 1 t ∗ (mm1_dat V c).leavesExact 2 t) := by
  unfold bodyAt1
  simp only [mm1_before0, mm1_before1]
  rw [show (mm1_dat V c).owesAt () t.succ = (mm1_dat V c).owesAt () t.castSucc from rfl,
    show (mm1_dat V c).Φ t.succ = mm1_inv c (owns (c : Thread nD τ) mm1_sc fullShare (mm1_outsAt V c t.val t.isLt).2) from rfl,
    show (mm1_dat V c).Φ t.castSucc = mm1_inv c (mm1_acc V c t.val (Nat.le_of_lt t.isLt)) from rfl,
    mm1_leaves V c t 0 (mm1_live0 t), mm1_leaves V c t 1 (mm1_live1 t),
    show (mm1_dat V c).after 0 t = mm1_iblk V c 0 t from rfl, show (mm1_dat V c).after 1 t = mm1_iblk V c 1 t from rfl]
  unfold mm1_inv
  by_cases h1 : t.val % 4 = 3
  · have h0 : ¬t.val % 4 = 0 := by omega
    rw [mm1_acc_pos V c _ _ h0, mm1_leaves V c t 2 (mm1_live2 t ((mm1_last_iff t).mpr h1)), mm1_after2, mm1_outsAt_C V c t h0 h1]
    unfold mm1_atO mm1_atC mm1_outC mm1_soutC; dsimp only
    iintro ⟨⟨⟨HS0, HR⟩, Hg⟩, Ho, ⟨%d0, H0⟩, ⟨%d1, H1⟩, ⟨%d2, H2⟩⟩
    iapply ((mm1_runC _ _ _ _ _ _ _ _ _ _ (fun h => h0 ((mm1_first_iff t).mp h)) ((mm1_last_iff t).mpr h1) _ _ _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (mm1_scoverC c _ _ _ _ _ _ _ _ _ _ _ _ _ _)
    unfold owns; iexists _; isplitr
    swap; · iexact H2
    ipureintro; exact View.read_writes_of_cover _ _ _ _ _ (mm1_coverC c _ _ _ _ _ _ _ _ _ _ _ _ _ _)
  have hl : ¬mm1_last (grid1.coords t) := fun h => h1 ((mm1_last_iff t).mp h)
  rw [Dat.leavesExact_idle (mm1_dat V c) 2 t (mm1_idle2 t hl) (mm1_noflush2 t hl)]
  by_cases h0 : t.val % 4 = 0
  · rw [mm1_outsAt_A V c t h0 h1]
    unfold mm1_atA mm1_soutA; dsimp only
    iintro ⟨⟨⟨HS0, HR⟩, Hg⟩, Ho, ⟨%d0, H0⟩, ⟨%d1, H1⟩, ⟨%d2, H2⟩⟩
    iapply ((mm1_runA _ _ _ _ _ _ _ _ _ _ ((mm1_first_iff t).mpr h0) hl _ _).2 _ Set.univ _)
    iframe H0 H1 H2
    isplitl [HS0]; · iapply (mm1_acc_any V c _ _); iexact HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm1_scoverA c _ _ _ _ _ _ _ _ _ _ _ _ _)
    iexists _; iexact H2
  · rw [mm1_acc_pos V c _ _ h0, mm1_outsAt_B V c t h0 h1]
    unfold mm1_atB mm1_soutB; dsimp only
    iintro ⟨⟨⟨HS0, HR⟩, Hg⟩, Ho, ⟨%d0, H0⟩, ⟨%d1, H1⟩, ⟨%d2, H2⟩⟩
    iapply ((mm1_runB _ _ _ _ _ _ _ _ _ _ (fun h => h0 ((mm1_first_iff t).mp h)) hl _ _ _).2 _ Set.univ _)
    iframe H0 H1 H2 HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm1_scoverB c _ _ _ _ _ _ _ _ _ _ _ _ _ _)
    iexists _; iexact H2

theorem mm1_body_obligation : BodyObligation (mm1_dat (F := F) V c) (defs₀ (F := F)) Variants.none () Set.univ := fun t => by
  rw [bigSep_W1, bigSep_W1]
  exact mm1_sound_body V c t

theorem mm1_hin : Pipeline.ΦA spec1 c ⊢ (mm1_dat V c).Φ 0 := Entails.of_eq (mm1_PhiA_eq c)

theorem mm1_hout : (mm1_dat V c).Φ (Fin.last cfg1.N) ⊢ Pipeline.ΦA spec1 c := by
  rw [mm1_PhiA_eq]
  exact sep_mono_left (sep_mono_left (mm1_acc_any V c _ _))

theorem mm1_hin' (P : sProp 𝕄) :
    iprop((∃ r, prngReg c r) ∗ P ∗ Pipeline.scopedRest (Ix := Unit) (Name := ℕ) (U := UR sig nD τ) (Lvl := ℕ) (Val := Elt F) spec1 c) ⊢ (mm1_dat V c).Φ 0 := by
  refine BIBase.Entails.trans ?_ (mm1_hin V c)
  unfold Pipeline.ΦA
  iintro ⟨Hp, -, Hr⟩
  iframe

theorem mm1_hout' :
    (mm1_dat V c).Φ (Fin.last cfg1.N) ⊢ iprop((∃ r, prngReg c r) ∗ (BI.emp : sProp 𝕄) ∗ Pipeline.scopedRest (Ix := Unit) (Name := ℕ) (U := UR sig nD τ) (Lvl := ℕ) (Val := Elt F) spec1 c) := by
  refine BIBase.Entails.trans (mm1_hout V c) ?_
  unfold Pipeline.ΦA
  iintro ⟨Hr, Hp⟩
  iframe; iempintro

end Cert.KernelIdeal.Hand

end
-- ==== Proof.MmRun2.lean ====
import proofs.«403689_j2439541424354_3_alg».proof.Proof.Gen.KernelIdeal.Launch
import proofs.«403689_j2439541424354_3_alg».proof.Proof.Gen.KernelIdeal.Skeleton
import proofs.«403689_j2439541424354_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

abbrev mm2_first (i : grid2.Coords) : Prop :=
  (Scalar.cmpi .ne (Scalar.extui (Scalar.cmpi .eq (BitVec.ofNat 32 (i 2).val) 0#32)) 0#32) = 1#1

theorem mm2_first_iff : ∀ t : Fin cfg2.N, mm2_first (grid2.coords t) ↔ t.val % 4 = 0 := by decide +kernel

abbrev mm2_last (i : grid2.Coords) : Prop := k2_cond2 i = 1#1

theorem mm2_last_iff : ∀ t : Fin cfg2.N, mm2_last (grid2.coords t) ↔ t.val % 4 = 3 := by decide +kernel

theorem mm2_live0 : ∀ t : Fin cfg2.N, cfg2.idle 0 (grid2.coords t) = false := by decide +kernel
theorem mm2_live1 : ∀ t : Fin cfg2.N, cfg2.idle 1 (grid2.coords t) = false := by decide +kernel

theorem mm2_idle2 : ∀ t : Fin cfg2.N, ¬mm2_last (grid2.coords t) → cfg2.idle 2 (grid2.coords t) = true := by decide +kernel
theorem mm2_noflush2 : ∀ t : Fin cfg2.N, ¬mm2_last (grid2.coords t) → (cfg2.win 2).flush t = false := by decide +kernel

theorem mm2_live2 : ∀ t : Fin cfg2.N, mm2_last (grid2.coords t) → cfg2.idle 2 (grid2.coords t) = false := by decide +kernel

abbrev mm2_m0 (t : Fin cfg2.N) : Memref sig .tc .vmem S1024x512 .f32 := win2_0.stage (cfg2.slots t 0)
abbrev mm2_h0 (t : Fin cfg2.N) : (mm2_m0 t).IsWhole := hstage2_0 ((cfg2.slots t 0).cast nbuf2_0)
abbrev mm2_m1 (t : Fin cfg2.N) : Memref sig .tc .vmem S512x512 .f32 := win2_1.stage (cfg2.slots t 1)
abbrev mm2_h1 (t : Fin cfg2.N) : (mm2_m1 t).IsWhole := hstage2_1 ((cfg2.slots t 1).cast nbuf2_1)
abbrev mm2_m2 (t : Fin cfg2.N) : Memref sig .tc .vmem S1024x512 .f32 := win2_2.stage (cfg2.slots t 2)
abbrev mm2_h2 (t : Fin cfg2.N) : (mm2_m2 t).IsWhole := hstage2_2 ((cfg2.slots t 2).cast nbuf2_2)

abbrev mm2_sc : Memref sig .tc .vmem S1024x512 .f32 := Memref.whole cc2_scratch0

abbrev mm2_VO : View sig .tc .vmem S1024x512 .f32 := (Memref.whole cc2_stg2_0 : Memref sig .tc .vmem S1024x512 .f32).view
abbrev mm2_VS : View sig .tc .vmem S1024x512 .f32 := mm2_sc.view

theorem mm2_PhiA_eq (c : Dev nD) :
    (Pipeline.ΦA spec2 c : sProp 𝕄)
      = iprop(iprop((∃ d, owns (c : Thread nD τ) mm2_sc fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [mm2_sc, owns_whole]; try rfl

-- A whole memref is owned at x exactly when it holds the raw contents that read x.
theorem mm2_owns_eq {s : Shape} {m : Memref sig .tc .vmem s .f32} (h : m.IsWhole) (c : Dev nD) (x : Vec F s .f32) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid2.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

-- The kernel's triple: both factors come back as found; P5, PS hold the output block and the accumulator before, Q5, QS after.
def mm2_triple (x0 : Vec F S1024x512 .f32) (x1 : Vec F S512x512 .f32) (P5 PS Q5 QS : sProp 𝕄) : Prop :=
  ∀ (E : Set ℕ) (K : PUnit → sProp 𝕄),
    iprop(owns (c : Thread nD τ) arg3 fullShare x0 ∗ owns (c : Thread nD τ) arg4 fullShare x1 ∗ P5 ∗ PS ∗ (iprop(owns (c : Thread nD τ) arg3 fullShare x0 ∗ owns (c : Thread nD τ) arg4 fullShare x1 ∗ Q5 ∗ QS) -∗ K ⟨⟩))
      ⊢ wp frame (wpE (defs₀ (F := F)) Variants.none c none) E (cc2__matmul_kernel i arg3 harg3 arg4 harg4 arg5 harg5 arg6 harg6) K

def mm2_runA (hc0 : mm2_first i) (hc1 : ¬mm2_last i) (x0 : Vec F S1024x512 .f32) (x1 : Vec F S512x512 .f32) :
    { LS0 : List (View.Piece (Elt F) S1024x512 .f32) //
      ∀ xi2 : Vec F S1024x512 .f32, mm2_triple c i arg3 harg3 arg4 harg4 arg5 harg5 arg6 harg6 x0 x1 (owns (c : Thread nD τ) arg5 fullShare xi2) iprop(∃ d, owns (c : Thread nD τ) arg6 fullShare d) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc2__matmul_kernel_eq_skeleton, mm2_owns_eq harg3, mm2_owns_eq harg4, mm2_owns_eq harg5, mm2_owns_eq harg6]; unfold cc2__matmul_kernel_skel
    iintro ⟨H0, H1, H2, ⟨%ds0, HS0⟩, Hk⟩
    sl_exec (disch := first | exact hc0 | exact hc1)
    sl_step
    iapply Hk
    iframe H0 H1 H2
    iexists _; iexact HS0

def mm2_runB (hc0 : ¬mm2_first i) (hc1 : ¬mm2_last i) (x0 : Vec F S1024x512 .f32) (x1 : Vec F S512x512 .f32) (xs0 : Vec F S1024x512 .f32) :
    { LS0 : List (View.Piece (Elt F) S1024x512 .f32) //
      ∀ xi2 : Vec F S1024x512 .f32, mm2_triple c i arg3 harg3 arg4 harg4 arg5 harg5 arg6 harg6 x0 x1 (owns (c : Thread nD τ) arg5 fullShare xi2) (owns (c : Thread nD τ) arg6 fullShare xs0) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc2__matmul_kernel_eq_skeleton, mm2_owns_eq harg3, mm2_owns_eq harg4, mm2_owns_eq harg5, mm2_owns_eq harg6]; unfold cc2__matmul_kernel_skel
    iintro ⟨H0, H1, H2, HS0, Hk⟩
    sl_exec (disch := first | exact hc0 | exact hc1)
    sl_step
    iapply Hk
    iframe H0 H1 H2
    iexists _; iexact HS0

def mm2_runC (hc0 : ¬mm2_first i) (hc1 : mm2_last i) (x0 : Vec F S1024x512 .f32) (x1 : Vec F S512x512 .f32) (xs0 : Vec F S1024x512 .f32) :
    Σ' (L2 : List (View.Piece (Elt F) S1024x512 .f32)), { LS0 : List (View.Piece (Elt F) S1024x512 .f32) //
      mm2_triple c i arg3 harg3 arg4 harg4 arg5 harg5 arg6 harg6 x0 x1 iprop(∃ d, owns (c : Thread nD τ) arg5 fullShare d) (owns (c : Thread nD τ) arg6 fullShare xs0) iprop(∃ f, arg5.view.loc (c : Thread nD τ) ↦[arg5.view.set]{fullShare} arg5.view.writes (Elt F) f L2) iprop(∃ f, arg6.view.loc (c : Thread nD τ) ↦[arg6.view.set]{fullShare} arg6.view.writes (Elt F) f LS0) } := by
  refine ⟨?_, ?_, fun E K => ?run⟩
  case run =>
    simp only [cc2__matmul_kernel_eq_skeleton, mm2_owns_eq harg3, mm2_owns_eq harg4, mm2_owns_eq harg5, mm2_owns_eq harg6]; unfold cc2__matmul_kernel_skel
    iintro ⟨H0, H1, ⟨%d2, H2⟩, HS0, Hk⟩
    sl_exec (disch := first | exact hc0 | exact hc1)
    sl_step
    iapply Hk
    iframe H0 H1
    isplitl [H2]; · iexists _; iexact H2
    iexists _; iexact HS0
end

end Cert.KernelIdeal.Hand

end
-- ==== Proof.MmDat2.lean ====
import proofs.«403689_j2439541424354_3_alg».proof.Proof.MmRun2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def mm2_iblk (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (i : grid2.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

section
variable (hc0 : mm2_first i) (hc1 : ¬mm2_last i) (x0 : Vec F S1024x512 .f32) (x1 : Vec F S512x512 .f32)
theorem mm2_scoverA (y : S1024x512.Idx) : ∃ pc ∈ (mm2_runA c i arg3 harg3 arg4 harg4 arg5 harg5 arg6 harg6 hc0 hc1 x0 x1).1, y ∈ pc.1.set :=
  View.cover_of_tiledL _ S1024x512.size (by sl_kernel_rfl) y
def mm2_soutA : Vec F S1024x512 .f32 :=
  mm2_VS.read (Elt F) (mm2_VS.writes (Elt F) mm2_VS.junk (mm2_runA c i arg3 harg3 arg4 harg4 arg5 harg5 arg6 harg6 hc0 hc1 x0 x1).1)
end

section
variable (hc0 : ¬mm2_first i) (hc1 : ¬mm2_last i) (x0 : Vec F S1024x512 .f32) (x1 : Vec F S512x512 .f32) (xs0 : Vec F S1024x512 .f32)
theorem mm2_scoverB (y : S1024x512.Idx) : ∃ pc ∈ (mm2_runB c i arg3 harg3 arg4 harg4 arg5 harg5 arg6 harg6 hc0 hc1 x0 x1 xs0).1, y ∈ pc.1.set :=
  View.cover_of_tiledL _ S1024x512.size (by sl_kernel_rfl) y
def mm2_soutB : Vec F S1024x512 .f32 :=
  mm2_VS.read (Elt F) (mm2_VS.writes (Elt F) mm2_VS.junk (mm2_runB c i arg3 harg3 arg4 harg4 arg5 harg5 arg6 harg6 hc0 hc1 x0 x1 xs0).1)
end

section
variable (hc0 : ¬mm2_first i) (hc1 : mm2_last i) (x0 : Vec F S1024x512 .f32) (x1 : Vec F S512x512 .f32) (xs0 : Vec F S1024x512 .f32)
theorem mm2_scoverC (y : S1024x512.Idx) : ∃ pc ∈ (mm2_runC c i arg3 harg3 arg4 harg4 arg5 harg5 arg6 harg6 hc0 hc1 x0 x1 xs0).2.1, y ∈ pc.1.set :=
  View.cover_of_tiledL _ S1024x512.size (by sl_kernel_rfl) y
theorem mm2_coverC (y : S1024x512.Idx) : ∃ pc ∈ (mm2_runC c i arg3 harg3 arg4 harg4 arg5 harg5 arg6 harg6 hc0 hc1 x0 x1 xs0).1, y ∈ pc.1.set :=
  View.cover_of_tiledL _ S1024x512.size (by sl_kernel_rfl) y
def mm2_soutC : Vec F S1024x512 .f32 :=
  mm2_VS.read (Elt F) (mm2_VS.writes (Elt F) mm2_VS.junk (mm2_runC c i arg3 harg3 arg4 harg4 arg5 harg5 arg6 harg6 hc0 hc1 x0 x1 xs0).2.1)
def mm2_outC : Vec F S1024x512 .f32 :=
  mm2_VO.read (Elt F) (mm2_VO.writes (Elt F) mm2_VO.junk (mm2_runC c i arg3 harg3 arg4 harg4 arg5 harg5 arg6 harg6 hc0 hc1 x0 x1 xs0).1)
end
end

def mm2_outIdle : Vec F S1024x512 .f32 := mm2_VO.read (Elt F) mm2_VO.junk

variable (t : Fin cfg2.N)

-- Each case at grid point t, on the point's blocks; a later K step continues from the accumulator a.
abbrev mm2_atA (h0 : t.val % 4 = 0) (h1 : ¬t.val % 4 = 3) : Vec F S1024x512 .f32 :=
  mm2_soutA c (grid2.coords t) (mm2_m0 t) (mm2_h0 t) (mm2_m1 t) (mm2_h1 t) (mm2_m2 t) (mm2_h2 t) mm2_sc (Memref.isWhole_whole _) ((mm2_first_iff t).mpr h0) (fun h => h1 ((mm2_last_iff t).mp h)) (mm2_iblk V c 0 t) (mm2_iblk V c 1 t)
abbrev mm2_atB (h0 : ¬t.val % 4 = 0) (h1 : ¬t.val % 4 = 3) (a : Vec F S1024x512 .f32) : Vec F S1024x512 .f32 :=
  mm2_soutB c (grid2.coords t) (mm2_m0 t) (mm2_h0 t) (mm2_m1 t) (mm2_h1 t) (mm2_m2 t) (mm2_h2 t) mm2_sc (Memref.isWhole_whole _) (fun h => h0 ((mm2_first_iff t).mp h)) (fun h => h1 ((mm2_last_iff t).mp h)) (mm2_iblk V c 0 t) (mm2_iblk V c 1 t) a
abbrev mm2_atC (h0 : ¬t.val % 4 = 0) (h1 : t.val % 4 = 3) (a : Vec F S1024x512 .f32) : Vec F S1024x512 .f32 :=
  mm2_soutC c (grid2.coords t) (mm2_m0 t) (mm2_h0 t) (mm2_m1 t) (mm2_h1 t) (mm2_m2 t) (mm2_h2 t) mm2_sc (Memref.isWhole_whole _) (fun h => h0 ((mm2_first_iff t).mp h)) ((mm2_last_iff t).mpr h1) (mm2_iblk V c 0 t) (mm2_iblk V c 1 t) a
abbrev mm2_atO (h0 : ¬t.val % 4 = 0) (h1 : t.val % 4 = 3) (a : Vec F S1024x512 .f32) : Vec F S1024x512 .f32 :=
  mm2_outC c (grid2.coords t) (mm2_m0 t) (mm2_h0 t) (mm2_m1 t) (mm2_h1 t) (mm2_m2 t) (mm2_h2 t) mm2_sc (Memref.isWhole_whole _) (fun h => h0 ((mm2_first_iff t).mp h)) ((mm2_last_iff t).mpr h1) (mm2_iblk V c 0 t) (mm2_iblk V c 1 t) a

-- The pair (output block, accumulator) after point n, by recursion on n.
def mm2_outsAt : (n : ℕ) → n < cfg2.N → Vec F S1024x512 .f32 × Vec F S1024x512 .f32
  | 0, hn => (mm2_outIdle, mm2_atA V c ⟨0, hn⟩ (Nat.zero_mod 4) (by show ¬0 % 4 = 3; decide))
  | n + 1, hn =>
    if h0 : (n + 1) % 4 = 0 then (mm2_outIdle, mm2_atA V c ⟨n + 1, hn⟩ h0 (by show ¬(n + 1) % 4 = 3; omega))
    else if h1 : (n + 1) % 4 = 3 then (mm2_atO V c ⟨n + 1, hn⟩ h0 h1 (mm2_outsAt n (Nat.lt_of_succ_lt hn)).2, mm2_atC V c ⟨n + 1, hn⟩ h0 h1 (mm2_outsAt n (Nat.lt_of_succ_lt hn)).2)
    else (mm2_outIdle, mm2_atB V c ⟨n + 1, hn⟩ h0 h1 (mm2_outsAt n (Nat.lt_of_succ_lt hn)).2)

theorem mm2_outsAt_A (h0 : t.val % 4 = 0) (h1 : ¬t.val % 4 = 3) :
    mm2_outsAt V c t.val t.isLt = (mm2_outIdle, mm2_atA V c t h0 h1) := by
  obtain ⟨n, hn⟩ := t
  cases n with
  | zero => rfl
  | succ n => exact dif_pos h0

theorem mm2_outsAt_B (h0 : ¬t.val % 4 = 0) (h1 : ¬t.val % 4 = 3) :
    mm2_outsAt V c t.val t.isLt = (mm2_outIdle, mm2_atB V c t h0 h1 (mm2_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_neg h1)

theorem mm2_outsAt_C (h0 : ¬t.val % 4 = 0) (h1 : t.val % 4 = 3) :
    mm2_outsAt V c t.val t.isLt = (mm2_atO V c t h0 h1 (mm2_outsAt V c (t.val - 1) (Nat.lt_of_le_of_lt (Nat.sub_le _ _) t.isLt)).2,
      mm2_atC V c t h0 h1 (mm2_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_pos h1)

-- The accumulator before point n: arbitrary before the first point, then what point n - 1 left.
def mm2_acc : (n : ℕ) → n ≤ cfg2.N → sProp 𝕄
  | 0, _ => iprop(∃ d, owns (c : Thread nD τ) mm2_sc fullShare d)
  | n + 1, hn => owns (c : Thread nD τ) mm2_sc fullShare (mm2_outsAt V c n hn).2

theorem mm2_acc_any (n : ℕ) (h : n ≤ cfg2.N) : mm2_acc V c n h ⊢ iprop(∃ d, owns (c : Thread nD τ) mm2_sc fullShare d) := by
  cases n with
  | zero => exact Idealize.SL.BI.Entails.refl _
  | succ n => unfold mm2_acc; iintro H; iexists _; iexact H

theorem mm2_acc_pos (n : ℕ) (h : n ≤ cfg2.N) (h0 : ¬n % 4 = 0) :
    mm2_acc V c n h = owns (c : Thread nD τ) mm2_sc fullShare (mm2_outsAt V c (n - 1) (by omega)).2 := by
  cases n with
  | zero => exact absurd (Nat.zero_mod 4) h0
  | succ n => rfl

-- The invariant between points; P is what it says of the accumulator.
def mm2_inv (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

def mm2_dat : Dat τ (Elt F) Unit ℕ (UR sig nD τ) ℕ cfg2 c where
  A w := V c (Pipeline.arrRef spec2 w)
  after w t := match w with
    | ⟨0, _⟩ => mm2_iblk V c 0 t
    | ⟨1, _⟩ => mm2_iblk V c 1 t
    | ⟨2, _⟩ => (mm2_outsAt V c t.val t.isLt).1
  Φ t := mm2_inv c (mm2_acc V c t.val (Nat.le_of_lt_succ t.isLt))
  q _ := fullShare
  owed _ := 0

theorem mm2_A_eq (w : Fin cfg2.W) : (mm2_dat V c).A w = V c (Pipeline.arrRef spec2 w) := rfl

theorem mm2_after2 : (mm2_dat V c).after 2 t = (mm2_outsAt V c t.val t.isLt).1 := rfl

theorem mm2_before0 (d) : (mm2_dat V c).before 0 t d = mm2_iblk V c 0 t :=
  ((mm2_dat V c).before_in_eq_fetched 0 rfl (fun _ => rfl) (fun _ _ _ => rfl) (fun _ => rfl) t d).trans rfl
theorem mm2_before1 (d) : (mm2_dat V c).before 1 t d = mm2_iblk V c 1 t :=
  ((mm2_dat V c).before_in_eq_fetched 1 rfl (fun _ => rfl) (fun _ _ _ => rfl) (fun _ => rfl) t d).trans rfl

theorem mm2_leaves (w : Fin cfg2.W) (h : cfg2.idle w (grid2.coords t) = false) :
    (mm2_dat V c).leavesExact w t = owns (c : Thread nD τ) ((cfg2.win w).stage (cfg2.slots t w)) fullShare ((mm2_dat V c).after w t) := by
  unfold Dat.leavesExact; rw [h]

-- By cases on the point's position modulo 4.
theorem mm2_sound_body :
    iprop((mm2_dat V c).Φ t.castSucc ∗ (mm2_dat V c).owesAt () t.castSucc
        ∗ (∃ d, owns (c : Thread nD τ) (mm2_m0 t) fullShare ((mm2_dat V c).before 0 t d))
        ∗ (∃ d, owns (c : Thread nD τ) (mm2_m1 t) fullShare ((mm2_dat V c).before 1 t d))
        ∗ (∃ d, owns (c : Thread nD τ) (mm2_m2 t) fullShare ((mm2_dat V c).before 2 t d)))
      ⊢ wp frame (wpE (defs₀ (F := F)) Variants.none c none) Set.univ (bodyAt2 t) fun _ =>
        iprop((mm2_dat V c).Φ t.succ ∗ (mm2_dat V c).owesAt () t.succ
          ∗ (mm2_dat V c).leavesExact 0 t ∗ (mm2_dat V c).leavesExact 1 t ∗ (mm2_dat V c).leavesExact 2 t) := by
  unfold bodyAt2
  simp only [mm2_before0, mm2_before1]
  rw [show (mm2_dat V c).owesAt () t.succ = (mm2_dat V c).owesAt () t.castSucc from rfl,
    show (mm2_dat V c).Φ t.succ = mm2_inv c (owns (c : Thread nD τ) mm2_sc fullShare (mm2_outsAt V c t.val t.isLt).2) from rfl,
    show (mm2_dat V c).Φ t.castSucc = mm2_inv c (mm2_acc V c t.val (Nat.le_of_lt t.isLt)) from rfl,
    mm2_leaves V c t 0 (mm2_live0 t), mm2_leaves V c t 1 (mm2_live1 t),
    show (mm2_dat V c).after 0 t = mm2_iblk V c 0 t from rfl, show (mm2_dat V c).after 1 t = mm2_iblk V c 1 t from rfl]
  unfold mm2_inv
  by_cases h1 : t.val % 4 = 3
  · have h0 : ¬t.val % 4 = 0 := by omega
    rw [mm2_acc_pos V c _ _ h0, mm2_leaves V c t 2 (mm2_live2 t ((mm2_last_iff t).mpr h1)), mm2_after2, mm2_outsAt_C V c t h0 h1]
    unfold mm2_atO mm2_atC mm2_outC mm2_soutC; dsimp only
    iintro ⟨⟨⟨HS0, HR⟩, Hg⟩, Ho, ⟨%d0, H0⟩, ⟨%d1, H1⟩, ⟨%d2, H2⟩⟩
    iapply ((mm2_runC _ _ _ _ _ _ _ _ _ _ (fun h => h0 ((mm2_first_iff t).mp h)) ((mm2_last_iff t).mpr h1) _ _ _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (mm2_scoverC c _ _ _ _ _ _ _ _ _ _ _ _ _ _)
    unfold owns; iexists _; isplitr
    swap; · iexact H2
    ipureintro; exact View.read_writes_of_cover _ _ _ _ _ (mm2_coverC c _ _ _ _ _ _ _ _ _ _ _ _ _ _)
  have hl : ¬mm2_last (grid2.coords t) := fun h => h1 ((mm2_last_iff t).mp h)
  rw [Dat.leavesExact_idle (mm2_dat V c) 2 t (mm2_idle2 t hl) (mm2_noflush2 t hl)]
  by_cases h0 : t.val % 4 = 0
  · rw [mm2_outsAt_A V c t h0 h1]
    unfold mm2_atA mm2_soutA; dsimp only
    iintro ⟨⟨⟨HS0, HR⟩, Hg⟩, Ho, ⟨%d0, H0⟩, ⟨%d1, H1⟩, ⟨%d2, H2⟩⟩
    iapply ((mm2_runA _ _ _ _ _ _ _ _ _ _ ((mm2_first_iff t).mpr h0) hl _ _).2 _ Set.univ _)
    iframe H0 H1 H2
    isplitl [HS0]; · iapply (mm2_acc_any V c _ _); iexact HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm2_scoverA c _ _ _ _ _ _ _ _ _ _ _ _ _)
    iexists _; iexact H2
  · rw [mm2_acc_pos V c _ _ h0, mm2_outsAt_B V c t h0 h1]
    unfold mm2_atB mm2_soutB; dsimp only
    iintro ⟨⟨⟨HS0, HR⟩, Hg⟩, Ho, ⟨%d0, H0⟩, ⟨%d1, H1⟩, ⟨%d2, H2⟩⟩
    iapply ((mm2_runB _ _ _ _ _ _ _ _ _ _ (fun h => h0 ((mm2_first_iff t).mp h)) hl _ _ _).2 _ Set.univ _)
    iframe H0 H1 H2 HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm2_scoverB c _ _ _ _ _ _ _ _ _ _ _ _ _ _)
    iexists _; iexact H2

theorem mm2_body_obligation : BodyObligation (mm2_dat (F := F) V c) (defs₀ (F := F)) Variants.none () Set.univ := fun t => by
  rw [bigSep_W2, bigSep_W2]
  exact mm2_sound_body V c t

theorem mm2_hin : Pipeline.ΦA spec2 c ⊢ (mm2_dat V c).Φ 0 := Entails.of_eq (mm2_PhiA_eq c)

theorem mm2_hout : (mm2_dat V c).Φ (Fin.last cfg2.N) ⊢ Pipeline.ΦA spec2 c := by
  rw [mm2_PhiA_eq]
  exact sep_mono_left (sep_mono_left (mm2_acc_any V c _ _))

theorem mm2_hin' (P : sProp 𝕄) :
    iprop((∃ r, prngReg c r) ∗ P ∗ Pipeline.scopedRest (Ix := Unit) (Name := ℕ) (U := UR sig nD τ) (Lvl := ℕ) (Val := Elt F) spec2 c) ⊢ (mm2_dat V c).Φ 0 := by
  refine BIBase.Entails.trans ?_ (mm2_hin V c)
  unfold Pipeline.ΦA
  iintro ⟨Hp, -, Hr⟩
  iframe

theorem mm2_hout' :
    (mm2_dat V c).Φ (Fin.last cfg2.N) ⊢ iprop((∃ r, prngReg c r) ∗ (BI.emp : sProp 𝕄) ∗ Pipeline.scopedRest (Ix := Unit) (Name := ℕ) (U := UR sig nD τ) (Lvl := ℕ) (Val := Elt F) spec2 c) := by
  refine BIBase.Entails.trans (mm2_hout V c) ?_
  unfold Pipeline.ΦA
  iintro ⟨Hr, Hp⟩
  iframe; iempintro

end Cert.KernelIdeal.Hand

end
-- ==== Proof.MmRun4.lean ====
import proofs.«403689_j2439541424354_3_alg».proof.Proof.Gen.KernelIdeal.Launch
import proofs.«403689_j2439541424354_3_alg».proof.Proof.Gen.KernelIdeal.Skeleton
import proofs.«403689_j2439541424354_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

abbrev mm4_first (i : grid4.Coords) : Prop :=
  (Scalar.cmpi .ne (Scalar.extui (Scalar.cmpi .eq (BitVec.ofNat 32 (i 2).val) 0#32)) 0#32) = 1#1

theorem mm4_first_iff : ∀ t : Fin cfg4.N, mm4_first (grid4.coords t) ↔ t.val % 4 = 0 := by decide +kernel

abbrev mm4_last (i : grid4.Coords) : Prop := k4_cond2 i = 1#1

theorem mm4_last_iff : ∀ t : Fin cfg4.N, mm4_last (grid4.coords t) ↔ t.val % 4 = 3 := by decide +kernel

theorem mm4_live0 : ∀ t : Fin cfg4.N, cfg4.idle 0 (grid4.coords t) = false := by decide +kernel
theorem mm4_live1 : ∀ t : Fin cfg4.N, cfg4.idle 1 (grid4.coords t) = false := by decide +kernel

theorem mm4_idle2 : ∀ t : Fin cfg4.N, ¬mm4_last (grid4.coords t) → cfg4.idle 2 (grid4.coords t) = true := by decide +kernel
theorem mm4_noflush2 : ∀ t : Fin cfg4.N, ¬mm4_last (grid4.coords t) → (cfg4.win 2).flush t = false := by decide +kernel

theorem mm4_live2 : ∀ t : Fin cfg4.N, mm4_last (grid4.coords t) → cfg4.idle 2 (grid4.coords t) = false := by decide +kernel

abbrev mm4_m0 (t : Fin cfg4.N) : Memref sig .tc .vmem S1024x512 .f32 := win4_0.stage (cfg4.slots t 0)
abbrev mm4_h0 (t : Fin cfg4.N) : (mm4_m0 t).IsWhole := hstage4_0 ((cfg4.slots t 0).cast nbuf4_0)
abbrev mm4_m1 (t : Fin cfg4.N) : Memref sig .tc .vmem S512x512 .f32 := win4_1.stage (cfg4.slots t 1)
abbrev mm4_h1 (t : Fin cfg4.N) : (mm4_m1 t).IsWhole := hstage4_1 ((cfg4.slots t 1).cast nbuf4_1)
abbrev mm4_m2 (t : Fin cfg4.N) : Memref sig .tc .vmem S1024x512 .f32 := win4_2.stage (cfg4.slots t 2)
abbrev mm4_h2 (t : Fin cfg4.N) : (mm4_m2 t).IsWhole := hstage4_2 ((cfg4.slots t 2).cast nbuf4_2)

abbrev mm4_sc : Memref sig .tc .vmem S1024x512 .f32 := Memref.whole cc4_scratch0

abbrev mm4_VO : View sig .tc .vmem S1024x512 .f32 := (Memref.whole cc4_stg2_0 : Memref sig .tc .vmem S1024x512 .f32).view
abbrev mm4_VS : View sig .tc .vmem S1024x512 .f32 := mm4_sc.view

theorem mm4_PhiA_eq (c : Dev nD) :
    (Pipeline.ΦA spec4 c : sProp 𝕄)
      = iprop(iprop((∃ d, owns (c : Thread nD τ) mm4_sc fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [mm4_sc, owns_whole]; try rfl

-- A whole memref is owned at x exactly when it holds the raw contents that read x.
theorem mm4_owns_eq {s : Shape} {m : Memref sig .tc .vmem s .f32} (h : m.IsWhole) (c : Dev nD) (x : Vec F s .f32) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid4.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

-- The kernel's triple: both factors come back as found; P5, PS hold the output block and the accumulator before, Q5, QS after.
def mm4_triple (x0 : Vec F S1024x512 .f32) (x1 : Vec F S512x512 .f32) (P5 PS Q5 QS : sProp 𝕄) : Prop :=
  ∀ (E : Set ℕ) (K : PUnit → sProp 𝕄),
    iprop(owns (c : Thread nD τ) arg3 fullShare x0 ∗ owns (c : Thread nD τ) arg4 fullShare x1 ∗ P5 ∗ PS ∗ (iprop(owns (c : Thread nD τ) arg3 fullShare x0 ∗ owns (c : Thread nD τ) arg4 fullShare x1 ∗ Q5 ∗ QS) -∗ K ⟨⟩))
      ⊢ wp frame (wpE (defs₀ (F := F)) Variants.none c none) E (cc4__matmul_kernel i arg3 harg3 arg4 harg4 arg5 harg5 arg6 harg6) K

def mm4_runA (hc0 : mm4_first i) (hc1 : ¬mm4_last i) (x0 : Vec F S1024x512 .f32) (x1 : Vec F S512x512 .f32) :
    { LS0 : List (View.Piece (Elt F) S1024x512 .f32) //
      ∀ xi2 : Vec F S1024x512 .f32, mm4_triple c i arg3 harg3 arg4 harg4 arg5 harg5 arg6 harg6 x0 x1 (owns (c : Thread nD τ) arg5 fullShare xi2) iprop(∃ d, owns (c : Thread nD τ) arg6 fullShare d) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc4__matmul_kernel_eq_skeleton, mm4_owns_eq harg3, mm4_owns_eq harg4, mm4_owns_eq harg5, mm4_owns_eq harg6]; unfold cc4__matmul_kernel_skel
    iintro ⟨H0, H1, H2, ⟨%ds0, HS0⟩, Hk⟩
    sl_exec (disch := first | exact hc0 | exact hc1)
    sl_step
    iapply Hk
    iframe H0 H1 H2
    iexists _; iexact HS0

def mm4_runB (hc0 : ¬mm4_first i) (hc1 : ¬mm4_last i) (x0 : Vec F S1024x512 .f32) (x1 : Vec F S512x512 .f32) (xs0 : Vec F S1024x512 .f32) :
    { LS0 : List (View.Piece (Elt F) S1024x512 .f32) //
      ∀ xi2 : Vec F S1024x512 .f32, mm4_triple c i arg3 harg3 arg4 harg4 arg5 harg5 arg6 harg6 x0 x1 (owns (c : Thread nD τ) arg5 fullShare xi2) (owns (c : Thread nD τ) arg6 fullShare xs0) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc4__matmul_kernel_eq_skeleton, mm4_owns_eq harg3, mm4_owns_eq harg4, mm4_owns_eq harg5, mm4_owns_eq harg6]; unfold cc4__matmul_kernel_skel
    iintro ⟨H0, H1, H2, HS0, Hk⟩
    sl_exec (disch := first | exact hc0 | exact hc1)
    sl_step
    iapply Hk
    iframe H0 H1 H2
    iexists _; iexact HS0

def mm4_runC (hc0 : ¬mm4_first i) (hc1 : mm4_last i) (x0 : Vec F S1024x512 .f32) (x1 : Vec F S512x512 .f32) (xs0 : Vec F S1024x512 .f32) :
    Σ' (L2 : List (View.Piece (Elt F) S1024x512 .f32)), { LS0 : List (View.Piece (Elt F) S1024x512 .f32) //
      mm4_triple c i arg3 harg3 arg4 harg4 arg5 harg5 arg6 harg6 x0 x1 iprop(∃ d, owns (c : Thread nD τ) arg5 fullShare d) (owns (c : Thread nD τ) arg6 fullShare xs0) iprop(∃ f, arg5.view.loc (c : Thread nD τ) ↦[arg5.view.set]{fullShare} arg5.view.writes (Elt F) f L2) iprop(∃ f, arg6.view.loc (c : Thread nD τ) ↦[arg6.view.set]{fullShare} arg6.view.writes (Elt F) f LS0) } := by
  refine ⟨?_, ?_, fun E K => ?run⟩
  case run =>
    simp only [cc4__matmul_kernel_eq_skeleton, mm4_owns_eq harg3, mm4_owns_eq harg4, mm4_owns_eq harg5, mm4_owns_eq harg6]; unfold cc4__matmul_kernel_skel
    iintro ⟨H0, H1, ⟨%d2, H2⟩, HS0, Hk⟩
    sl_exec (disch := first | exact hc0 | exact hc1)
    sl_step
    iapply Hk
    iframe H0 H1
    isplitl [H2]; · iexists _; iexact H2
    iexists _; iexact HS0
end

end Cert.KernelIdeal.Hand

end
-- ==== Proof.MmDat4.lean ====
import proofs.«403689_j2439541424354_3_alg».proof.Proof.MmRun4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def mm4_iblk (w : Fin cfg4.W) (t : Fin cfg4.N) : ((cfg4.win w).xblock (cfg4.grid.coords t)).Idx → Elt F (cfg4.win w).elt :=
  ((cfg4.win w).blk t).view.read (Elt F) (V c (Pipeline.arrRef spec4 w))

section
variable (i : grid4.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

section
variable (hc0 : mm4_first i) (hc1 : ¬mm4_last i) (x0 : Vec F S1024x512 .f32) (x1 : Vec F S512x512 .f32)
theorem mm4_scoverA (y : S1024x512.Idx) : ∃ pc ∈ (mm4_runA c i arg3 harg3 arg4 harg4 arg5 harg5 arg6 harg6 hc0 hc1 x0 x1).1, y ∈ pc.1.set :=
  View.cover_of_tiledL _ S1024x512.size (by sl_kernel_rfl) y
def mm4_soutA : Vec F S1024x512 .f32 :=
  mm4_VS.read (Elt F) (mm4_VS.writes (Elt F) mm4_VS.junk (mm4_runA c i arg3 harg3 arg4 harg4 arg5 harg5 arg6 harg6 hc0 hc1 x0 x1).1)
end

section
variable (hc0 : ¬mm4_first i) (hc1 : ¬mm4_last i) (x0 : Vec F S1024x512 .f32) (x1 : Vec F S512x512 .f32) (xs0 : Vec F S1024x512 .f32)
theorem mm4_scoverB (y : S1024x512.Idx) : ∃ pc ∈ (mm4_runB c i arg3 harg3 arg4 harg4 arg5 harg5 arg6 harg6 hc0 hc1 x0 x1 xs0).1, y ∈ pc.1.set :=
  View.cover_of_tiledL _ S1024x512.size (by sl_kernel_rfl) y
def mm4_soutB : Vec F S1024x512 .f32 :=
  mm4_VS.read (Elt F) (mm4_VS.writes (Elt F) mm4_VS.junk (mm4_runB c i arg3 harg3 arg4 harg4 arg5 harg5 arg6 harg6 hc0 hc1 x0 x1 xs0).1)
end

section
variable (hc0 : ¬mm4_first i) (hc1 : mm4_last i) (x0 : Vec F S1024x512 .f32) (x1 : Vec F S512x512 .f32) (xs0 : Vec F S1024x512 .f32)
theorem mm4_scoverC (y : S1024x512.Idx) : ∃ pc ∈ (mm4_runC c i arg3 harg3 arg4 harg4 arg5 harg5 arg6 harg6 hc0 hc1 x0 x1 xs0).2.1, y ∈ pc.1.set :=
  View.cover_of_tiledL _ S1024x512.size (by sl_kernel_rfl) y
theorem mm4_coverC (y : S1024x512.Idx) : ∃ pc ∈ (mm4_runC c i arg3 harg3 arg4 harg4 arg5 harg5 arg6 harg6 hc0 hc1 x0 x1 xs0).1, y ∈ pc.1.set :=
  View.cover_of_tiledL _ S1024x512.size (by sl_kernel_rfl) y
def mm4_soutC : Vec F S1024x512 .f32 :=
  mm4_VS.read (Elt F) (mm4_VS.writes (Elt F) mm4_VS.junk (mm4_runC c i arg3 harg3 arg4 harg4 arg5 harg5 arg6 harg6 hc0 hc1 x0 x1 xs0).2.1)
def mm4_outC : Vec F S1024x512 .f32 :=
  mm4_VO.read (Elt F) (mm4_VO.writes (Elt F) mm4_VO.junk (mm4_runC c i arg3 harg3 arg4 harg4 arg5 harg5 arg6 harg6 hc0 hc1 x0 x1 xs0).1)
end
end

def mm4_outIdle : Vec F S1024x512 .f32 := mm4_VO.read (Elt F) mm4_VO.junk

variable (t : Fin cfg4.N)

-- Each case at grid point t, on the point's blocks; a later K step continues from the accumulator a.
abbrev mm4_atA (h0 : t.val % 4 = 0) (h1 : ¬t.val % 4 = 3) : Vec F S1024x512 .f32 :=
  mm4_soutA c (grid4.coords t) (mm4_m0 t) (mm4_h0 t) (mm4_m1 t) (mm4_h1 t) (mm4_m2 t) (mm4_h2 t) mm4_sc (Memref.isWhole_whole _) ((mm4_first_iff t).mpr h0) (fun h => h1 ((mm4_last_iff t).mp h)) (mm4_iblk V c 0 t) (mm4_iblk V c 1 t)
abbrev mm4_atB (h0 : ¬t.val % 4 = 0) (h1 : ¬t.val % 4 = 3) (a : Vec F S1024x512 .f32) : Vec F S1024x512 .f32 :=
  mm4_soutB c (grid4.coords t) (mm4_m0 t) (mm4_h0 t) (mm4_m1 t) (mm4_h1 t) (mm4_m2 t) (mm4_h2 t) mm4_sc (Memref.isWhole_whole _) (fun h => h0 ((mm4_first_iff t).mp h)) (fun h => h1 ((mm4_last_iff t).mp h)) (mm4_iblk V c 0 t) (mm4_iblk V c 1 t) a
abbrev mm4_atC (h0 : ¬t.val % 4 = 0) (h1 : t.val % 4 = 3) (a : Vec F S1024x512 .f32) : Vec F S1024x512 .f32 :=
  mm4_soutC c (grid4.coords t) (mm4_m0 t) (mm4_h0 t) (mm4_m1 t) (mm4_h1 t) (mm4_m2 t) (mm4_h2 t) mm4_sc (Memref.isWhole_whole _) (fun h => h0 ((mm4_first_iff t).mp h)) ((mm4_last_iff t).mpr h1) (mm4_iblk V c 0 t) (mm4_iblk V c 1 t) a
abbrev mm4_atO (h0 : ¬t.val % 4 = 0) (h1 : t.val % 4 = 3) (a : Vec F S1024x512 .f32) : Vec F S1024x512 .f32 :=
  mm4_outC c (grid4.coords t) (mm4_m0 t) (mm4_h0 t) (mm4_m1 t) (mm4_h1 t) (mm4_m2 t) (mm4_h2 t) mm4_sc (Memref.isWhole_whole _) (fun h => h0 ((mm4_first_iff t).mp h)) ((mm4_last_iff t).mpr h1) (mm4_iblk V c 0 t) (mm4_iblk V c 1 t) a

-- The pair (output block, accumulator) after point n, by recursion on n.
def mm4_outsAt : (n : ℕ) → n < cfg4.N → Vec F S1024x512 .f32 × Vec F S1024x512 .f32
  | 0, hn => (mm4_outIdle, mm4_atA V c ⟨0, hn⟩ (Nat.zero_mod 4) (by show ¬0 % 4 = 3; decide))
  | n + 1, hn =>
    if h0 : (n + 1) % 4 = 0 then (mm4_outIdle, mm4_atA V c ⟨n + 1, hn⟩ h0 (by show ¬(n + 1) % 4 = 3; omega))
    else if h1 : (n + 1) % 4 = 3 then (mm4_atO V c ⟨n + 1, hn⟩ h0 h1 (mm4_outsAt n (Nat.lt_of_succ_lt hn)).2, mm4_atC V c ⟨n + 1, hn⟩ h0 h1 (mm4_outsAt n (Nat.lt_of_succ_lt hn)).2)
    else (mm4_outIdle, mm4_atB V c ⟨n + 1, hn⟩ h0 h1 (mm4_outsAt n (Nat.lt_of_succ_lt hn)).2)

theorem mm4_outsAt_A (h0 : t.val % 4 = 0) (h1 : ¬t.val % 4 = 3) :
    mm4_outsAt V c t.val t.isLt = (mm4_outIdle, mm4_atA V c t h0 h1) := by
  obtain ⟨n, hn⟩ := t
  cases n with
  | zero => rfl
  | succ n => exact dif_pos h0

theorem mm4_outsAt_B (h0 : ¬t.val % 4 = 0) (h1 : ¬t.val % 4 = 3) :
    mm4_outsAt V c t.val t.isLt = (mm4_outIdle, mm4_atB V c t h0 h1 (mm4_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_neg h1)

theorem mm4_outsAt_C (h0 : ¬t.val % 4 = 0) (h1 : t.val % 4 = 3) :
    mm4_outsAt V c t.val t.isLt = (mm4_atO V c t h0 h1 (mm4_outsAt V c (t.val - 1) (Nat.lt_of_le_of_lt (Nat.sub_le _ _) t.isLt)).2,
      mm4_atC V c t h0 h1 (mm4_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_pos h1)

-- The accumulator before point n: arbitrary before the first point, then what point n - 1 left.
def mm4_acc : (n : ℕ) → n ≤ cfg4.N → sProp 𝕄
  | 0, _ => iprop(∃ d, owns (c : Thread nD τ) mm4_sc fullShare d)
  | n + 1, hn => owns (c : Thread nD τ) mm4_sc fullShare (mm4_outsAt V c n hn).2

theorem mm4_acc_any (n : ℕ) (h : n ≤ cfg4.N) : mm4_acc V c n h ⊢ iprop(∃ d, owns (c : Thread nD τ) mm4_sc fullShare d) := by
  cases n with
  | zero => exact Idealize.SL.BI.Entails.refl _
  | succ n => unfold mm4_acc; iintro H; iexists _; iexact H

theorem mm4_acc_pos (n : ℕ) (h : n ≤ cfg4.N) (h0 : ¬n % 4 = 0) :
    mm4_acc V c n h = owns (c : Thread nD τ) mm4_sc fullShare (mm4_outsAt V c (n - 1) (by omega)).2 := by
  cases n with
  | zero => exact absurd (Nat.zero_mod 4) h0
  | succ n => rfl

-- The invariant between points; P is what it says of the accumulator.
def mm4_inv (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

def mm4_dat : Dat τ (Elt F) Unit ℕ (UR sig nD τ) ℕ cfg4 c where
  A w := V c (Pipeline.arrRef spec4 w)
  after w t := match w with
    | ⟨0, _⟩ => mm4_iblk V c 0 t
    | ⟨1, _⟩ => mm4_iblk V c 1 t
    | ⟨2, _⟩ => (mm4_outsAt V c t.val t.isLt).1
  Φ t := mm4_inv c (mm4_acc V c t.val (Nat.le_of_lt_succ t.isLt))
  q _ := fullShare
  owed _ := 0

theorem mm4_A_eq (w : Fin cfg4.W) : (mm4_dat V c).A w = V c (Pipeline.arrRef spec4 w) := rfl

theorem mm4_after2 : (mm4_dat V c).after 2 t = (mm4_outsAt V c t.val t.isLt).1 := rfl

theorem mm4_before0 (d) : (mm4_dat V c).before 0 t d = mm4_iblk V c 0 t :=
  ((mm4_dat V c).before_in_eq_fetched 0 rfl (fun _ => rfl) (fun _ _ _ => rfl) (fun _ => rfl) t d).trans rfl
theorem mm4_before1 (d) : (mm4_dat V c).before 1 t d = mm4_iblk V c 1 t :=
  ((mm4_dat V c).before_in_eq_fetched 1 rfl (fun _ => rfl) (fun _ _ _ => rfl) (fun _ => rfl) t d).trans rfl

theorem mm4_leaves (w : Fin cfg4.W) (h : cfg4.idle w (grid4.coords t) = false) :
    (mm4_dat V c).leavesExact w t = owns (c : Thread nD τ) ((cfg4.win w).stage (cfg4.slots t w)) fullShare ((mm4_dat V c).after w t) := by
  unfold Dat.leavesExact; rw [h]

-- By cases on the point's position modulo 4.
theorem mm4_sound_body :
    iprop((mm4_dat V c).Φ t.castSucc ∗ (mm4_dat V c).owesAt () t.castSucc
        ∗ (∃ d, owns (c : Thread nD τ) (mm4_m0 t) fullShare ((mm4_dat V c).before 0 t d))
        ∗ (∃ d, owns (c : Thread nD τ) (mm4_m1 t) fullShare ((mm4_dat V c).before 1 t d))
        ∗ (∃ d, owns (c : Thread nD τ) (mm4_m2 t) fullShare ((mm4_dat V c).before 2 t d)))
      ⊢ wp frame (wpE (defs₀ (F := F)) Variants.none c none) Set.univ (bodyAt4 t) fun _ =>
        iprop((mm4_dat V c).Φ t.succ ∗ (mm4_dat V c).owesAt () t.succ
          ∗ (mm4_dat V c).leavesExact 0 t ∗ (mm4_dat V c).leavesExact 1 t ∗ (mm4_dat V c).leavesExact 2 t) := by
  unfold bodyAt4
  simp only [mm4_before0, mm4_before1]
  rw [show (mm4_dat V c).owesAt () t.succ = (mm4_dat V c).owesAt () t.castSucc from rfl,
    show (mm4_dat V c).Φ t.succ = mm4_inv c (owns (c : Thread nD τ) mm4_sc fullShare (mm4_outsAt V c t.val t.isLt).2) from rfl,
    show (mm4_dat V c).Φ t.castSucc = mm4_inv c (mm4_acc V c t.val (Nat.le_of_lt t.isLt)) from rfl,
    mm4_leaves V c t 0 (mm4_live0 t), mm4_leaves V c t 1 (mm4_live1 t),
    show (mm4_dat V c).after 0 t = mm4_iblk V c 0 t from rfl, show (mm4_dat V c).after 1 t = mm4_iblk V c 1 t from rfl]
  unfold mm4_inv
  by_cases h1 : t.val % 4 = 3
  · have h0 : ¬t.val % 4 = 0 := by omega
    rw [mm4_acc_pos V c _ _ h0, mm4_leaves V c t 2 (mm4_live2 t ((mm4_last_iff t).mpr h1)), mm4_after2, mm4_outsAt_C V c t h0 h1]
    unfold mm4_atO mm4_atC mm4_outC mm4_soutC; dsimp only
    iintro ⟨⟨⟨HS0, HR⟩, Hg⟩, Ho, ⟨%d0, H0⟩, ⟨%d1, H1⟩, ⟨%d2, H2⟩⟩
    iapply ((mm4_runC _ _ _ _ _ _ _ _ _ _ (fun h => h0 ((mm4_first_iff t).mp h)) ((mm4_last_iff t).mpr h1) _ _ _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (mm4_scoverC c _ _ _ _ _ _ _ _ _ _ _ _ _ _)
    unfold owns; iexists _; isplitr
    swap; · iexact H2
    ipureintro; exact View.read_writes_of_cover _ _ _ _ _ (mm4_coverC c _ _ _ _ _ _ _ _ _ _ _ _ _ _)
  have hl : ¬mm4_last (grid4.coords t) := fun h => h1 ((mm4_last_iff t).mp h)
  rw [Dat.leavesExact_idle (mm4_dat V c) 2 t (mm4_idle2 t hl) (mm4_noflush2 t hl)]
  by_cases h0 : t.val % 4 = 0
  · rw [mm4_outsAt_A V c t h0 h1]
    unfold mm4_atA mm4_soutA; dsimp only
    iintro ⟨⟨⟨HS0, HR⟩, Hg⟩, Ho, ⟨%d0, H0⟩, ⟨%d1, H1⟩, ⟨%d2, H2⟩⟩
    iapply ((mm4_runA _ _ _ _ _ _ _ _ _ _ ((mm4_first_iff t).mpr h0) hl _ _).2 _ Set.univ _)
    iframe H0 H1 H2
    isplitl [HS0]; · iapply (mm4_acc_any V c _ _); iexact HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm4_scoverA c _ _ _ _ _ _ _ _ _ _ _ _ _)
    iexists _; iexact H2
  · rw [mm4_acc_pos V c _ _ h0, mm4_outsAt_B V c t h0 h1]
    unfold mm4_atB mm4_soutB; dsimp only
    iintro ⟨⟨⟨HS0, HR⟩, Hg⟩, Ho, ⟨%d0, H0⟩, ⟨%d1, H1⟩, ⟨%d2, H2⟩⟩
    iapply ((mm4_runB _ _ _ _ _ _ _ _ _ _ (fun h => h0 ((mm4_first_iff t).mp h)) hl _ _ _).2 _ Set.univ _)
    iframe H0 H1 H2 HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm4_scoverB c _ _ _ _ _ _ _ _ _ _ _ _ _ _)
    iexists _; iexact H2

theorem mm4_body_obligation : BodyObligation (mm4_dat (F := F) V c) (defs₀ (F := F)) Variants.none () Set.univ := fun t => by
  rw [bigSep_W4, bigSep_W4]
  exact mm4_sound_body V c t

theorem mm4_hin : Pipeline.ΦA spec4 c ⊢ (mm4_dat V c).Φ 0 := Entails.of_eq (mm4_PhiA_eq c)

theorem mm4_hout : (mm4_dat V c).Φ (Fin.last cfg4.N) ⊢ Pipeline.ΦA spec4 c := by
  rw [mm4_PhiA_eq]
  exact sep_mono_left (sep_mono_left (mm4_acc_any V c _ _))

theorem mm4_hin' (P : sProp 𝕄) :
    iprop((∃ r, prngReg c r) ∗ P ∗ Pipeline.scopedRest (Ix := Unit) (Name := ℕ) (U := UR sig nD τ) (Lvl := ℕ) (Val := Elt F) spec4 c) ⊢ (mm4_dat V c).Φ 0 := by
  refine BIBase.Entails.trans ?_ (mm4_hin V c)
  unfold Pipeline.ΦA
  iintro ⟨Hp, -, Hr⟩
  iframe

theorem mm4_hout' :
    (mm4_dat V c).Φ (Fin.last cfg4.N) ⊢ iprop((∃ r, prngReg c r) ∗ (BI.emp : sProp 𝕄) ∗ Pipeline.scopedRest (Ix := Unit) (Name := ℕ) (U := UR sig nD τ) (Lvl := ℕ) (Val := Elt F) spec4 c) := by
  refine BIBase.Entails.trans (mm4_hout V c) ?_
  unfold Pipeline.ΦA
  iintro ⟨Hr, Hp⟩
  iframe; iempintro

end Cert.KernelIdeal.Hand

end
-- ==== Proof.Regs.lean ====
import proofs.«403689_j2439541424354_3_alg».proof.Proof.Gen.KernelIdeal.Regions
import proofs.«403689_j2439541424354_3_alg».proof.Proof.MmDat0
import proofs.«403689_j2439541424354_3_alg».proof.Proof.MmDat1
import proofs.«403689_j2439541424354_3_alg».proof.Proof.MmDat2
import proofs.«403689_j2439541424354_3_alg».proof.Proof.MmDat4
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase
open scoped Idealize.SL.BI
open Idealize.SL.ProofMode
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (outs : Outs (F := F))

abbrev 𝒱₀ : Variants := Variants.none
abbrev Lz : GSem nD τ sig → Finset Unit := fun _ => ∅
abbrev lvz : GSem nD τ sig → Unit → ℕ := fun _ _ => 0
-- What passes unchanged beside the buffers through every item of @main.
abbrev Rst (c : Dev nD) : sProp 𝕄 := iprop((∃ r, prngReg c r) ∗ ∃ W, owes (c : Thread nD τ) (0 : CellTallies nD τ sig Unit) W)

abbrev En0 : (c : Dev nD) → (b : Ref sig .tc) → Buf (Elt F) ((c : Thread nD τ).loc b) := fun c b => V1 m c b
abbrev En1 : (c : Dev nD) → (b : Ref sig .tc) → Buf (Elt F) ((c : Thread nD τ).loc b) := fun c b => V2 m outs c b
abbrev En2 : (c : Dev nD) → (b : Ref sig .tc) → Buf (Elt F) ((c : Thread nD τ).loc b) := fun c b => V3 m outs c b
abbrev En3 : (c : Dev nD) → (b : Ref sig .tc) → Buf (Elt F) ((c : Thread nD τ).loc b) := fun c b => V5 m outs c b
abbrev Ex3 : (c : Dev nD) → (b : Ref sig .tc) → Buf (Elt F) ((c : Thread nD τ).loc b) := fun c b => V6 m outs c b
abbrev En4 : (c : Dev nD) → (b : Ref sig .tc) → Buf (Elt F) ((c : Thread nD τ).loc b) := fun c b => V7 m outs c b

-- A region entered with every unscoped buffer at Vi and left with them at Vo, given how its arrays split off those buffers and join them again.
def mkReg (pd : (p : Fin 5) → (c : Dev nD) → Dat τ (Elt F) Unit ℕ (UR sig nD τ) ℕ (cfgs p) c) (p : Fin 5)
    (Vi Vo : Dev nD → Valuation τ sig (Elt F))
    (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, BodyObligation (pd p c) (defs₀ (F := F)) 𝒱₀ () Set.univ) (howed : ∀ c t, (pd p c).owed t = 0)
    (hrec : ∀ c, (pd p c).recorded 0 = Set.univ)
    (hsplit : ∀ c, (unscopedBufs c (fun b => Vi c b) : sProp 𝕄)
      ⊢ iprop((pd p c).arrays ((pd p c).arrAt · 0) ∗ Pipeline.unscopedRest (cfgs p).spec c fun b => Vi c b))
    (hjoin : ∀ c, iprop((pd p c).arrays ((pd p c).arrAt · (cfgs p).N) ∗ Pipeline.unscopedRest (cfgs p).spec c fun b => Vi c b)
      ⊢ (unscopedBufs c (fun b => Vo c b) : sProp 𝕄))
    (hin : ∀ c (P : sProp 𝕄), iprop((∃ r, prngReg c r) ∗ P ∗ Pipeline.scopedRest (cfgs p).spec c) ⊢ (pd p c).Φ 0)
    (hout : ∀ c, (pd p c).Φ (Fin.last (cfgs p).N) ⊢ iprop((∃ r, prngReg c r) ∗ (BI.emp : sProp 𝕄) ∗ Pipeline.scopedRest (cfgs p).spec c)) :
    Pipeline.RegionSeg (pcfgs (F := F)) adm pd () defs₀ 𝒱₀ Lz lvz p where
  win := win
  block_pos := block_pos
  stage_whole := stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Vi c) ∗ Rst c)
  post c := iprop(StableHlo.held (c : Thread nD τ) (Pipeline.ucRefs τ sig) (Vo c) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := hin c _
  hout c := by
    rw [Pipeline.ownSems0_none]
    exact hout c
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [howed c]
    icases HO with ⟨%W, -, HO⟩; iexists W; iexact HO

-- The same for a region whose arrays are distinct whole buffers at the full share and whose one output window is wo: off that window's buffer nothing changes.
def mkRegW (pd : (p : Fin 5) → (c : Dev nD) → Dat τ (Elt F) Unit ℕ (UR sig nD τ) ℕ (cfgs p) c) (p : Fin 5)
    (Vi Vo : Dev nD → Valuation τ sig (Elt F)) (lf : Pipeline.LaunchFacts (nD := nD) (τ := τ) cfgs p) (wo : Fin (cfgs p).W)
    (hbody : ∀ c, BodyObligation (pd p c) (defs₀ (F := F)) 𝒱₀ () Set.univ) (howed : ∀ c t, (pd p c).owed t = 0)
    (hrec : ∀ c, (pd p c).recorded 0 = Set.univ) (hq : ∀ c w, (pd p c).q w = fullShare)
    (hA : ∀ c w, (pd p c).A w = Vi c (Pipeline.arrRef (cfgs p).spec w))
    (hVo : ∀ c (b : Ref sig .tc), b ≠ Pipeline.arrRef (cfgs p).spec wo → Vo c b = Vi c b)
    (hio : ∀ w, ((cfgs p).win w).isOut = false → Pipeline.arrRef (cfgs p).spec w ≠ Pipeline.arrRef (cfgs p).spec wo)
    (hoo : ∀ w, ((cfgs p).win w).isOut = true → w = wo)
    (ho : ∀ c, (pd p c).arrAt wo (cfgs p).N = Vo c (Pipeline.arrRef (cfgs p).spec wo))
    (hin : ∀ c (P : sProp 𝕄), iprop((∃ r, prngReg c r) ∗ P ∗ Pipeline.scopedRest (cfgs p).spec c) ⊢ (pd p c).Φ 0)
    (hout : ∀ c, (pd p c).Φ (Fin.last (cfgs p).N) ⊢ iprop((∃ r, prngReg c r) ∗ (BI.emp : sProp 𝕄) ∗ Pipeline.scopedRest (cfgs p).spec c)) :
    Pipeline.RegionSeg (pcfgs (F := F)) adm pd () defs₀ 𝒱₀ Lz lvz p :=
  mkReg pd p Vi Vo lf.win.to₀ lf.block_pos lf.stage_whole hbody howed hrec
    (fun c => Pipeline.arrays_of_unscopedBufs (p := p) (pcfgs (F := F)) adm pd lf.win lf.arr_whole c ((pd p c).share_full (hq c)) (fun b => Vi c b) (hA c))
    (fun c => Pipeline.unscopedBufs_of_arrays (p := p) (pcfgs (F := F)) adm (Ix := Unit) (Name := ℕ) (U := UR sig nD τ) (Lvl := ℕ)
      lf.win lf.arr_whole c pd ((pd p c).share_full (hq c)) (fun b => Vi c b) (fun b => Vo c b) _
      (fun w => by
        cases h : ((cfgs p).win w).isOut
        · exact ((pd p c).arrAt_in w h _).trans ((hA c w).trans (hVo c _ (hio w h)).symm)
        · obtain rfl := hoo w h; exact ho c)
      fun b hb => hVo c b fun e => hb (Finset.mem_image.mpr ⟨wo, Finset.mem_univ _, e.symm⟩))
    hin hout

variable (d3 : (c : Dev nD) → Dat τ (Elt F) Unit ℕ (UR sig nD τ) ℕ cfg3 c)

def pdats : (p : Fin 5) → (c : Dev nD) → Dat τ (Elt F) Unit ℕ (UR sig nD τ) ℕ (cfgs p) c
  | ⟨0, _⟩ => fun c => mm0_dat (En0 m) c
  | ⟨1, _⟩ => fun c => mm1_dat (En1 m outs) c
  | ⟨2, _⟩ => fun c => mm2_dat (En2 m outs) c
  | ⟨3, _⟩ => fun c => d3 c
  | ⟨4, _⟩ => fun c => mm4_dat (En4 m outs) c

-- The unknowns of the fold are what the regions leave: each result buffer holds its output window's array after the last point.
structure OutsOk : Prop where
  o0 : ∀ c : Dev nD, outs 2 main_v1 c = (mm0_dat (En0 m) c).arrAt 2 cfg0.N
  o1 : ∀ c : Dev nD, outs 3 main_v2 c = (mm1_dat (En1 m outs) c).arrAt 2 cfg1.N
  o2 : ∀ c : Dev nD, outs 4 main_v3 c = (mm2_dat (En2 m outs) c).arrAt 2 cfg2.N
  o3w : ∀ c : Dev nD, outs 6 main_v7_0 c = (d3 c).arrAt 8 cfg3.N
  o3o : ∀ c : Dev nD, outs 6 main_v7_1 c = (d3 c).arrAt 9 cfg3.N
  o4 : ∀ c : Dev nD, outs 8 main_v9 c = (mm4_dat (En4 m outs) c).arrAt 2 cfg4.N

def reg0 (ho : OutsOk m outs d3) : Pipeline.RegionSeg (pcfgs (F := F)) adm (pdats m outs d3) () defs₀ 𝒱₀ Lz lvz 0 :=
  mkRegW (pdats m outs d3) 0 (V1 m) (V2 m outs) launch0 2 (mm0_body_obligation (En0 m)) (fun _ _ => rfl) (fun _ => rfl) (fun _ _ => rfl)
    (fun _ _ => rfl) (fun c b h => V2_of m outs c b (mt List.mem_singleton.mp h)) (by decide) (by decide)
    (fun c => (ho.o0 c).symm.trans (show outs 2 main_v1 c = V2 m outs c main_v1 from by simp only [V2, Function.update_self]))
    (mm0_hin' (En0 m)) (mm0_hout' (En0 m))

def reg1 (ho : OutsOk m outs d3) : Pipeline.RegionSeg (pcfgs (F := F)) adm (pdats m outs d3) () defs₀ 𝒱₀ Lz lvz 1 :=
  mkRegW (pdats m outs d3) 1 (V2 m outs) (V3 m outs) launch1 2 (mm1_body_obligation (En1 m outs)) (fun _ _ => rfl) (fun _ => rfl) (fun _ _ => rfl)
    (fun _ _ => rfl) (fun c b h => V3_of m outs c b (mt List.mem_singleton.mp h)) (by decide) (by decide)
    (fun c => (ho.o1 c).symm.trans (show outs 3 main_v2 c = V3 m outs c main_v2 from by simp only [V3, Function.update_self]))
    (mm1_hin' (En1 m outs)) (mm1_hout' (En1 m outs))

def reg2 (ho : OutsOk m outs d3) : Pipeline.RegionSeg (pcfgs (F := F)) adm (pdats m outs d3) () defs₀ 𝒱₀ Lz lvz 2 :=
  mkRegW (pdats m outs d3) 2 (V3 m outs) (V4 m outs) launch2 2 (mm2_body_obligation (En2 m outs)) (fun _ _ => rfl) (fun _ => rfl) (fun _ _ => rfl)
    (fun _ _ => rfl) (fun c b h => V4_of m outs c b (mt List.mem_singleton.mp h)) (by decide) (by decide)
    (fun c => (ho.o2 c).symm.trans (show outs 4 main_v3 c = V4 m outs c main_v3 from by simp only [V4, Function.update_self]))
    (mm2_hin' (En2 m outs)) (mm2_hout' (En2 m outs))

def reg4 (ho : OutsOk m outs d3) : Pipeline.RegionSeg (pcfgs (F := F)) adm (pdats m outs d3) () defs₀ 𝒱₀ Lz lvz 4 :=
  mkRegW (pdats m outs d3) 4 (V7 m outs) (V8 m outs) launch4 2 (mm4_body_obligation (En4 m outs)) (fun _ _ => rfl) (fun _ => rfl) (fun _ _ => rfl)
    (fun _ _ => rfl) (fun c b h => V8_of m outs c b (mt List.mem_singleton.mp h)) (by decide) (by decide)
    (fun c => (ho.o4 c).symm.trans (show outs 8 main_v9 c = V8 m outs c main_v9 from by simp only [V8, Function.update_self]))
    (mm4_hin' (En4 m outs)) (mm4_hout' (En4 m outs))

end Cert.KernelIdeal.Hand

end
-- ==== Proof.KRun.lean ====
import proofs.«403689_j2439541424354_3_alg».proof.Proof.Regs

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.BI.BIBase
open scoped Idealize.SL.BI
open Idealize.SL.BI.Laws Idealize.SL.ProofMode Idealize.SL.Sem
open Idealize.ShloMosaic.Rounds
open Idealize.ShloMosaic.Pipeline (Dat Seg)

variable {F : FTy → Type} [FloatOps F]

variable (m : (ℓ : Loc nD τ sig) → Buf (Elt F) ℓ)

local notation "𝕄" => MT nD τ sig Unit (Elt F) ℕ (UR sig nD τ) ℕ

-- What a core is dealt at launch makes its first thread state.
theorem init_of_launch (ρ : Dev nD → PrngReg) (c : Dev nD) :
    (iprop((unscopedBufs c (fun b => V0 m c b) ∗ unscopedSems0 c ∗ owes (c.tc : Thread nD τ) ((0 : Dev nD → CellTallies nD τ sig Unit) c) ∅
        ∗ Pipeline.launchCred (0 : Dev nD → CellTallies nD τ sig Unit) c ∗ prngReg c (ρ c) ∗ iprop(emp)) ∗ levAts Lz lvz) : sProp 𝕄)
      ⊢ |={Set.univ}=> iprop(StableHlo.held (c : Thread nD τ) (Pipeline.ucRefs τ sig) (V0 m c) ∗ Rst c) := by
  rw [← Pipeline.unscopedBufs_held (Ix := Unit) (Name := ℕ) (U := UR sig nD τ) (Lvl := ℕ) c (V0 m c)]
  iintro ⟨⟨Hb, -, HO, -, Hp, -⟩, -⟩
  imodintro
  isplitl [Hb]; · iexact Hb
  isplitl [Hp]; · iexists _; iexact Hp
  iexists ∅; iexact HO

-- Every weakly fair execution of @main terminates with every unscoped buffer at the fold's last contents.
theorem run_of (ρ : Dev nD → PrngReg) (outs : Outs (F := F))
    (d3 : (c : Dev nD) → Dat τ (Elt F) Unit ℕ (UR sig nD τ) ℕ cfg3 c) (ho : OutsOk m outs d3)
    (R3 : Pipeline.RegionSeg (pcfgs (F := F)) adm (pdats m outs d3) () defs₀ 𝒱₀ Lz lvz 3)
    (hpre3 : ∀ c : Dev nD, iprop(StableHlo.held (c : Thread nD τ) (Pipeline.ucRefs τ sig) (V5 m outs c) ∗ Rst c) ⊢ R3.pre c)
    (hpost3 : ∀ c : Dev nD, R3.post c ⊢ iprop(StableHlo.held (c : Thread nD τ) (Pipeline.ucRefs τ sig) (V6 m outs c) ∗ Rst c)) :
    θ_run defs (onTc (τ := τ) (main (F := F))) ⟨m, fun _ => 0, ρ⟩ (fun r => ∀ c : Dev nD, ∀ b ∈ Pipeline.ucRefs τ sig,
      r.2.mem ((c : Thread nD τ).1, b) = V9 m outs c b) := by
  refine Pipeline.θ_run_regions_kit_dev (pcfgs (F := F)) adm (pdats m outs d3) () cellOf_inj emb₁ defs₀ 𝒱₀ Lz lvz m ρ main
    (segs m outs 𝒱₀ Lz lvz (fun _ c => Rst c) () (pdats m outs d3) (reg0 m outs d3 ho) (reg1 m outs d3 ho) (reg2 m outs d3 ho) R3 (reg4 m outs d3 ho))
    (fun c Q => by
      rewrite [main_chain c, Seg.run_eq_chain]
      exact .rfl)
    (fun c => by simp only [segs, Seg.pipes_host, Seg.pipes_region, Seg.pipes_nil]; decide) 0 (fun _ _ => rfl) (fun _ => (BI.emp : sProp 𝕄))
    (initOf (Pipeline.cells cfgs cellOf_inj) (Pipeline.launchToks cfgs cellOf_inj)) ?_
    (T₀ := fun c => iprop(StableHlo.held (c : Thread nD τ) (Pipeline.ucRefs τ sig) (V0 m c) ∗ Rst c))
    (Tₙ := fun c => StableHlo.held (c : Thread nD τ) (Pipeline.ucRefs τ sig) (V9 m outs c))
    (hch := fun c => ⟨.rfl, .rfl, .rfl, .rfl, .rfl, hpre3 c, hpost3 c, .rfl, .rfl, sep_mono .rfl (by iintro ⟨-, H⟩; iexact H)⟩)
    (hinit := Pipeline.initEach Lz lvz (init_of_launch m ρ)) (QY := fun c s => ∀ b ∈ Pipeline.ucRefs τ sig, s.mem ((c : Thread nD τ).1, b) = V9 m outs c b)
    (hfin := fun c s' => ?_) (hQ := fun _ h => h)
  · rw [BI.bigSep_emp_const]
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iempintro
  · unfold StableHlo.held
    iintro H
    imodintro
    iapply pointsTo_read_all (Pipeline.ucRefs τ sig) (fun b => ((c : Thread nD τ).1, b)) (V9 m outs c) s'
    iexact H

end Cert.KernelIdeal.Hand

end
-- ==== Proof.AtRun.lean ====
import proofs.«403689_j2439541424354_3_alg».proof.Proof.Gen.KernelIdeal.Launch
import proofs.«403689_j2439541424354_3_alg».proof.Proof.Gen.KernelIdeal.Skeleton
import proofs.«403689_j2439541424354_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.Sem
open scoped Idealize.SL.BI

variable {F : FTy → Type} [FloatOps F]

local notation "𝕄" => MT nD τ sig Unit (Elt F) ℕ (UR sig nD τ) ℕ

variable (x0 : Vec F S1x256x128 .f32) (x1 x2 : Vec F S1x2048x128 .f32) (x3 x4 : Vec F S1x256x128 .f32) (x5 x6 : Vec F S1x2048x128 .f32) (x7 : Vec F S1x1x256x2048 .f32)

-- The softmax weights block and the attended block, from the eight input blocks.
def at3_outW : Vec F S1x1x256x2048 .f32 :=
  k3_pay2 (k3_pay5 x0 x3 x4) (k3_pay6 x1 x5 x6) (constant S256x2048 .f32 0x00000000#32) x7

def at3_outO : Vec F S1x256x128 .f32 :=
  k3_pay3 (k3_pay4 x2) (k3_pay5 x0 x3 x4) (k3_pay6 x1 x5 x6) (constant S256x2048 .f32 0x00000000#32) x7

theorem at3_hz3 : (![0, 0, 0] : Fin 3 → Nat) = fun _ => 0 := funext fun a => by fin_cases a <;> rfl
theorem at3_hz4 : (![0, 0, 0, 0] : Fin 4 → Nat) = fun _ => 0 := funext fun a => by fin_cases a <;> rfl

set_option maxHeartbeats 1000000 in
-- Run on whole blocks, the body returns the input blocks as found and the two output blocks as functions of them.
theorem at3_sound {c : Dev nD} {E : Set ℕ} {i : grid3.Coords} {arg3 arg6 arg7 arg12 : Memref sig .tc .vmem S1x256x128 .f32}
    {arg4 arg5 arg8 arg9 : Memref sig .tc .vmem S1x2048x128 .f32} {arg10 arg11 : Memref sig .tc .vmem S1x1x256x2048 .f32}
    {harg3 : arg3.IsWhole} {harg4 : arg4.IsWhole} {harg5 : arg5.IsWhole} {harg6 : arg6.IsWhole} {harg7 : arg7.IsWhole}
    {harg8 : arg8.IsWhole} {harg9 : arg9.IsWhole} {harg10 : arg10.IsWhole} {harg11 : arg11.IsWhole} {harg12 : arg12.IsWhole}
    {K : PUnit → sProp 𝕄} :
    iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7
        ∗ (∃ d, owns c arg11 fullShare d) ∗ (∃ d, owns c arg12 fullShare d)
        ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7
            ∗ owns c arg11 fullShare (at3_outW x0 x1 x3 x4 x5 x6 x7) ∗ owns c arg12 fullShare (at3_outO x0 x1 x2 x3 x4 x5 x6 x7)) -∗ K ⟨⟩))
      ⊢ wp frame (wpE (defs₀ (F := F)) Variants.none c none) E (cc3__attn_kernel i arg3 harg3 arg4 harg4 arg5 harg5 arg6 harg6 arg7 harg7 arg8 harg8 arg9 harg9 arg10 harg10 arg11 harg11 arg12 harg12) K := by
  simp only [cc3__attn_kernel_eq_skeleton]; unfold cc3__attn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  iexists _; isplitr; swap; iexact H8
  swap
  iexists _; isplitr; swap; iexact H9
  all_goals ipureintro
  rw [View.read_writes_eq_canon _ _ _ (fun y => ⟨_, List.mem_singleton_self _, View.mem_set_unit_zero at3_hz3 inb_S1x256x128_S1x256x128_0_0_0 y⟩), View.canon_unit_zero at3_hz3]
  swap
  rw [View.read_writes_eq_canon _ _ _ (fun y => ⟨_, List.mem_singleton_self _, View.mem_set_unit_zero at3_hz4 inb_S1x1x256x2048_S1x1x256x2048_0_0_0_0 y⟩), View.canon_unit_zero at3_hz4]
  all_goals
    dsimp only
    sl_unfold_run_names
    simp only [View.readAt_eq_ld, View.ld_unit_zero (S := S1x256x128) at3_hz3, View.ld_unit_zero (S := S1x2048x128) at3_hz3, View.ld_unit_zero (S := S1x1x256x2048) at3_hz4]
    rfl

end Cert.KernelIdeal.Hand

end
-- ==== Proof.AtDat.lean ====
import proofs.«403689_j2439541424354_3_alg».proof.Proof.AtRun

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b)) (c : Dev nD)

def at3_iblk (w : Fin cfg3.W) (t : Fin cfg3.N) : ((cfg3.win w).xblock (cfg3.grid.coords t)).Idx → Elt F (cfg3.win w).elt :=
  ((cfg3.win w).blk t).view.read (Elt F) (V c (Pipeline.arrRef spec3 w))

-- The body leaves each input block in place and the two output blocks as functions of the point's input blocks.
def at3_dat : Dat τ (Elt F) Unit ℕ (UR sig nD τ) ℕ cfg3 c where
  A w := V c (Pipeline.arrRef spec3 w)
  after w t := match w with
    | ⟨0, _⟩ => at3_iblk V c 0 t
    | ⟨1, _⟩ => at3_iblk V c 1 t
    | ⟨2, _⟩ => at3_iblk V c 2 t
    | ⟨3, _⟩ => at3_iblk V c 3 t
    | ⟨4, _⟩ => at3_iblk V c 4 t
    | ⟨5, _⟩ => at3_iblk V c 5 t
    | ⟨6, _⟩ => at3_iblk V c 6 t
    | ⟨7, _⟩ => at3_iblk V c 7 t
    | ⟨8, _⟩ => at3_outW (at3_iblk V c 0 t) (at3_iblk V c 1 t) (at3_iblk V c 3 t) (at3_iblk V c 4 t) (at3_iblk V c 5 t) (at3_iblk V c 6 t) (at3_iblk V c 7 t)
    | ⟨9, _⟩ => at3_outO (at3_iblk V c 0 t) (at3_iblk V c 1 t) (at3_iblk V c 2 t) (at3_iblk V c 3 t) (at3_iblk V c 4 t) (at3_iblk V c 5 t) (at3_iblk V c 6 t) (at3_iblk V c 7 t)
  Φ _ := Pipeline.ΦA spec3 c
  q := fun
    | ⟨3, _⟩ | ⟨4, _⟩ => fullShare.left
    | ⟨5, _⟩ | ⟨6, _⟩ => fullShare.right
    | _ => fullShare
  owed _ := 0

theorem at3_A_eq (w : Fin cfg3.W) : (at3_dat V c).A w = V c (Pipeline.arrRef spec3 w) := rfl

-- What the body is handed for an input window at a point is that window's block there.
theorem at3_before (t : Fin cfg3.N) :
    (∀ d, (at3_dat V c).before 0 t d = at3_iblk V c 0 t) ∧ (∀ d, (at3_dat V c).before 1 t d = at3_iblk V c 1 t) ∧ (∀ d, (at3_dat V c).before 2 t d = at3_iblk V c 2 t) ∧ (∀ d, (at3_dat V c).before 3 t d = at3_iblk V c 3 t) ∧ (∀ d, (at3_dat V c).before 4 t d = at3_iblk V c 4 t) ∧ (∀ d, (at3_dat V c).before 5 t d = at3_iblk V c 5 t) ∧ (∀ d, (at3_dat V c).before 6 t d = at3_iblk V c 6 t) ∧ (∀ d, (at3_dat V c).before 7 t d = at3_iblk V c 7 t) := by
  refine ⟨?_, ?_, ?_, ?_, ?_, ?_, ?_, ?_⟩ <;> intro d <;>
    exact (at3_dat V c).before_in_eq_fetched _ rfl (fun _ => rfl) (fun _ _ _ => rfl) (fun _ => rfl) t d

theorem at3_body_obligation : BodyObligation (at3_dat (F := F) V c) (defs₀ (F := F)) Variants.none () Set.univ := fun t => by
  rw [bigSep_W3, bigSep_W3]
  obtain ⟨b0, b1, b2, b3, b4, b5, b6, b7⟩ := at3_before V c t
  simp only [b0, b1, b2, b3, b4, b5, b6, b7]
  show _ ⊢ wp _ _ _ (bodyAt3 t) fun _ => iprop(_ ∗ (at3_dat V c).owesAt () t.castSucc ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  dsimp only [at3_dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply at3_sound (at3_iblk V c 0 t) (at3_iblk V c 1 t) (at3_iblk V c 2 t) (at3_iblk V c 3 t) (at3_iblk V c 4 t) (at3_iblk V c 5 t) (at3_iblk V c 6 t) (at3_iblk V c 7 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro H
  isplitl [HΦ]; · iexact HΦ
  isplitl [Ho]; · iexact Ho
  iexact H

end Cert.KernelIdeal.Hand

end
-- ==== Proof.Sh3.lean ====
import proofs.«403689_j2439541424354_3_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase
open scoped Idealize.SL.BI
open Idealize.SL.BI.Laws Idealize.SL.ProofMode
open Idealize.ShloMosaic.Pipeline (Dat)

variable {F : FTy → Type} [FloatOps F]

local notation "𝕄" => MT nD τ sig Unit (Elt F) ℕ (UR sig nD τ) ℕ

-- The whole buffer behind r on core c, at share q and contents V r.
abbrev pt3 (c : Dev nD) (V : (b : Ref sig .tc) → Buf (Elt F) ((c : Thread nD τ).loc b)) (q : PosShare TreeShare) (r : Ref sig .tc) : sProp 𝕄 :=
  ((c : Thread nD τ).loc r) ↦{q} V r

theorem sh3_arrBufs_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop(pt3 c V fullShare main_v4 ∗ pt3 c V fullShare main_v5
          ∗ pt3 c V fullShare main_v6 ∗ pt3 c V fullShare main_arg1
          ∗ pt3 c V fullShare main_arg2 ∗ pt3 c V fullShare main_arg3
          ∗ pt3 c V fullShare main_v7_0 ∗ pt3 c V fullShare main_v7_1) := by
  unfold Pipeline.arrBufs
  exact bigSep_eq_bigSepL_of_eq [main_v4, main_v5, main_v6, main_arg1, main_arg2, main_arg3, main_v7_0, main_v7_1] (by decide) (by decide) _

-- The share each window holds its array at: an array read through two windows is halved between them.
def sh3 : Fin cfg3.W → PosShare TreeShare
  | ⟨3, _⟩ | ⟨4, _⟩ => fullShare.left
  | ⟨5, _⟩ | ⟨6, _⟩ => fullShare.right
  | _ => fullShare

theorem sh3_win_pt (c : Dev nD) (dat : Dat τ (Elt F) Unit ℕ (UR sig nD τ) ℕ cfg3 c) (w : Fin cfg3.W) (q : PosShare TreeShare) (hq : dat.share w = q)
    (f : Buf (Elt F) (((cfg3.win w).arr.view.loc (c : Thread nD τ)))) :
    (((cfg3.win w).arr.view.loc (c : Thread nD τ)) ↦[(cfg3.win w).arr.view.set]{dat.share w} f : sProp 𝕄)
      = (((c : Thread nD τ).loc (Pipeline.arrRef spec3 w)) ↦{q} f) := by
  rw [(arr_whole3 w).set_eq_univ, hq]

theorem sh3_arrays_eq (c : Dev nD) (dat : Dat τ (Elt F) Unit ℕ (UR sig nD τ) ℕ cfg3 c) (hq : ∀ w, dat.share w = sh3 w)
    (V : (b : Ref sig .tc) → Buf (Elt F) ((c : Thread nD τ).loc b)) :
    (dat.arrays (fun w => V (Pipeline.arrRef spec3 w)) : sProp 𝕄)
      = iprop(pt3 c V fullShare main_v4 ∗ pt3 c V fullShare main_v5 ∗ pt3 c V fullShare main_v6
          ∗ pt3 c V fullShare.left main_arg1 ∗ pt3 c V fullShare.left main_arg2
          ∗ pt3 c V fullShare.right main_arg1 ∗ pt3 c V fullShare.right main_arg2
          ∗ pt3 c V fullShare main_arg3 ∗ pt3 c V fullShare main_v7_0 ∗ pt3 c V fullShare main_v7_1) := by
  unfold Dat.arrays
  rw [bigSep_W3]
  exact congrArg₂ _ (sh3_win_pt c dat 0 _ (hq 0) _) (congrArg₂ _ (sh3_win_pt c dat 1 _ (hq 1) _) (congrArg₂ _ (sh3_win_pt c dat 2 _ (hq 2) _)
    (congrArg₂ _ (sh3_win_pt c dat 3 _ (hq 3) _) (congrArg₂ _ (sh3_win_pt c dat 4 _ (hq 4) _) (congrArg₂ _ (sh3_win_pt c dat 5 _ (hq 5) _)
    (congrArg₂ _ (sh3_win_pt c dat 6 _ (hq 6) _) (congrArg₂ _ (sh3_win_pt c dat 7 _ (hq 7) _) (congrArg₂ _ (sh3_win_pt c dat 8 _ (hq 8) _)
    (sh3_win_pt c dat 9 _ (hq 9) _)))))))))

-- At entry the full share of each twice-read array is cut into the halves its two windows hold.
theorem arrays3_of_unscopedBufs (c : Dev nD) (dat : Dat τ (Elt F) Unit ℕ (UR sig nD τ) ℕ cfg3 c) (hq : ∀ w, dat.share w = sh3 w)
    (V : (b : Ref sig .tc) → Buf (Elt F) ((c : Thread nD τ).loc b)) (hA : ∀ w, dat.A w = V (Pipeline.arrRef spec3 w)) :
    (unscopedBufs c V : sProp 𝕄) ⊢ iprop(dat.arrays (dat.arrAt · 0) ∗ Pipeline.unscopedRest (Ix := Unit) (Name := ℕ) (U := UR sig nD τ) (Lvl := ℕ) spec3 c V) := by
  rw [Pipeline.unscopedBufs_split₀ (P := Unit) (fun _ => cfg3) () winFacts₀3.arr_unscoped c V,
    show (fun w => dat.arrAt w 0) = fun w => V (Pipeline.arrRef spec3 w) from funext hA, sh3_arrBufs_eq, sh3_arrays_eq c dat hq]
  refine sep_mono ?_ .rfl
  iintro ⟨H0, H1, H2, Ha1, Ha2, H7, H8, H9⟩
  icases (pointsTo_share (PosShare.mem_left_op_right fullShare)).1 $$ Ha1 with ⟨Ha1l, Ha1r⟩
  icases (pointsTo_share (PosShare.mem_left_op_right fullShare)).1 $$ Ha2 with ⟨Ha2l, Ha2r⟩
  iframe

-- At exit the two halves of a twice-read array hold the same contents, so they join to its full share.
theorem unscopedBufs_of_arrays3 (c : Dev nD) (dat : Dat τ (Elt F) Unit ℕ (UR sig nD τ) ℕ cfg3 c) (hq : ∀ w, dat.share w = sh3 w)
    (V V' : (b : Ref sig .tc) → Buf (Elt F) ((c : Thread nD τ).loc b))
    (F' : (w : Fin cfg3.W) → Buf (Elt F) (((cfg3.win w).arr.view.loc (c : Thread nD τ))))
    (hF : ∀ w, F' w = V' (Pipeline.arrRef spec3 w)) (hrest : ∀ b, b ∉ Finset.univ.image (Pipeline.arrRef spec3) → V' b = V b) :
    iprop(dat.arrays F' ∗ Pipeline.unscopedRest (Ix := Unit) (Name := ℕ) (U := UR sig nD τ) (Lvl := ℕ) spec3 c V) ⊢ (unscopedBufs c V' : sProp 𝕄) := by
  rw [Pipeline.unscopedBufs_split₀ (P := Unit) (fun _ => cfg3) () winFacts₀3.arr_unscoped c V',
    show F' = fun w => V' (Pipeline.arrRef spec3 w) from funext hF, sh3_arrBufs_eq, sh3_arrays_eq c dat hq]
  refine sep_mono ?_ (Entails.of_eq ?_)
  · iintro ⟨H0, H1, H2, Ha1l, Ha2l, Ha1r, Ha2r, H7, H8, H9⟩
    iframe H0 H1 H2 H7 H8 H9
    isplitl [Ha1l Ha1r] <;> iapply (pointsTo_share (PosShare.mem_left_op_right fullShare)).2 <;> iframe
  · unfold Pipeline.unscopedRest
    exact bigSep_congr fun b hb => by rw [hrest b (Finset.mem_sdiff.mp hb).2]

end Cert.KernelIdeal.Hand
-- ==== Proof.Reg3.lean ====
import proofs.«403689_j2439541424354_3_alg».proof.Proof.Regs
import proofs.«403689_j2439541424354_3_alg».proof.Proof.AtDat
import proofs.«403689_j2439541424354_3_alg».proof.Proof.Sh3

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.BI.BIBase
open scoped Idealize.SL.BI
open Idealize.SL.ProofMode
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (outs : Outs (F := F))

abbrev d3 : (c : Dev nD) → Dat τ (Elt F) Unit ℕ (UR sig nD τ) ℕ cfg3 c := fun c => at3_dat (En3 m outs) c

theorem at3_share (c : Dev nD) : ∀ w, (d3 m outs c).share w = sh3 w
  | ⟨0, _⟩ => rfl | ⟨1, _⟩ => rfl | ⟨2, _⟩ => rfl | ⟨3, _⟩ => rfl | ⟨4, _⟩ => rfl
  | ⟨5, _⟩ => rfl | ⟨6, _⟩ => rfl | ⟨7, _⟩ => rfl | ⟨8, _⟩ => rfl | ⟨9, _⟩ => rfl

theorem hF3 (ho : OutsOk m outs (d3 m outs)) (c : Dev nD) (w : Fin cfg3.W) :
    (at3_dat (En3 m outs) c).arrAt w cfg3.N = Ex3 m outs c (Pipeline.arrRef spec3 w) := by
  cases h : (cfg3.win w).isOut
  · exact ((at3_dat (En3 m outs) c).arrAt_in w h _).trans ((at3_A_eq (En3 m outs) c w).trans (V6_of m outs c _
      ((by decide : ∀ w : Fin cfg3.W, (cfg3.win w).isOut = false → Pipeline.arrRef spec3 w ∉ [main_v7_0, main_v7_1]) w h)).symm)
  · rcases (by decide : ∀ w : Fin cfg3.W, (cfg3.win w).isOut = true → w = 8 ∨ w = 9) w h with rfl | rfl
    · exact (ho.o3w c).symm.trans (show outs 6 main_v7_0 c = V6 m outs c main_v7_0 from by
        simp only [V6, Function.update_of_ne (StableHlo.devRef_ne_of_ne (by decide : main_v7_0 ≠ main_v7_1) : (Proc.devRef .tc main_v7_0 : DevRef τ sig) ≠ Proc.devRef .tc main_v7_1), Function.update_self])
    · exact (ho.o3o c).symm.trans (show outs 6 main_v7_1 c = V6 m outs c main_v7_1 from by simp only [V6, Function.update_self])

theorem hrest3 (c : Dev nD) : ∀ b, b ∉ Finset.univ.image (Pipeline.arrRef spec3) → Ex3 m outs c b = En3 m outs c b :=
  fun b hb => V6_of m outs c b fun hb' => hb (Finset.mem_image.mpr (by
    rcases List.mem_cons.mp hb' with h | h
    · exact ⟨8, Finset.mem_univ _, h.symm⟩
    · exact ⟨9, Finset.mem_univ _, (List.mem_singleton.mp h).symm⟩))

def reg3 (ho : OutsOk m outs (d3 m outs)) : Pipeline.RegionSeg (pcfgs (F := F)) adm (pdats m outs (d3 m outs)) () defs₀ 𝒱₀ Lz lvz 3 :=
  mkReg (pdats m outs (d3 m outs)) 3 (V5 m outs) (V6 m outs) winFacts₀3 block_pos3 stage_whole3
    (at3_body_obligation (En3 m outs)) (fun _ _ => rfl) (fun _ => rfl)
    (fun c => arrays3_of_unscopedBufs c (d3 m outs c) (at3_share m outs c) (En3 m outs c) (at3_A_eq (En3 m outs) c))
    (fun c => unscopedBufs_of_arrays3 c (d3 m outs c) (at3_share m outs c) (En3 m outs c) (Ex3 m outs c) _ (hF3 m outs ho c) (hrest3 m outs c))
    (fun c P => by
      change _ ⊢ Pipeline.ΦA spec3 c; unfold Pipeline.ΦA
      iintro ⟨Hp, -, Hr⟩
      isplitl [Hr]; · iexact Hr
      iexact Hp)
    (fun c => by
      change Pipeline.ΦA spec3 c ⊢ _; unfold Pipeline.ΦA
      iintro ⟨Hr, Hp⟩
      isplitl [Hp]; · iexact Hp
      isplitr; · iempintro
      iexact Hr)

end Cert.KernelIdeal.Hand

end
-- ==== Proof.Outs.lean ====
import proofs.«403689_j2439541424354_3_alg».proof.Proof.Regs

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

def setOut (o : Outs (F := F)) (r₀ : Ref sig .tc) (v : (c : Dev nD) → Buf (Elt F) ((c : Thread nD τ).loc r₀)) : Outs (F := F) :=
  fun J r c => Function.update (fun r' : Ref sig .tc => o J r' c) r₀ (v c) r

theorem setOut_self (o : Outs (F := F)) (r₀ : Ref sig .tc) (v : (c : Dev nD) → Buf (Elt F) ((c : Thread nD τ).loc r₀))
    (J : ℕ) (c : Dev nD) : setOut o r₀ v J r₀ c = v c := by
  unfold setOut; exact Function.update_self _ _ _

theorem setOut_ne (o : Outs (F := F)) (r₀ : Ref sig .tc) (v : (c : Dev nD) → Buf (Elt F) ((c : Thread nD τ).loc r₀))
    (J : ℕ) (r : Ref sig .tc) (c : Dev nD) (h : r ≠ r₀) : setOut o r₀ v J r c = o J r c := by
  unfold setOut; exact Function.update_of_ne h _ _

-- Two families agree off L when they hold the same contents at every reference outside L.
def AgreeOff (L : List (Ref sig .tc)) (o o' : Outs (F := F)) : Prop :=
  ∀ (J : ℕ) (r : Ref sig .tc) (c : Dev nD), r ∉ L → o J r c = o' J r c

theorem agree_setOut (o : Outs (F := F)) (r₀ : Ref sig .tc) (v : (c : Dev nD) → Buf (Elt F) ((c : Thread nD τ).loc r₀)) :
    AgreeOff [r₀] (setOut o r₀ v) o := fun J r c h => setOut_ne o r₀ v J r c fun e => h (List.mem_singleton.mpr e)

theorem AgreeOff.trans {L L' : List (Ref sig .tc)} {o o' o'' : Outs (F := F)} (h : AgreeOff L o o') (h' : AgreeOff L' o' o'') :
    AgreeOff (L ++ L') o o'' := fun J r c hr =>
  (h J r c fun x => hr (List.mem_append_left _ x)).trans (h' J r c fun x => hr (List.mem_append_right _ x))

section Congr
variable (m : (ℓ : Loc nD τ sig) → Buf (Elt F) ℓ) (o o' : Outs (F := F)) (c : Dev nD) {L : List (Ref sig .tc)}

-- The fold's contents before a region read the family only at the result buffers of the regions before it.
theorem V2_congr (h : AgreeOff L o o') (h1 : main_v1 ∉ L) : V2 m o c = V2 m o' c := by
  unfold V2; rw [h 2 _ c h1]

theorem V3_congr (h : AgreeOff L o o') (h1 : main_v1 ∉ L) (h2 : main_v2 ∉ L) : V3 m o c = V3 m o' c := by
  unfold V3; rw [V2_congr m o o' c h h1, h 3 _ c h2]

theorem V5_congr (h : AgreeOff L o o') (h1 : main_v1 ∉ L) (h2 : main_v2 ∉ L) (h3 : main_v3 ∉ L) : V5 m o c = V5 m o' c := by
  unfold V5 V4; rw [V3_congr m o o' c h h1 h2, h 4 _ c h3]

theorem V7_congr (h : AgreeOff L o o') (h1 : main_v1 ∉ L) (h2 : main_v2 ∉ L) (h3 : main_v3 ∉ L) (h4 : main_v7_0 ∉ L)
    (h5 : main_v7_1 ∉ L) : V7 m o c = V7 m o' c := by
  unfold V7 V6; rw [V5_congr m o o' c h h1 h2 h3, h 6 _ c h4, h 6 _ c h5]

end Congr

section Build
variable (dA : (V : (c : Dev nD) → (b : Ref sig .tc) → Buf (Elt F) ((c : Thread nD τ).loc b)) → (c : Dev nD)
    → Dat τ (Elt F) Unit ℕ (UR sig nD τ) ℕ cfg3 c)
  (m : (ℓ : Loc nD τ sig) → Buf (Elt F) ℓ)

def outsI : Outs (F := F) := fun _ r c => m ((c : Thread nD τ).loc r)
def outs0 : Outs (F := F) := setOut (outsI m) main_v1 fun c => (mm0_dat (En0 m) c).arrAt 2 cfg0.N
def outs1 : Outs (F := F) := setOut (outs0 m) main_v2 fun c => (mm1_dat (En1 m (outs0 m)) c).arrAt 2 cfg1.N
def outs2 : Outs (F := F) := setOut (outs1 m) main_v3 fun c => (mm2_dat (En2 m (outs1 m)) c).arrAt 2 cfg2.N
def outs3 : Outs (F := F) :=
  setOut (setOut (outs2 m) main_v7_0 fun c => (dA (En3 m (outs2 m)) c).arrAt 8 cfg3.N)
    main_v7_1 fun c => (dA (En3 m (outs2 m)) c).arrAt 9 cfg3.N
def outsH : Outs (F := F) := setOut (outs3 dA m) main_v9 fun c => (mm4_dat (En4 m (outs3 dA m)) c).arrAt 2 cfg4.N

theorem agH3 : AgreeOff [main_v9] (outsH dA m) (outs3 dA m) := agree_setOut _ _ _
theorem agH2 : AgreeOff [main_v9, main_v7_1, main_v7_0] (outsH dA m) (outs2 m) :=
  (agH3 dA m).trans ((agree_setOut _ _ _).trans (agree_setOut _ _ _))
theorem agH1 : AgreeOff [main_v9, main_v7_1, main_v7_0, main_v3] (outsH dA m) (outs1 m) := (agH2 dA m).trans (agree_setOut _ _ _)
theorem agH0 : AgreeOff [main_v9, main_v7_1, main_v7_0, main_v3, main_v2] (outsH dA m) (outs0 m) := (agH1 dA m).trans (agree_setOut _ _ _)

theorem En1_outsH : En1 m (outsH dA m) = En1 m (outs0 m) :=
  funext fun c => funext fun b => congrFun (V2_congr m _ _ c (agH0 dA m) (by decide)) _

theorem En2_outsH : En2 m (outsH dA m) = En2 m (outs1 m) :=
  funext fun c => funext fun b => congrFun (V3_congr m _ _ c (agH1 dA m) (by decide) (by decide)) _

theorem En3_outsH : En3 m (outsH dA m) = En3 m (outs2 m) :=
  funext fun c => funext fun b => congrFun (V5_congr m _ _ c (agH2 dA m) (by decide) (by decide) (by decide)) _

theorem En4_outsH : En4 m (outsH dA m) = En4 m (outs3 dA m) :=
  funext fun c => funext fun b => congrFun (V7_congr m _ _ c (agH3 dA m) (by decide) (by decide) (by decide) (by decide) (by decide)) _

-- Each result buffer of the whole family holds its stage's array, and that stage's entry contents are the whole family's.
theorem outsH_ok : OutsOk m (outsH dA m) (fun c => dA (En3 m (outsH dA m)) c) where
  o0 c := (agH0 dA m 2 _ c (by decide)).trans (setOut_self _ _ _ 2 c)
  o1 c := ((agH1 dA m 3 _ c (by decide)).trans (setOut_self _ _ _ 3 c)).trans
    (congrArg (fun E => (mm1_dat E c).arrAt 2 cfg1.N) (En1_outsH dA m).symm)
  o2 c := ((agH2 dA m 4 _ c (by decide)).trans (setOut_self _ _ _ 4 c)).trans
    (congrArg (fun E => (mm2_dat E c).arrAt 2 cfg2.N) (En2_outsH dA m).symm)
  o3w c := ((agH3 dA m 6 _ c (by decide)).trans ((setOut_ne _ _ _ 6 _ c (by decide)).trans (setOut_self _ _ _ 6 c))).trans
    (congrArg (fun E => (dA E c).arrAt 8 cfg3.N) (En3_outsH dA m).symm)
  o3o c := ((agH3 dA m 6 _ c (by decide)).trans (setOut_self _ _ _ 6 c)).trans
    (congrArg (fun E => (dA E c).arrAt 9 cfg3.N) (En3_outsH dA m).symm)
  o4 c := (setOut_self _ _ _ 8 c).trans (congrArg (fun E => (mm4_dat E c).arrAt 2 cfg4.N) (En4_outsH dA m).symm)

end Build

end Cert.KernelIdeal.Hand

end
-- ==== Proof.Final.lean ====
import proofs.«403689_j2439541424354_3_alg».proof.Proof.KRun
import proofs.«403689_j2439541424354_3_alg».proof.Proof.Reg3
import proofs.«403689_j2439541424354_3_alg».proof.Proof.Outs

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

abbrev outsF : Outs (F := F) := outsH (fun V c => at3_dat V c) m

theorem outsF_ok : OutsOk m (outsF m) (d3 m (outsF m)) := outsH_ok (fun V c => at3_dat V c) m

-- The run leaves every unscoped buffer at the fold's last contents; read at the two results and at the arguments, which no item writes.
theorem run_main : θ_run defs (onTc (τ := τ) (main (F := F))) ⟨m, fun _ => 0, ρ⟩ (fun r => ∀ c : Dev nD,
      r.2.mem ((c.tc : Thread nD τ).loc main_v10) = V9 m (outsF m) c main_v10
      ∧ r.2.mem ((c.tc : Thread nD τ).loc main_v7_0) = V9 m (outsF m) c main_v7_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun _ h c => ?_)
    (run_of m ρ (outsF m) (d3 m (outsF m)) (outsF_ok m) (reg3 m (outsF m) (outsF_ok m)) (fun c => .rfl) (fun c => .rfl))
  have g := fun (b : Ref sig .tc) (hb : ¬ (Proc.devRef (τ := τ) .tc b).isScoped) =>
    h c (Proc.devRef .tc b) (Finset.mem_filter.mpr ⟨StableHlo.devRef_mem_tcRefs b, hb⟩)
  exact ⟨g main_v10 (by decide), g main_v7_0 (by decide), (g main_arg0 (by decide)).trans (V9_main_arg0 m _ c),
    (g main_arg1 (by decide)).trans (V9_main_arg1 m _ c), (g main_arg2 (by decide)).trans (V9_main_arg2 m _ c),
    (g main_arg3 (by decide)).trans (V9_main_arg3 m _ c), (g main_arg4 (by decide)).trans (V9_main_arg4 m _ c),
    (g main_arg5 (by decide)).trans (V9_main_arg5 m _ c), (g main_arg6 (by decide)).trans (V9_main_arg6 m _ c),
    (g main_arg7 (by decide)).trans (V9_main_arg7 m _ c)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2.2) (run_main m ρ)

end Cert.KernelIdeal.Hand

end
-- ==== Proof.BMmRun0.lean ====
import proofs.«403689_j2439541424354_3_alg».proof.Proof.Gen.Kernel.Launch
import proofs.«403689_j2439541424354_3_alg».proof.Proof.Gen.Kernel.Skeleton
import proofs.«403689_j2439541424354_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

abbrev mm0_first (i : grid0.Coords) : Prop :=
  (Scalar.cmpi .ne (Scalar.extui (Scalar.cmpi .eq (BitVec.ofNat 32 (i 2).val) 0#32)) 0#32) = 1#1

theorem mm0_first_iff : ∀ t : Fin cfg0.N, mm0_first (grid0.coords t) ↔ t.val % 4 = 0 := by decide +kernel

abbrev mm0_last (i : grid0.Coords) : Prop := k0_cond2 i = 1#1

theorem mm0_last_iff : ∀ t : Fin cfg0.N, mm0_last (grid0.coords t) ↔ t.val % 4 = 3 := by decide +kernel

theorem mm0_live0 : ∀ t : Fin cfg0.N, cfg0.idle 0 (grid0.coords t) = false := by decide +kernel
theorem mm0_live1 : ∀ t : Fin cfg0.N, cfg0.idle 1 (grid0.coords t) = false := by decide +kernel

theorem mm0_idle2 : ∀ t : Fin cfg0.N, ¬mm0_last (grid0.coords t) → cfg0.idle 2 (grid0.coords t) = true := by decide +kernel
theorem mm0_noflush2 : ∀ t : Fin cfg0.N, ¬mm0_last (grid0.coords t) → (cfg0.win 2).flush t = false := by decide +kernel

theorem mm0_live2 : ∀ t : Fin cfg0.N, mm0_last (grid0.coords t) → cfg0.idle 2 (grid0.coords t) = false := by decide +kernel

abbrev mm0_m0 (t : Fin cfg0.N) : Memref sig .tc .vmem S1024x512 .f32 := win0_0.stage (cfg0.slots t 0)
abbrev mm0_h0 (t : Fin cfg0.N) : (mm0_m0 t).IsWhole := hstage0_0 ((cfg0.slots t 0).cast nbuf0_0)
abbrev mm0_m1 (t : Fin cfg0.N) : Memref sig .tc .vmem S512x512 .f32 := win0_1.stage (cfg0.slots t 1)
abbrev mm0_h1 (t : Fin cfg0.N) : (mm0_m1 t).IsWhole := hstage0_1 ((cfg0.slots t 1).cast nbuf0_1)
abbrev mm0_m2 (t : Fin cfg0.N) : Memref sig .tc .vmem S1024x512 .f32 := win0_2.stage (cfg0.slots t 2)
abbrev mm0_h2 (t : Fin cfg0.N) : (mm0_m2 t).IsWhole := hstage0_2 ((cfg0.slots t 2).cast nbuf0_2)

abbrev mm0_sc : Memref sig .tc .vmem S1024x512 .f32 := Memref.whole cc0_scratch0

abbrev mm0_VO : View sig .tc .vmem S1024x512 .f32 := (Memref.whole cc0_stg2_0 : Memref sig .tc .vmem S1024x512 .f32).view
abbrev mm0_VS : View sig .tc .vmem S1024x512 .f32 := mm0_sc.view

theorem mm0_PhiA_eq (c : Dev nD) :
    (Pipeline.ΦA spec0 c : sProp 𝕄)
      = iprop(iprop((∃ d, owns (c : Thread nD τ) mm0_sc fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [mm0_sc, owns_whole]; try rfl

-- A whole memref is owned at x exactly when it holds the raw contents that read x.
theorem mm0_owns_eq {s : Shape} {m : Memref sig .tc .vmem s .f32} (h : m.IsWhole) (c : Dev nD) (x : Vec F s .f32) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

-- The kernel's triple: both factors come back as found; P5, PS hold the output block and the accumulator before, Q5, QS after.
def mm0_triple (x0 : Vec F S1024x512 .f32) (x1 : Vec F S512x512 .f32) (P5 PS Q5 QS : sProp 𝕄) : Prop :=
  ∀ (E : Set ℕ) (K : PUnit → sProp 𝕄),
    iprop(owns (c : Thread nD τ) arg3 fullShare x0 ∗ owns (c : Thread nD τ) arg4 fullShare x1 ∗ P5 ∗ PS ∗ (iprop(owns (c : Thread nD τ) arg3 fullShare x0 ∗ owns (c : Thread nD τ) arg4 fullShare x1 ∗ Q5 ∗ QS) -∗ K ⟨⟩))
      ⊢ wp frame (wpE (defs₀ (F := F)) Variants.none c none) E (cc0__matmul_kernel i arg3 harg3 arg4 harg4 arg5 harg5 arg6 harg6) K

def mm0_runA (hc0 : mm0_first i) (hc1 : ¬mm0_last i) (x0 : Vec F S1024x512 .f32) (x1 : Vec F S512x512 .f32) :
    { LS0 : List (View.Piece (Elt F) S1024x512 .f32) //
      ∀ xi2 : Vec F S1024x512 .f32, mm0_triple c i arg3 harg3 arg4 harg4 arg5 harg5 arg6 harg6 x0 x1 (owns (c : Thread nD τ) arg5 fullShare xi2) iprop(∃ d, owns (c : Thread nD τ) arg6 fullShare d) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc0__matmul_kernel_eq_skeleton, mm0_owns_eq harg3, mm0_owns_eq harg4, mm0_owns_eq harg5, mm0_owns_eq harg6]; unfold cc0__matmul_kernel_skel
    iintro ⟨H0, H1, H2, ⟨%ds0, HS0⟩, Hk⟩
    sl_exec (disch := first | exact hc0 | exact hc1)
    sl_step
    iapply Hk
    iframe H0 H1 H2
    iexists _; iexact HS0

def mm0_runB (hc0 : ¬mm0_first i) (hc1 : ¬mm0_last i) (x0 : Vec F S1024x512 .f32) (x1 : Vec F S512x512 .f32) (xs0 : Vec F S1024x512 .f32) :
    { LS0 : List (View.Piece (Elt F) S1024x512 .f32) //
      ∀ xi2 : Vec F S1024x512 .f32, mm0_triple c i arg3 harg3 arg4 harg4 arg5 harg5 arg6 harg6 x0 x1 (owns (c : Thread nD τ) arg5 fullShare xi2) (owns (c : Thread nD τ) arg6 fullShare xs0) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc0__matmul_kernel_eq_skeleton, mm0_owns_eq harg3, mm0_owns_eq harg4, mm0_owns_eq harg5, mm0_owns_eq harg6]; unfold cc0__matmul_kernel_skel
    iintro ⟨H0, H1, H2, HS0, Hk⟩
    sl_exec (disch := first | exact hc0 | exact hc1)
    sl_step
    iapply Hk
    iframe H0 H1 H2
    iexists _; iexact HS0

def mm0_runC (hc0 : ¬mm0_first i) (hc1 : mm0_last i) (x0 : Vec F S1024x512 .f32) (x1 : Vec F S512x512 .f32) (xs0 : Vec F S1024x512 .f32) :
    Σ' (L2 : List (View.Piece (Elt F) S1024x512 .f32)), { LS0 : List (View.Piece (Elt F) S1024x512 .f32) //
      mm0_triple c i arg3 harg3 arg4 harg4 arg5 harg5 arg6 harg6 x0 x1 iprop(∃ d, owns (c : Thread nD τ) arg5 fullShare d) (owns (c : Thread nD τ) arg6 fullShare xs0) iprop(∃ f, arg5.view.loc (c : Thread nD τ) ↦[arg5.view.set]{fullShare} arg5.view.writes (Elt F) f L2) iprop(∃ f, arg6.view.loc (c : Thread nD τ) ↦[arg6.view.set]{fullShare} arg6.view.writes (Elt F) f LS0) } := by
  refine ⟨?_, ?_, fun E K => ?run⟩
  case run =>
    simp only [cc0__matmul_kernel_eq_skeleton, mm0_owns_eq harg3, mm0_owns_eq harg4, mm0_owns_eq harg5, mm0_owns_eq harg6]; unfold cc0__matmul_kernel_skel
    iintro ⟨H0, H1, ⟨%d2, H2⟩, HS0, Hk⟩
    sl_exec (disch := first | exact hc0 | exact hc1)
    sl_step
    iapply Hk
    iframe H0 H1
    isplitl [H2]; · iexists _; iexact H2
    iexists _; iexact HS0
end

end Cert.Kernel.Hand

end
-- ==== Proof.BMmDat0.lean ====
import proofs.«403689_j2439541424354_3_alg».proof.Proof.BMmRun0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def mm0_iblk (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (i : grid0.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

section
variable (hc0 : mm0_first i) (hc1 : ¬mm0_last i) (x0 : Vec F S1024x512 .f32) (x1 : Vec F S512x512 .f32)
theorem mm0_scoverA (y : S1024x512.Idx) : ∃ pc ∈ (mm0_runA c i arg3 harg3 arg4 harg4 arg5 harg5 arg6 harg6 hc0 hc1 x0 x1).1, y ∈ pc.1.set :=
  View.cover_of_tiledL _ S1024x512.size (by sl_kernel_rfl) y
def mm0_soutA : Vec F S1024x512 .f32 :=
  mm0_VS.read (Elt F) (mm0_VS.writes (Elt F) mm0_VS.junk (mm0_runA c i arg3 harg3 arg4 harg4 arg5 harg5 arg6 harg6 hc0 hc1 x0 x1).1)
end

section
variable (hc0 : ¬mm0_first i) (hc1 : ¬mm0_last i) (x0 : Vec F S1024x512 .f32) (x1 : Vec F S512x512 .f32) (xs0 : Vec F S1024x512 .f32)
theorem mm0_scoverB (y : S1024x512.Idx) : ∃ pc ∈ (mm0_runB c i arg3 harg3 arg4 harg4 arg5 harg5 arg6 harg6 hc0 hc1 x0 x1 xs0).1, y ∈ pc.1.set :=
  View.cover_of_tiledL _ S1024x512.size (by sl_kernel_rfl) y
def mm0_soutB : Vec F S1024x512 .f32 :=
  mm0_VS.read (Elt F) (mm0_VS.writes (Elt F) mm0_VS.junk (mm0_runB c i arg3 harg3 arg4 harg4 arg5 harg5 arg6 harg6 hc0 hc1 x0 x1 xs0).1)
end

section
variable (hc0 : ¬mm0_first i) (hc1 : mm0_last i) (x0 : Vec F S1024x512 .f32) (x1 : Vec F S512x512 .f32) (xs0 : Vec F S1024x512 .f32)
theorem mm0_scoverC (y : S1024x512.Idx) : ∃ pc ∈ (mm0_runC c i arg3 harg3 arg4 harg4 arg5 harg5 arg6 harg6 hc0 hc1 x0 x1 xs0).2.1, y ∈ pc.1.set :=
  View.cover_of_tiledL _ S1024x512.size (by sl_kernel_rfl) y
theorem mm0_coverC (y : S1024x512.Idx) : ∃ pc ∈ (mm0_runC c i arg3 harg3 arg4 harg4 arg5 harg5 arg6 harg6 hc0 hc1 x0 x1 xs0).1, y ∈ pc.1.set :=
  View.cover_of_tiledL _ S1024x512.size (by sl_kernel_rfl) y
def mm0_soutC : Vec F S1024x512 .f32 :=
  mm0_VS.read (Elt F) (mm0_VS.writes (Elt F) mm0_VS.junk (mm0_runC c i arg3 harg3 arg4 harg4 arg5 harg5 arg6 harg6 hc0 hc1 x0 x1 xs0).2.1)
def mm0_outC : Vec F S1024x512 .f32 :=
  mm0_VO.read (Elt F) (mm0_VO.writes (Elt F) mm0_VO.junk (mm0_runC c i arg3 harg3 arg4 harg4 arg5 harg5 arg6 harg6 hc0 hc1 x0 x1 xs0).1)
end
end

def mm0_outIdle : Vec F S1024x512 .f32 := mm0_VO.read (Elt F) mm0_VO.junk

variable (t : Fin cfg0.N)

-- Each case at grid point t, on the point's blocks; a later K step continues from the accumulator a.
abbrev mm0_atA (h0 : t.val % 4 = 0) (h1 : ¬t.val % 4 = 3) : Vec F S1024x512 .f32 :=
  mm0_soutA c (grid0.coords t) (mm0_m0 t) (mm0_h0 t) (mm0_m1 t) (mm0_h1 t) (mm0_m2 t) (mm0_h2 t) mm0_sc (Memref.isWhole_whole _) ((mm0_first_iff t).mpr h0) (fun h => h1 ((mm0_last_iff t).mp h)) (mm0_iblk V c 0 t) (mm0_iblk V c 1 t)
abbrev mm0_atB (h0 : ¬t.val % 4 = 0) (h1 : ¬t.val % 4 = 3) (a : Vec F S1024x512 .f32) : Vec F S1024x512 .f32 :=
  mm0_soutB c (grid0.coords t) (mm0_m0 t) (mm0_h0 t) (mm0_m1 t) (mm0_h1 t) (mm0_m2 t) (mm0_h2 t) mm0_sc (Memref.isWhole_whole _) (fun h => h0 ((mm0_first_iff t).mp h)) (fun h => h1 ((mm0_last_iff t).mp h)) (mm0_iblk V c 0 t) (mm0_iblk V c 1 t) a
abbrev mm0_atC (h0 : ¬t.val % 4 = 0) (h1 : t.val % 4 = 3) (a : Vec F S1024x512 .f32) : Vec F S1024x512 .f32 :=
  mm0_soutC c (grid0.coords t) (mm0_m0 t) (mm0_h0 t) (mm0_m1 t) (mm0_h1 t) (mm0_m2 t) (mm0_h2 t) mm0_sc (Memref.isWhole_whole _) (fun h => h0 ((mm0_first_iff t).mp h)) ((mm0_last_iff t).mpr h1) (mm0_iblk V c 0 t) (mm0_iblk V c 1 t) a
abbrev mm0_atO (h0 : ¬t.val % 4 = 0) (h1 : t.val % 4 = 3) (a : Vec F S1024x512 .f32) : Vec F S1024x512 .f32 :=
  mm0_outC c (grid0.coords t) (mm0_m0 t) (mm0_h0 t) (mm0_m1 t) (mm0_h1 t) (mm0_m2 t) (mm0_h2 t) mm0_sc (Memref.isWhole_whole _) (fun h => h0 ((mm0_first_iff t).mp h)) ((mm0_last_iff t).mpr h1) (mm0_iblk V c 0 t) (mm0_iblk V c 1 t) a

-- The pair (output block, accumulator) after point n, by recursion on n.
def mm0_outsAt : (n : ℕ) → n < cfg0.N → Vec F S1024x512 .f32 × Vec F S1024x512 .f32
  | 0, hn => (mm0_outIdle, mm0_atA V c ⟨0, hn⟩ (Nat.zero_mod 4) (by show ¬0 % 4 = 3; decide))
  | n + 1, hn =>
    if h0 : (n + 1) % 4 = 0 then (mm0_outIdle, mm0_atA V c ⟨n + 1, hn⟩ h0 (by show ¬(n + 1) % 4 = 3; omega))
    else if h1 : (n + 1) % 4 = 3 then (mm0_atO V c ⟨n + 1, hn⟩ h0 h1 (mm0_outsAt n (Nat.lt_of_succ_lt hn)).2, mm0_atC V c ⟨n + 1, hn⟩ h0 h1 (mm0_outsAt n (Nat.lt_of_succ_lt hn)).2)
    else (mm0_outIdle, mm0_atB V c ⟨n + 1, hn⟩ h0 h1 (mm0_outsAt n (Nat.lt_of_succ_lt hn)).2)

theorem mm0_outsAt_A (h0 : t.val % 4 = 0) (h1 : ¬t.val % 4 = 3) :
    mm0_outsAt V c t.val t.isLt = (mm0_outIdle, mm0_atA V c t h0 h1) := by
  obtain ⟨n, hn⟩ := t
  cases n with
  | zero => rfl
  | succ n => exact dif_pos h0

theorem mm0_outsAt_B (h0 : ¬t.val % 4 = 0) (h1 : ¬t.val % 4 = 3) :
    mm0_outsAt V c t.val t.isLt = (mm0_outIdle, mm0_atB V c t h0 h1 (mm0_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_neg h1)

theorem mm0_outsAt_C (h0 : ¬t.val % 4 = 0) (h1 : t.val % 4 = 3) :
    mm0_outsAt V c t.val t.isLt = (mm0_atO V c t h0 h1 (mm0_outsAt V c (t.val - 1) (Nat.lt_of_le_of_lt (Nat.sub_le _ _) t.isLt)).2,
      mm0_atC V c t h0 h1 (mm0_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_pos h1)

-- The accumulator before point n: arbitrary before the first point, then what point n - 1 left.
def mm0_acc : (n : ℕ) → n ≤ cfg0.N → sProp 𝕄
  | 0, _ => iprop(∃ d, owns (c : Thread nD τ) mm0_sc fullShare d)
  | n + 1, hn => owns (c : Thread nD τ) mm0_sc fullShare (mm0_outsAt V c n hn).2

theorem mm0_acc_any (n : ℕ) (h : n ≤ cfg0.N) : mm0_acc V c n h ⊢ iprop(∃ d, owns (c : Thread nD τ) mm0_sc fullShare d) := by
  cases n with
  | zero => exact Idealize.SL.BI.Entails.refl _
  | succ n => unfold mm0_acc; iintro H; iexists _; iexact H

theorem mm0_acc_pos (n : ℕ) (h : n ≤ cfg0.N) (h0 : ¬n % 4 = 0) :
    mm0_acc V c n h = owns (c : Thread nD τ) mm0_sc fullShare (mm0_outsAt V c (n - 1) (by omega)).2 := by
  cases n with
  | zero => exact absurd (Nat.zero_mod 4) h0
  | succ n => rfl

-- The invariant between points; P is what it says of the accumulator.
def mm0_inv (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

def mm0_dat : Dat τ (Elt F) Unit ℕ (UR sig nD τ) ℕ cfg0 c where
  A w := V c (Pipeline.arrRef spec0 w)
  after w t := match w with
    | ⟨0, _⟩ => mm0_iblk V c 0 t
    | ⟨1, _⟩ => mm0_iblk V c 1 t
    | ⟨2, _⟩ => (mm0_outsAt V c t.val t.isLt).1
  Φ t := mm0_inv c (mm0_acc V c t.val (Nat.le_of_lt_succ t.isLt))
  q _ := fullShare
  owed _ := 0

theorem mm0_A_eq (w : Fin cfg0.W) : (mm0_dat V c).A w = V c (Pipeline.arrRef spec0 w) := rfl

theorem mm0_after2 : (mm0_dat V c).after 2 t = (mm0_outsAt V c t.val t.isLt).1 := rfl

theorem mm0_before0 (d) : (mm0_dat V c).before 0 t d = mm0_iblk V c 0 t :=
  ((mm0_dat V c).before_in_eq_fetched 0 rfl (fun _ => rfl) (fun _ _ _ => rfl) (fun _ => rfl) t d).trans rfl
theorem mm0_before1 (d) : (mm0_dat V c).before 1 t d = mm0_iblk V c 1 t :=
  ((mm0_dat V c).before_in_eq_fetched 1 rfl (fun _ => rfl) (fun _ _ _ => rfl) (fun _ => rfl) t d).trans rfl

theorem mm0_leaves (w : Fin cfg0.W) (h : cfg0.idle w (grid0.coords t) = false) :
    (mm0_dat V c).leavesExact w t = owns (c : Thread nD τ) ((cfg0.win w).stage (cfg0.slots t w)) fullShare ((mm0_dat V c).after w t) := by
  unfold Dat.leavesExact; rw [h]

-- By cases on the point's position modulo 4.
theorem mm0_sound_body :
    iprop((mm0_dat V c).Φ t.castSucc ∗ (mm0_dat V c).owesAt () t.castSucc
        ∗ (∃ d, owns (c : Thread nD τ) (mm0_m0 t) fullShare ((mm0_dat V c).before 0 t d))
        ∗ (∃ d, owns (c : Thread nD τ) (mm0_m1 t) fullShare ((mm0_dat V c).before 1 t d))
        ∗ (∃ d, owns (c : Thread nD τ) (mm0_m2 t) fullShare ((mm0_dat V c).before 2 t d)))
      ⊢ wp frame (wpE (defs₀ (F := F)) Variants.none c none) Set.univ (bodyAt0 t) fun _ =>
        iprop((mm0_dat V c).Φ t.succ ∗ (mm0_dat V c).owesAt () t.succ
          ∗ (mm0_dat V c).leavesExact 0 t ∗ (mm0_dat V c).leavesExact 1 t ∗ (mm0_dat V c).leavesExact 2 t) := by
  unfold bodyAt0
  simp only [mm0_before0, mm0_before1]
  rw [show (mm0_dat V c).owesAt () t.succ = (mm0_dat V c).owesAt () t.castSucc from rfl,
    show (mm0_dat V c).Φ t.succ = mm0_inv c (owns (c : Thread nD τ) mm0_sc fullShare (mm0_outsAt V c t.val t.isLt).2) from rfl,
    show (mm0_dat V c).Φ t.castSucc = mm0_inv c (mm0_acc V c t.val (Nat.le_of_lt t.isLt)) from rfl,
    mm0_leaves V c t 0 (mm0_live0 t), mm0_leaves V c t 1 (mm0_live1 t),
    show (mm0_dat V c).after 0 t = mm0_iblk V c 0 t from rfl, show (mm0_dat V c).after 1 t = mm0_iblk V c 1 t from rfl]
  unfold mm0_inv
  by_cases h1 : t.val % 4 = 3
  · have h0 : ¬t.val % 4 = 0 := by omega
    rw [mm0_acc_pos V c _ _ h0, mm0_leaves V c t 2 (mm0_live2 t ((mm0_last_iff t).mpr h1)), mm0_after2, mm0_outsAt_C V c t h0 h1]
    unfold mm0_atO mm0_atC mm0_outC mm0_soutC; dsimp only
    iintro ⟨⟨⟨HS0, HR⟩, Hg⟩, Ho, ⟨%d0, H0⟩, ⟨%d1, H1⟩, ⟨%d2, H2⟩⟩
    iapply ((mm0_runC _ _ _ _ _ _ _ _ _ _ (fun h => h0 ((mm0_first_iff t).mp h)) ((mm0_last_iff t).mpr h1) _ _ _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (mm0_scoverC c _ _ _ _ _ _ _ _ _ _ _ _ _ _)
    unfold owns; iexists _; isplitr
    swap; · iexact H2
    ipureintro; exact View.read_writes_of_cover _ _ _ _ _ (mm0_coverC c _ _ _ _ _ _ _ _ _ _ _ _ _ _)
  have hl : ¬mm0_last (grid0.coords t) := fun h => h1 ((mm0_last_iff t).mp h)
  rw [Dat.leavesExact_idle (mm0_dat V c) 2 t (mm0_idle2 t hl) (mm0_noflush2 t hl)]
  by_cases h0 : t.val % 4 = 0
  · rw [mm0_outsAt_A V c t h0 h1]
    unfold mm0_atA mm0_soutA; dsimp only
    iintro ⟨⟨⟨HS0, HR⟩, Hg⟩, Ho, ⟨%d0, H0⟩, ⟨%d1, H1⟩, ⟨%d2, H2⟩⟩
    iapply ((mm0_runA _ _ _ _ _ _ _ _ _ _ ((mm0_first_iff t).mpr h0) hl _ _).2 _ Set.univ _)
    iframe H0 H1 H2
    isplitl [HS0]; · iapply (mm0_acc_any V c _ _); iexact HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm0_scoverA c _ _ _ _ _ _ _ _ _ _ _ _ _)
    iexists _; iexact H2
  · rw [mm0_acc_pos V c _ _ h0, mm0_outsAt_B V c t h0 h1]
    unfold mm0_atB mm0_soutB; dsimp only
    iintro ⟨⟨⟨HS0, HR⟩, Hg⟩, Ho, ⟨%d0, H0⟩, ⟨%d1, H1⟩, ⟨%d2, H2⟩⟩
    iapply ((mm0_runB _ _ _ _ _ _ _ _ _ _ (fun h => h0 ((mm0_first_iff t).mp h)) hl _ _ _).2 _ Set.univ _)
    iframe H0 H1 H2 HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm0_scoverB c _ _ _ _ _ _ _ _ _ _ _ _ _ _)
    iexists _; iexact H2

theorem mm0_body_obligation : BodyObligation (mm0_dat (F := F) V c) (defs₀ (F := F)) Variants.none () Set.univ := fun t => by
  rw [bigSep_W0, bigSep_W0]
  exact mm0_sound_body V c t

theorem mm0_hin : Pipeline.ΦA spec0 c ⊢ (mm0_dat V c).Φ 0 := Entails.of_eq (mm0_PhiA_eq c)

theorem mm0_hout : (mm0_dat V c).Φ (Fin.last cfg0.N) ⊢ Pipeline.ΦA spec0 c := by
  rw [mm0_PhiA_eq]
  exact sep_mono_left (sep_mono_left (mm0_acc_any V c _ _))

theorem mm0_hin' (P : sProp 𝕄) :
    iprop((∃ r, prngReg c r) ∗ P ∗ Pipeline.scopedRest (Ix := Unit) (Name := ℕ) (U := UR sig nD τ) (Lvl := ℕ) (Val := Elt F) spec0 c) ⊢ (mm0_dat V c).Φ 0 := by
  refine BIBase.Entails.trans ?_ (mm0_hin V c)
  unfold Pipeline.ΦA
  iintro ⟨Hp, -, Hr⟩
  iframe

theorem mm0_hout' :
    (mm0_dat V c).Φ (Fin.last cfg0.N) ⊢ iprop((∃ r, prngReg c r) ∗ (BI.emp : sProp 𝕄) ∗ Pipeline.scopedRest (Ix := Unit) (Name := ℕ) (U := UR sig nD τ) (Lvl := ℕ) (Val := Elt F) spec0 c) := by
  refine BIBase.Entails.trans (mm0_hout V c) ?_
  unfold Pipeline.ΦA
  iintro ⟨Hr, Hp⟩
  iframe; iempintro

end Cert.Kernel.Hand

end
-- ==== Proof.BMmRun1.lean ====
import proofs.«403689_j2439541424354_3_alg».proof.Proof.Gen.Kernel.Launch
import proofs.«403689_j2439541424354_3_alg».proof.Proof.Gen.Kernel.Skeleton
import proofs.«403689_j2439541424354_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

abbrev mm1_first (i : grid1.Coords) : Prop :=
  (Scalar.cmpi .ne (Scalar.extui (Scalar.cmpi .eq (BitVec.ofNat 32 (i 2).val) 0#32)) 0#32) = 1#1

theorem mm1_first_iff : ∀ t : Fin cfg1.N, mm1_first (grid1.coords t) ↔ t.val % 4 = 0 := by decide +kernel

abbrev mm1_last (i : grid1.Coords) : Prop := k1_cond2 i = 1#1

theorem mm1_last_iff : ∀ t : Fin cfg1.N, mm1_last (grid1.coords t) ↔ t.val % 4 = 3 := by decide +kernel

theorem mm1_live0 : ∀ t : Fin cfg1.N, cfg1.idle 0 (grid1.coords t) = false := by decide +kernel
theorem mm1_live1 : ∀ t : Fin cfg1.N, cfg1.idle 1 (grid1.coords t) = false := by decide +kernel

theorem mm1_idle2 : ∀ t : Fin cfg1.N, ¬mm1_last (grid1.coords t) → cfg1.idle 2 (grid1.coords t) = true := by decide +kernel
theorem mm1_noflush2 : ∀ t : Fin cfg1.N, ¬mm1_last (grid1.coords t) → (cfg1.win 2).flush t = false := by decide +kernel

theorem mm1_live2 : ∀ t : Fin cfg1.N, mm1_last (grid1.coords t) → cfg1.idle 2 (grid1.coords t) = false := by decide +kernel

abbrev mm1_m0 (t : Fin cfg1.N) : Memref sig .tc .vmem S1024x512 .f32 := win1_0.stage (cfg1.slots t 0)
abbrev mm1_h0 (t : Fin cfg1.N) : (mm1_m0 t).IsWhole := hstage1_0 ((cfg1.slots t 0).cast nbuf1_0)
abbrev mm1_m1 (t : Fin cfg1.N) : Memref sig .tc .vmem S512x512 .f32 := win1_1.stage (cfg1.slots t 1)
abbrev mm1_h1 (t : Fin cfg1.N) : (mm1_m1 t).IsWhole := hstage1_1 ((cfg1.slots t 1).cast nbuf1_1)
abbrev mm1_m2 (t : Fin cfg1.N) : Memref sig .tc .vmem S1024x512 .f32 := win1_2.stage (cfg1.slots t 2)
abbrev mm1_h2 (t : Fin cfg1.N) : (mm1_m2 t).IsWhole := hstage1_2 ((cfg1.slots t 2).cast nbuf1_2)

abbrev mm1_sc : Memref sig .tc .vmem S1024x512 .f32 := Memref.whole cc1_scratch0

abbrev mm1_VO : View sig .tc .vmem S1024x512 .f32 := (Memref.whole cc1_stg2_0 : Memref sig .tc .vmem S1024x512 .f32).view
abbrev mm1_VS : View sig .tc .vmem S1024x512 .f32 := mm1_sc.view

theorem mm1_PhiA_eq (c : Dev nD) :
    (Pipeline.ΦA spec1 c : sProp 𝕄)
      = iprop(iprop((∃ d, owns (c : Thread nD τ) mm1_sc fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [mm1_sc, owns_whole]; try rfl

-- A whole memref is owned at x exactly when it holds the raw contents that read x.
theorem mm1_owns_eq {s : Shape} {m : Memref sig .tc .vmem s .f32} (h : m.IsWhole) (c : Dev nD) (x : Vec F s .f32) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

-- The kernel's triple: both factors come back as found; P5, PS hold the output block and the accumulator before, Q5, QS after.
def mm1_triple (x0 : Vec F S1024x512 .f32) (x1 : Vec F S512x512 .f32) (P5 PS Q5 QS : sProp 𝕄) : Prop :=
  ∀ (E : Set ℕ) (K : PUnit → sProp 𝕄),
    iprop(owns (c : Thread nD τ) arg3 fullShare x0 ∗ owns (c : Thread nD τ) arg4 fullShare x1 ∗ P5 ∗ PS ∗ (iprop(owns (c : Thread nD τ) arg3 fullShare x0 ∗ owns (c : Thread nD τ) arg4 fullShare x1 ∗ Q5 ∗ QS) -∗ K ⟨⟩))
      ⊢ wp frame (wpE (defs₀ (F := F)) Variants.none c none) E (cc1__matmul_kernel i arg3 harg3 arg4 harg4 arg5 harg5 arg6 harg6) K

def mm1_runA (hc0 : mm1_first i) (hc1 : ¬mm1_last i) (x0 : Vec F S1024x512 .f32) (x1 : Vec F S512x512 .f32) :
    { LS0 : List (View.Piece (Elt F) S1024x512 .f32) //
      ∀ xi2 : Vec F S1024x512 .f32, mm1_triple c i arg3 harg3 arg4 harg4 arg5 harg5 arg6 harg6 x0 x1 (owns (c : Thread nD τ) arg5 fullShare xi2) iprop(∃ d, owns (c : Thread nD τ) arg6 fullShare d) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc1__matmul_kernel_eq_skeleton, mm1_owns_eq harg3, mm1_owns_eq harg4, mm1_owns_eq harg5, mm1_owns_eq harg6]; unfold cc1__matmul_kernel_skel
    iintro ⟨H0, H1, H2, ⟨%ds0, HS0⟩, Hk⟩
    sl_exec (disch := first | exact hc0 | exact hc1)
    sl_step
    iapply Hk
    iframe H0 H1 H2
    iexists _; iexact HS0

def mm1_runB (hc0 : ¬mm1_first i) (hc1 : ¬mm1_last i) (x0 : Vec F S1024x512 .f32) (x1 : Vec F S512x512 .f32) (xs0 : Vec F S1024x512 .f32) :
    { LS0 : List (View.Piece (Elt F) S1024x512 .f32) //
      ∀ xi2 : Vec F S1024x512 .f32, mm1_triple c i arg3 harg3 arg4 harg4 arg5 harg5 arg6 harg6 x0 x1 (owns (c : Thread nD τ) arg5 fullShare xi2) (owns (c : Thread nD τ) arg6 fullShare xs0) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc1__matmul_kernel_eq_skeleton, mm1_owns_eq harg3, mm1_owns_eq harg4, mm1_owns_eq harg5, mm1_owns_eq harg6]; unfold cc1__matmul_kernel_skel
    iintro ⟨H0, H1, H2, HS0, Hk⟩
    sl_exec (disch := first | exact hc0 | exact hc1)
    sl_step
    iapply Hk
    iframe H0 H1 H2
    iexists _; iexact HS0

def mm1_runC (hc0 : ¬mm1_first i) (hc1 : mm1_last i) (x0 : Vec F S1024x512 .f32) (x1 : Vec F S512x512 .f32) (xs0 : Vec F S1024x512 .f32) :
    Σ' (L2 : List (View.Piece (Elt F) S1024x512 .f32)), { LS0 : List (View.Piece (Elt F) S1024x512 .f32) //
      mm1_triple c i arg3 harg3 arg4 harg4 arg5 harg5 arg6 harg6 x0 x1 iprop(∃ d, owns (c : Thread nD τ) arg5 fullShare d) (owns (c : Thread nD τ) arg6 fullShare xs0) iprop(∃ f, arg5.view.loc (c : Thread nD τ) ↦[arg5.view.set]{fullShare} arg5.view.writes (Elt F) f L2) iprop(∃ f, arg6.view.loc (c : Thread nD τ) ↦[arg6.view.set]{fullShare} arg6.view.writes (Elt F) f LS0) } := by
  refine ⟨?_, ?_, fun E K => ?run⟩
  case run =>
    simp only [cc1__matmul_kernel_eq_skeleton, mm1_owns_eq harg3, mm1_owns_eq harg4, mm1_owns_eq harg5, mm1_owns_eq harg6]; unfold cc1__matmul_kernel_skel
    iintro ⟨H0, H1, ⟨%d2, H2⟩, HS0, Hk⟩
    sl_exec (disch := first | exact hc0 | exact hc1)
    sl_step
    iapply Hk
    iframe H0 H1
    isplitl [H2]; · iexists _; iexact H2
    iexists _; iexact HS0
end

end Cert.Kernel.Hand

end
-- ==== Proof.BMmDat1.lean ====
import proofs.«403689_j2439541424354_3_alg».proof.Proof.BMmRun1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def mm1_iblk (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (i : grid1.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

section
variable (hc0 : mm1_first i) (hc1 : ¬mm1_last i) (x0 : Vec F S1024x512 .f32) (x1 : Vec F S512x512 .f32)
theorem mm1_scoverA (y : S1024x512.Idx) : ∃ pc ∈ (mm1_runA c i arg3 harg3 arg4 harg4 arg5 harg5 arg6 harg6 hc0 hc1 x0 x1).1, y ∈ pc.1.set :=
  View.cover_of_tiledL _ S1024x512.size (by sl_kernel_rfl) y
def mm1_soutA : Vec F S1024x512 .f32 :=
  mm1_VS.read (Elt F) (mm1_VS.writes (Elt F) mm1_VS.junk (mm1_runA c i arg3 harg3 arg4 harg4 arg5 harg5 arg6 harg6 hc0 hc1 x0 x1).1)
end

section
variable (hc0 : ¬mm1_first i) (hc1 : ¬mm1_last i) (x0 : Vec F S1024x512 .f32) (x1 : Vec F S512x512 .f32) (xs0 : Vec F S1024x512 .f32)
theorem mm1_scoverB (y : S1024x512.Idx) : ∃ pc ∈ (mm1_runB c i arg3 harg3 arg4 harg4 arg5 harg5 arg6 harg6 hc0 hc1 x0 x1 xs0).1, y ∈ pc.1.set :=
  View.cover_of_tiledL _ S1024x512.size (by sl_kernel_rfl) y
def mm1_soutB : Vec F S1024x512 .f32 :=
  mm1_VS.read (Elt F) (mm1_VS.writes (Elt F) mm1_VS.junk (mm1_runB c i arg3 harg3 arg4 harg4 arg5 harg5 arg6 harg6 hc0 hc1 x0 x1 xs0).1)
end

section
variable (hc0 : ¬mm1_first i) (hc1 : mm1_last i) (x0 : Vec F S1024x512 .f32) (x1 : Vec F S512x512 .f32) (xs0 : Vec F S1024x512 .f32)
theorem mm1_scoverC (y : S1024x512.Idx) : ∃ pc ∈ (mm1_runC c i arg3 harg3 arg4 harg4 arg5 harg5 arg6 harg6 hc0 hc1 x0 x1 xs0).2.1, y ∈ pc.1.set :=
  View.cover_of_tiledL _ S1024x512.size (by sl_kernel_rfl) y
theorem mm1_coverC (y : S1024x512.Idx) : ∃ pc ∈ (mm1_runC c i arg3 harg3 arg4 harg4 arg5 harg5 arg6 harg6 hc0 hc1 x0 x1 xs0).1, y ∈ pc.1.set :=
  View.cover_of_tiledL _ S1024x512.size (by sl_kernel_rfl) y
def mm1_soutC : Vec F S1024x512 .f32 :=
  mm1_VS.read (Elt F) (mm1_VS.writes (Elt F) mm1_VS.junk (mm1_runC c i arg3 harg3 arg4 harg4 arg5 harg5 arg6 harg6 hc0 hc1 x0 x1 xs0).2.1)
def mm1_outC : Vec F S1024x512 .f32 :=
  mm1_VO.read (Elt F) (mm1_VO.writes (Elt F) mm1_VO.junk (mm1_runC c i arg3 harg3 arg4 harg4 arg5 harg5 arg6 harg6 hc0 hc1 x0 x1 xs0).1)
end
end

def mm1_outIdle : Vec F S1024x512 .f32 := mm1_VO.read (Elt F) mm1_VO.junk

variable (t : Fin cfg1.N)

-- Each case at grid point t, on the point's blocks; a later K step continues from the accumulator a.
abbrev mm1_atA (h0 : t.val % 4 = 0) (h1 : ¬t.val % 4 = 3) : Vec F S1024x512 .f32 :=
  mm1_soutA c (grid1.coords t) (mm1_m0 t) (mm1_h0 t) (mm1_m1 t) (mm1_h1 t) (mm1_m2 t) (mm1_h2 t) mm1_sc (Memref.isWhole_whole _) ((mm1_first_iff t).mpr h0) (fun h => h1 ((mm1_last_iff t).mp h)) (mm1_iblk V c 0 t) (mm1_iblk V c 1 t)
abbrev mm1_atB (h0 : ¬t.val % 4 = 0) (h1 : ¬t.val % 4 = 3) (a : Vec F S1024x512 .f32) : Vec F S1024x512 .f32 :=
  mm1_soutB c (grid1.coords t) (mm1_m0 t) (mm1_h0 t) (mm1_m1 t) (mm1_h1 t) (mm1_m2 t) (mm1_h2 t) mm1_sc (Memref.isWhole_whole _) (fun h => h0 ((mm1_first_iff t).mp h)) (fun h => h1 ((mm1_last_iff t).mp h)) (mm1_iblk V c 0 t) (mm1_iblk V c 1 t) a
abbrev mm1_atC (h0 : ¬t.val % 4 = 0) (h1 : t.val % 4 = 3) (a : Vec F S1024x512 .f32) : Vec F S1024x512 .f32 :=
  mm1_soutC c (grid1.coords t) (mm1_m0 t) (mm1_h0 t) (mm1_m1 t) (mm1_h1 t) (mm1_m2 t) (mm1_h2 t) mm1_sc (Memref.isWhole_whole _) (fun h => h0 ((mm1_first_iff t).mp h)) ((mm1_last_iff t).mpr h1) (mm1_iblk V c 0 t) (mm1_iblk V c 1 t) a
abbrev mm1_atO (h0 : ¬t.val % 4 = 0) (h1 : t.val % 4 = 3) (a : Vec F S1024x512 .f32) : Vec F S1024x512 .f32 :=
  mm1_outC c (grid1.coords t) (mm1_m0 t) (mm1_h0 t) (mm1_m1 t) (mm1_h1 t) (mm1_m2 t) (mm1_h2 t) mm1_sc (Memref.isWhole_whole _) (fun h => h0 ((mm1_first_iff t).mp h)) ((mm1_last_iff t).mpr h1) (mm1_iblk V c 0 t) (mm1_iblk V c 1 t) a

-- The pair (output block, accumulator) after point n, by recursion on n.
def mm1_outsAt : (n : ℕ) → n < cfg1.N → Vec F S1024x512 .f32 × Vec F S1024x512 .f32
  | 0, hn => (mm1_outIdle, mm1_atA V c ⟨0, hn⟩ (Nat.zero_mod 4) (by show ¬0 % 4 = 3; decide))
  | n + 1, hn =>
    if h0 : (n + 1) % 4 = 0 then (mm1_outIdle, mm1_atA V c ⟨n + 1, hn⟩ h0 (by show ¬(n + 1) % 4 = 3; omega))
    else if h1 : (n + 1) % 4 = 3 then (mm1_atO V c ⟨n + 1, hn⟩ h0 h1 (mm1_outsAt n (Nat.lt_of_succ_lt hn)).2, mm1_atC V c ⟨n + 1, hn⟩ h0 h1 (mm1_outsAt n (Nat.lt_of_succ_lt hn)).2)
    else (mm1_outIdle, mm1_atB V c ⟨n + 1, hn⟩ h0 h1 (mm1_outsAt n (Nat.lt_of_succ_lt hn)).2)

theorem mm1_outsAt_A (h0 : t.val % 4 = 0) (h1 : ¬t.val % 4 = 3) :
    mm1_outsAt V c t.val t.isLt = (mm1_outIdle, mm1_atA V c t h0 h1) := by
  obtain ⟨n, hn⟩ := t
  cases n with
  | zero => rfl
  | succ n => exact dif_pos h0

theorem mm1_outsAt_B (h0 : ¬t.val % 4 = 0) (h1 : ¬t.val % 4 = 3) :
    mm1_outsAt V c t.val t.isLt = (mm1_outIdle, mm1_atB V c t h0 h1 (mm1_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_neg h1)

theorem mm1_outsAt_C (h0 : ¬t.val % 4 = 0) (h1 : t.val % 4 = 3) :
    mm1_outsAt V c t.val t.isLt = (mm1_atO V c t h0 h1 (mm1_outsAt V c (t.val - 1) (Nat.lt_of_le_of_lt (Nat.sub_le _ _) t.isLt)).2,
      mm1_atC V c t h0 h1 (mm1_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_pos h1)

-- The accumulator before point n: arbitrary before the first point, then what point n - 1 left.
def mm1_acc : (n : ℕ) → n ≤ cfg1.N → sProp 𝕄
  | 0, _ => iprop(∃ d, owns (c : Thread nD τ) mm1_sc fullShare d)
  | n + 1, hn => owns (c : Thread nD τ) mm1_sc fullShare (mm1_outsAt V c n hn).2

theorem mm1_acc_any (n : ℕ) (h : n ≤ cfg1.N) : mm1_acc V c n h ⊢ iprop(∃ d, owns (c : Thread nD τ) mm1_sc fullShare d) := by
  cases n with
  | zero => exact Idealize.SL.BI.Entails.refl _
  | succ n => unfold mm1_acc; iintro H; iexists _; iexact H

theorem mm1_acc_pos (n : ℕ) (h : n ≤ cfg1.N) (h0 : ¬n % 4 = 0) :
    mm1_acc V c n h = owns (c : Thread nD τ) mm1_sc fullShare (mm1_outsAt V c (n - 1) (by omega)).2 := by
  cases n with
  | zero => exact absurd (Nat.zero_mod 4) h0
  | succ n => rfl

-- The invariant between points; P is what it says of the accumulator.
def mm1_inv (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

def mm1_dat : Dat τ (Elt F) Unit ℕ (UR sig nD τ) ℕ cfg1 c where
  A w := V c (Pipeline.arrRef spec1 w)
  after w t := match w with
    | ⟨0, _⟩ => mm1_iblk V c 0 t
    | ⟨1, _⟩ => mm1_iblk V c 1 t
    | ⟨2, _⟩ => (mm1_outsAt V c t.val t.isLt).1
  Φ t := mm1_inv c (mm1_acc V c t.val (Nat.le_of_lt_succ t.isLt))
  q _ := fullShare
  owed _ := 0

theorem mm1_A_eq (w : Fin cfg1.W) : (mm1_dat V c).A w = V c (Pipeline.arrRef spec1 w) := rfl

theorem mm1_after2 : (mm1_dat V c).after 2 t = (mm1_outsAt V c t.val t.isLt).1 := rfl

theorem mm1_before0 (d) : (mm1_dat V c).before 0 t d = mm1_iblk V c 0 t :=
  ((mm1_dat V c).before_in_eq_fetched 0 rfl (fun _ => rfl) (fun _ _ _ => rfl) (fun _ => rfl) t d).trans rfl
theorem mm1_before1 (d) : (mm1_dat V c).before 1 t d = mm1_iblk V c 1 t :=
  ((mm1_dat V c).before_in_eq_fetched 1 rfl (fun _ => rfl) (fun _ _ _ => rfl) (fun _ => rfl) t d).trans rfl

theorem mm1_leaves (w : Fin cfg1.W) (h : cfg1.idle w (grid1.coords t) = false) :
    (mm1_dat V c).leavesExact w t = owns (c : Thread nD τ) ((cfg1.win w).stage (cfg1.slots t w)) fullShare ((mm1_dat V c).after w t) := by
  unfold Dat.leavesExact; rw [h]

-- By cases on the point's position modulo 4.
theorem mm1_sound_body :
    iprop((mm1_dat V c).Φ t.castSucc ∗ (mm1_dat V c).owesAt () t.castSucc
        ∗ (∃ d, owns (c : Thread nD τ) (mm1_m0 t) fullShare ((mm1_dat V c).before 0 t d))
        ∗ (∃ d, owns (c : Thread nD τ) (mm1_m1 t) fullShare ((mm1_dat V c).before 1 t d))
        ∗ (∃ d, owns (c : Thread nD τ) (mm1_m2 t) fullShare ((mm1_dat V c).before 2 t d)))
      ⊢ wp frame (wpE (defs₀ (F := F)) Variants.none c none) Set.univ (bodyAt1 t) fun _ =>
        iprop((mm1_dat V c).Φ t.succ ∗ (mm1_dat V c).owesAt () t.succ
          ∗ (mm1_dat V c).leavesExact 0 t ∗ (mm1_dat V c).leavesExact 1 t ∗ (mm1_dat V c).leavesExact 2 t) := by
  unfold bodyAt1
  simp only [mm1_before0, mm1_before1]
  rw [show (mm1_dat V c).owesAt () t.succ = (mm1_dat V c).owesAt () t.castSucc from rfl,
    show (mm1_dat V c).Φ t.succ = mm1_inv c (owns (c : Thread nD τ) mm1_sc fullShare (mm1_outsAt V c t.val t.isLt).2) from rfl,
    show (mm1_dat V c).Φ t.castSucc = mm1_inv c (mm1_acc V c t.val (Nat.le_of_lt t.isLt)) from rfl,
    mm1_leaves V c t 0 (mm1_live0 t), mm1_leaves V c t 1 (mm1_live1 t),
    show (mm1_dat V c).after 0 t = mm1_iblk V c 0 t from rfl, show (mm1_dat V c).after 1 t = mm1_iblk V c 1 t from rfl]
  unfold mm1_inv
  by_cases h1 : t.val % 4 = 3
  · have h0 : ¬t.val % 4 = 0 := by omega
    rw [mm1_acc_pos V c _ _ h0, mm1_leaves V c t 2 (mm1_live2 t ((mm1_last_iff t).mpr h1)), mm1_after2, mm1_outsAt_C V c t h0 h1]
    unfold mm1_atO mm1_atC mm1_outC mm1_soutC; dsimp only
    iintro ⟨⟨⟨HS0, HR⟩, Hg⟩, Ho, ⟨%d0, H0⟩, ⟨%d1, H1⟩, ⟨%d2, H2⟩⟩
    iapply ((mm1_runC _ _ _ _ _ _ _ _ _ _ (fun h => h0 ((mm1_first_iff t).mp h)) ((mm1_last_iff t).mpr h1) _ _ _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (mm1_scoverC c _ _ _ _ _ _ _ _ _ _ _ _ _ _)
    unfold owns; iexists _; isplitr
    swap; · iexact H2
    ipureintro; exact View.read_writes_of_cover _ _ _ _ _ (mm1_coverC c _ _ _ _ _ _ _ _ _ _ _ _ _ _)
  have hl : ¬mm1_last (grid1.coords t) := fun h => h1 ((mm1_last_iff t).mp h)
  rw [Dat.leavesExact_idle (mm1_dat V c) 2 t (mm1_idle2 t hl) (mm1_noflush2 t hl)]
  by_cases h0 : t.val % 4 = 0
  · rw [mm1_outsAt_A V c t h0 h1]
    unfold mm1_atA mm1_soutA; dsimp only
    iintro ⟨⟨⟨HS0, HR⟩, Hg⟩, Ho, ⟨%d0, H0⟩, ⟨%d1, H1⟩, ⟨%d2, H2⟩⟩
    iapply ((mm1_runA _ _ _ _ _ _ _ _ _ _ ((mm1_first_iff t).mpr h0) hl _ _).2 _ Set.univ _)
    iframe H0 H1 H2
    isplitl [HS0]; · iapply (mm1_acc_any V c _ _); iexact HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm1_scoverA c _ _ _ _ _ _ _ _ _ _ _ _ _)
    iexists _; iexact H2
  · rw [mm1_acc_pos V c _ _ h0, mm1_outsAt_B V c t h0 h1]
    unfold mm1_atB mm1_soutB; dsimp only
    iintro ⟨⟨⟨HS0, HR⟩, Hg⟩, Ho, ⟨%d0, H0⟩, ⟨%d1, H1⟩, ⟨%d2, H2⟩⟩
    iapply ((mm1_runB _ _ _ _ _ _ _ _ _ _ (fun h => h0 ((mm1_first_iff t).mp h)) hl _ _ _).2 _ Set.univ _)
    iframe H0 H1 H2 HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm1_scoverB c _ _ _ _ _ _ _ _ _ _ _ _ _ _)
    iexists _; iexact H2

theorem mm1_body_obligation : BodyObligation (mm1_dat (F := F) V c) (defs₀ (F := F)) Variants.none () Set.univ := fun t => by
  rw [bigSep_W1, bigSep_W1]
  exact mm1_sound_body V c t

theorem mm1_hin : Pipeline.ΦA spec1 c ⊢ (mm1_dat V c).Φ 0 := Entails.of_eq (mm1_PhiA_eq c)

theorem mm1_hout : (mm1_dat V c).Φ (Fin.last cfg1.N) ⊢ Pipeline.ΦA spec1 c := by
  rw [mm1_PhiA_eq]
  exact sep_mono_left (sep_mono_left (mm1_acc_any V c _ _))

theorem mm1_hin' (P : sProp 𝕄) :
    iprop((∃ r, prngReg c r) ∗ P ∗ Pipeline.scopedRest (Ix := Unit) (Name := ℕ) (U := UR sig nD τ) (Lvl := ℕ) (Val := Elt F) spec1 c) ⊢ (mm1_dat V c).Φ 0 := by
  refine BIBase.Entails.trans ?_ (mm1_hin V c)
  unfold Pipeline.ΦA
  iintro ⟨Hp, -, Hr⟩
  iframe

theorem mm1_hout' :
    (mm1_dat V c).Φ (Fin.last cfg1.N) ⊢ iprop((∃ r, prngReg c r) ∗ (BI.emp : sProp 𝕄) ∗ Pipeline.scopedRest (Ix := Unit) (Name := ℕ) (U := UR sig nD τ) (Lvl := ℕ) (Val := Elt F) spec1 c) := by
  refine BIBase.Entails.trans (mm1_hout V c) ?_
  unfold Pipeline.ΦA
  iintro ⟨Hr, Hp⟩
  iframe; iempintro

end Cert.Kernel.Hand

end
-- ==== Proof.BMmRun2.lean ====
import proofs.«403689_j2439541424354_3_alg».proof.Proof.Gen.Kernel.Launch
import proofs.«403689_j2439541424354_3_alg».proof.Proof.Gen.Kernel.Skeleton
import proofs.«403689_j2439541424354_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

abbrev mm2_first (i : grid2.Coords) : Prop :=
  (Scalar.cmpi .ne (Scalar.extui (Scalar.cmpi .eq (BitVec.ofNat 32 (i 2).val) 0#32)) 0#32) = 1#1

theorem mm2_first_iff : ∀ t : Fin cfg2.N, mm2_first (grid2.coords t) ↔ t.val % 4 = 0 := by decide +kernel

abbrev mm2_last (i : grid2.Coords) : Prop := k2_cond2 i = 1#1

theorem mm2_last_iff : ∀ t : Fin cfg2.N, mm2_last (grid2.coords t) ↔ t.val % 4 = 3 := by decide +kernel

theorem mm2_live0 : ∀ t : Fin cfg2.N, cfg2.idle 0 (grid2.coords t) = false := by decide +kernel
theorem mm2_live1 : ∀ t : Fin cfg2.N, cfg2.idle 1 (grid2.coords t) = false := by decide +kernel

theorem mm2_idle2 : ∀ t : Fin cfg2.N, ¬mm2_last (grid2.coords t) → cfg2.idle 2 (grid2.coords t) = true := by decide +kernel
theorem mm2_noflush2 : ∀ t : Fin cfg2.N, ¬mm2_last (grid2.coords t) → (cfg2.win 2).flush t = false := by decide +kernel

theorem mm2_live2 : ∀ t : Fin cfg2.N, mm2_last (grid2.coords t) → cfg2.idle 2 (grid2.coords t) = false := by decide +kernel

abbrev mm2_m0 (t : Fin cfg2.N) : Memref sig .tc .vmem S1024x512 .f32 := win2_0.stage (cfg2.slots t 0)
abbrev mm2_h0 (t : Fin cfg2.N) : (mm2_m0 t).IsWhole := hstage2_0 ((cfg2.slots t 0).cast nbuf2_0)
abbrev mm2_m1 (t : Fin cfg2.N) : Memref sig .tc .vmem S512x512 .f32 := win2_1.stage (cfg2.slots t 1)
abbrev mm2_h1 (t : Fin cfg2.N) : (mm2_m1 t).IsWhole := hstage2_1 ((cfg2.slots t 1).cast nbuf2_1)
abbrev mm2_m2 (t : Fin cfg2.N) : Memref sig .tc .vmem S1024x512 .f32 := win2_2.stage (cfg2.slots t 2)
abbrev mm2_h2 (t : Fin cfg2.N) : (mm2_m2 t).IsWhole := hstage2_2 ((cfg2.slots t 2).cast nbuf2_2)

abbrev mm2_sc : Memref sig .tc .vmem S1024x512 .f32 := Memref.whole cc2_scratch0

abbrev mm2_VO : View sig .tc .vmem S1024x512 .f32 := (Memref.whole cc2_stg2_0 : Memref sig .tc .vmem S1024x512 .f32).view
abbrev mm2_VS : View sig .tc .vmem S1024x512 .f32 := mm2_sc.view

theorem mm2_PhiA_eq (c : Dev nD) :
    (Pipeline.ΦA spec2 c : sProp 𝕄)
      = iprop(iprop((∃ d, owns (c : Thread nD τ) mm2_sc fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [mm2_sc, owns_whole]; try rfl

-- A whole memref is owned at x exactly when it holds the raw contents that read x.
theorem mm2_owns_eq {s : Shape} {m : Memref sig .tc .vmem s .f32} (h : m.IsWhole) (c : Dev nD) (x : Vec F s .f32) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid2.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

-- The kernel's triple: both factors come back as found; P5, PS hold the output block and the accumulator before, Q5, QS after.
def mm2_triple (x0 : Vec F S1024x512 .f32) (x1 : Vec F S512x512 .f32) (P5 PS Q5 QS : sProp 𝕄) : Prop :=
  ∀ (E : Set ℕ) (K : PUnit → sProp 𝕄),
    iprop(owns (c : Thread nD τ) arg3 fullShare x0 ∗ owns (c : Thread nD τ) arg4 fullShare x1 ∗ P5 ∗ PS ∗ (iprop(owns (c : Thread nD τ) arg3 fullShare x0 ∗ owns (c : Thread nD τ) arg4 fullShare x1 ∗ Q5 ∗ QS) -∗ K ⟨⟩))
      ⊢ wp frame (wpE (defs₀ (F := F)) Variants.none c none) E (cc2__matmul_kernel i arg3 harg3 arg4 harg4 arg5 harg5 arg6 harg6) K

def mm2_runA (hc0 : mm2_first i) (hc1 : ¬mm2_last i) (x0 : Vec F S1024x512 .f32) (x1 : Vec F S512x512 .f32) :
    { LS0 : List (View.Piece (Elt F) S1024x512 .f32) //
      ∀ xi2 : Vec F S1024x512 .f32, mm2_triple c i arg3 harg3 arg4 harg4 arg5 harg5 arg6 harg6 x0 x1 (owns (c : Thread nD τ) arg5 fullShare xi2) iprop(∃ d, owns (c : Thread nD τ) arg6 fullShare d) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc2__matmul_kernel_eq_skeleton, mm2_owns_eq harg3, mm2_owns_eq harg4, mm2_owns_eq harg5, mm2_owns_eq harg6]; unfold cc2__matmul_kernel_skel
    iintro ⟨H0, H1, H2, ⟨%ds0, HS0⟩, Hk⟩
    sl_exec (disch := first | exact hc0 | exact hc1)
    sl_step
    iapply Hk
    iframe H0 H1 H2
    iexists _; iexact HS0

def mm2_runB (hc0 : ¬mm2_first i) (hc1 : ¬mm2_last i) (x0 : Vec F S1024x512 .f32) (x1 : Vec F S512x512 .f32) (xs0 : Vec F S1024x512 .f32) :
    { LS0 : List (View.Piece (Elt F) S1024x512 .f32) //
      ∀ xi2 : Vec F S1024x512 .f32, mm2_triple c i arg3 harg3 arg4 harg4 arg5 harg5 arg6 harg6 x0 x1 (owns (c : Thread nD τ) arg5 fullShare xi2) (owns (c : Thread nD τ) arg6 fullShare xs0) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc2__matmul_kernel_eq_skeleton, mm2_owns_eq harg3, mm2_owns_eq harg4, mm2_owns_eq harg5, mm2_owns_eq harg6]; unfold cc2__matmul_kernel_skel
    iintro ⟨H0, H1, H2, HS0, Hk⟩
    sl_exec (disch := first | exact hc0 | exact hc1)
    sl_step
    iapply Hk
    iframe H0 H1 H2
    iexists _; iexact HS0

def mm2_runC (hc0 : ¬mm2_first i) (hc1 : mm2_last i) (x0 : Vec F S1024x512 .f32) (x1 : Vec F S512x512 .f32) (xs0 : Vec F S1024x512 .f32) :
    Σ' (L2 : List (View.Piece (Elt F) S1024x512 .f32)), { LS0 : List (View.Piece (Elt F) S1024x512 .f32) //
      mm2_triple c i arg3 harg3 arg4 harg4 arg5 harg5 arg6 harg6 x0 x1 iprop(∃ d, owns (c : Thread nD τ) arg5 fullShare d) (owns (c : Thread nD τ) arg6 fullShare xs0) iprop(∃ f, arg5.view.loc (c : Thread nD τ) ↦[arg5.view.set]{fullShare} arg5.view.writes (Elt F) f L2) iprop(∃ f, arg6.view.loc (c : Thread nD τ) ↦[arg6.view.set]{fullShare} arg6.view.writes (Elt F) f LS0) } := by
  refine ⟨?_, ?_, fun E K => ?run⟩
  case run =>
    simp only [cc2__matmul_kernel_eq_skeleton, mm2_owns_eq harg3, mm2_owns_eq harg4, mm2_owns_eq harg5, mm2_owns_eq harg6]; unfold cc2__matmul_kernel_skel
    iintro ⟨H0, H1, ⟨%d2, H2⟩, HS0, Hk⟩
    sl_exec (disch := first | exact hc0 | exact hc1)
    sl_step
    iapply Hk
    iframe H0 H1
    isplitl [H2]; · iexists _; iexact H2
    iexists _; iexact HS0
end

end Cert.Kernel.Hand

end
-- ==== Proof.BMmDat2.lean ====
import proofs.«403689_j2439541424354_3_alg».proof.Proof.BMmRun2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def mm2_iblk (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (i : grid2.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

section
variable (hc0 : mm2_first i) (hc1 : ¬mm2_last i) (x0 : Vec F S1024x512 .f32) (x1 : Vec F S512x512 .f32)
theorem mm2_scoverA (y : S1024x512.Idx) : ∃ pc ∈ (mm2_runA c i arg3 harg3 arg4 harg4 arg5 harg5 arg6 harg6 hc0 hc1 x0 x1).1, y ∈ pc.1.set :=
  View.cover_of_tiledL _ S1024x512.size (by sl_kernel_rfl) y
def mm2_soutA : Vec F S1024x512 .f32 :=
  mm2_VS.read (Elt F) (mm2_VS.writes (Elt F) mm2_VS.junk (mm2_runA c i arg3 harg3 arg4 harg4 arg5 harg5 arg6 harg6 hc0 hc1 x0 x1).1)
end

section
variable (hc0 : ¬mm2_first i) (hc1 : ¬mm2_last i) (x0 : Vec F S1024x512 .f32) (x1 : Vec F S512x512 .f32) (xs0 : Vec F S1024x512 .f32)
theorem mm2_scoverB (y : S1024x512.Idx) : ∃ pc ∈ (mm2_runB c i arg3 harg3 arg4 harg4 arg5 harg5 arg6 harg6 hc0 hc1 x0 x1 xs0).1, y ∈ pc.1.set :=
  View.cover_of_tiledL _ S1024x512.size (by sl_kernel_rfl) y
def mm2_soutB : Vec F S1024x512 .f32 :=
  mm2_VS.read (Elt F) (mm2_VS.writes (Elt F) mm2_VS.junk (mm2_runB c i arg3 harg3 arg4 harg4 arg5 harg5 arg6 harg6 hc0 hc1 x0 x1 xs0).1)
end

section
variable (hc0 : ¬mm2_first i) (hc1 : mm2_last i) (x0 : Vec F S1024x512 .f32) (x1 : Vec F S512x512 .f32) (xs0 : Vec F S1024x512 .f32)
theorem mm2_scoverC (y : S1024x512.Idx) : ∃ pc ∈ (mm2_runC c i arg3 harg3 arg4 harg4 arg5 harg5 arg6 harg6 hc0 hc1 x0 x1 xs0).2.1, y ∈ pc.1.set :=
  View.cover_of_tiledL _ S1024x512.size (by sl_kernel_rfl) y
theorem mm2_coverC (y : S1024x512.Idx) : ∃ pc ∈ (mm2_runC c i arg3 harg3 arg4 harg4 arg5 harg5 arg6 harg6 hc0 hc1 x0 x1 xs0).1, y ∈ pc.1.set :=
  View.cover_of_tiledL _ S1024x512.size (by sl_kernel_rfl) y
def mm2_soutC : Vec F S1024x512 .f32 :=
  mm2_VS.read (Elt F) (mm2_VS.writes (Elt F) mm2_VS.junk (mm2_runC c i arg3 harg3 arg4 harg4 arg5 harg5 arg6 harg6 hc0 hc1 x0 x1 xs0).2.1)
def mm2_outC : Vec F S1024x512 .f32 :=
  mm2_VO.read (Elt F) (mm2_VO.writes (Elt F) mm2_VO.junk (mm2_runC c i arg3 harg3 arg4 harg4 arg5 harg5 arg6 harg6 hc0 hc1 x0 x1 xs0).1)
end
end

def mm2_outIdle : Vec F S1024x512 .f32 := mm2_VO.read (Elt F) mm2_VO.junk

variable (t : Fin cfg2.N)

-- Each case at grid point t, on the point's blocks; a later K step continues from the accumulator a.
abbrev mm2_atA (h0 : t.val % 4 = 0) (h1 : ¬t.val % 4 = 3) : Vec F S1024x512 .f32 :=
  mm2_soutA c (grid2.coords t) (mm2_m0 t) (mm2_h0 t) (mm2_m1 t) (mm2_h1 t) (mm2_m2 t) (mm2_h2 t) mm2_sc (Memref.isWhole_whole _) ((mm2_first_iff t).mpr h0) (fun h => h1 ((mm2_last_iff t).mp h)) (mm2_iblk V c 0 t) (mm2_iblk V c 1 t)
abbrev mm2_atB (h0 : ¬t.val % 4 = 0) (h1 : ¬t.val % 4 = 3) (a : Vec F S1024x512 .f32) : Vec F S1024x512 .f32 :=
  mm2_soutB c (grid2.coords t) (mm2_m0 t) (mm2_h0 t) (mm2_m1 t) (mm2_h1 t) (mm2_m2 t) (mm2_h2 t) mm2_sc (Memref.isWhole_whole _) (fun h => h0 ((mm2_first_iff t).mp h)) (fun h => h1 ((mm2_last_iff t).mp h)) (mm2_iblk V c 0 t) (mm2_iblk V c 1 t) a
abbrev mm2_atC (h0 : ¬t.val % 4 = 0) (h1 : t.val % 4 = 3) (a : Vec F S1024x512 .f32) : Vec F S1024x512 .f32 :=
  mm2_soutC c (grid2.coords t) (mm2_m0 t) (mm2_h0 t) (mm2_m1 t) (mm2_h1 t) (mm2_m2 t) (mm2_h2 t) mm2_sc (Memref.isWhole_whole _) (fun h => h0 ((mm2_first_iff t).mp h)) ((mm2_last_iff t).mpr h1) (mm2_iblk V c 0 t) (mm2_iblk V c 1 t) a
abbrev mm2_atO (h0 : ¬t.val % 4 = 0) (h1 : t.val % 4 = 3) (a : Vec F S1024x512 .f32) : Vec F S1024x512 .f32 :=
  mm2_outC c (grid2.coords t) (mm2_m0 t) (mm2_h0 t) (mm2_m1 t) (mm2_h1 t) (mm2_m2 t) (mm2_h2 t) mm2_sc (Memref.isWhole_whole _) (fun h => h0 ((mm2_first_iff t).mp h)) ((mm2_last_iff t).mpr h1) (mm2_iblk V c 0 t) (mm2_iblk V c 1 t) a

-- The pair (output block, accumulator) after point n, by recursion on n.
def mm2_outsAt : (n : ℕ) → n < cfg2.N → Vec F S1024x512 .f32 × Vec F S1024x512 .f32
  | 0, hn => (mm2_outIdle, mm2_atA V c ⟨0, hn⟩ (Nat.zero_mod 4) (by show ¬0 % 4 = 3; decide))
  | n + 1, hn =>
    if h0 : (n + 1) % 4 = 0 then (mm2_outIdle, mm2_atA V c ⟨n + 1, hn⟩ h0 (by show ¬(n + 1) % 4 = 3; omega))
    else if h1 : (n + 1) % 4 = 3 then (mm2_atO V c ⟨n + 1, hn⟩ h0 h1 (mm2_outsAt n (Nat.lt_of_succ_lt hn)).2, mm2_atC V c ⟨n + 1, hn⟩ h0 h1 (mm2_outsAt n (Nat.lt_of_succ_lt hn)).2)
    else (mm2_outIdle, mm2_atB V c ⟨n + 1, hn⟩ h0 h1 (mm2_outsAt n (Nat.lt_of_succ_lt hn)).2)

theorem mm2_outsAt_A (h0 : t.val % 4 = 0) (h1 : ¬t.val % 4 = 3) :
    mm2_outsAt V c t.val t.isLt = (mm2_outIdle, mm2_atA V c t h0 h1) := by
  obtain ⟨n, hn⟩ := t
  cases n with
  | zero => rfl
  | succ n => exact dif_pos h0

theorem mm2_outsAt_B (h0 : ¬t.val % 4 = 0) (h1 : ¬t.val % 4 = 3) :
    mm2_outsAt V c t.val t.isLt = (mm2_outIdle, mm2_atB V c t h0 h1 (mm2_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_neg h1)

theorem mm2_outsAt_C (h0 : ¬t.val % 4 = 0) (h1 : t.val % 4 = 3) :
    mm2_outsAt V c t.val t.isLt = (mm2_atO V c t h0 h1 (mm2_outsAt V c (t.val - 1) (Nat.lt_of_le_of_lt (Nat.sub_le _ _) t.isLt)).2,
      mm2_atC V c t h0 h1 (mm2_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_pos h1)

-- The accumulator before point n: arbitrary before the first point, then what point n - 1 left.
def mm2_acc : (n : ℕ) → n ≤ cfg2.N → sProp 𝕄
  | 0, _ => iprop(∃ d, owns (c : Thread nD τ) mm2_sc fullShare d)
  | n + 1, hn => owns (c : Thread nD τ) mm2_sc fullShare (mm2_outsAt V c n hn).2

theorem mm2_acc_any (n : ℕ) (h : n ≤ cfg2.N) : mm2_acc V c n h ⊢ iprop(∃ d, owns (c : Thread nD τ) mm2_sc fullShare d) := by
  cases n with
  | zero => exact Idealize.SL.BI.Entails.refl _
  | succ n => unfold mm2_acc; iintro H; iexists _; iexact H

theorem mm2_acc_pos (n : ℕ) (h : n ≤ cfg2.N) (h0 : ¬n % 4 = 0) :
    mm2_acc V c n h = owns (c : Thread nD τ) mm2_sc fullShare (mm2_outsAt V c (n - 1) (by omega)).2 := by
  cases n with
  | zero => exact absurd (Nat.zero_mod 4) h0
  | succ n => rfl

-- The invariant between points; P is what it says of the accumulator.
def mm2_inv (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

def mm2_dat : Dat τ (Elt F) Unit ℕ (UR sig nD τ) ℕ cfg2 c where
  A w := V c (Pipeline.arrRef spec2 w)
  after w t := match w with
    | ⟨0, _⟩ => mm2_iblk V c 0 t
    | ⟨1, _⟩ => mm2_iblk V c 1 t
    | ⟨2, _⟩ => (mm2_outsAt V c t.val t.isLt).1
  Φ t := mm2_inv c (mm2_acc V c t.val (Nat.le_of_lt_succ t.isLt))
  q _ := fullShare
  owed _ := 0

theorem mm2_A_eq (w : Fin cfg2.W) : (mm2_dat V c).A w = V c (Pipeline.arrRef spec2 w) := rfl

theorem mm2_after2 : (mm2_dat V c).after 2 t = (mm2_outsAt V c t.val t.isLt).1 := rfl

theorem mm2_before0 (d) : (mm2_dat V c).before 0 t d = mm2_iblk V c 0 t :=
  ((mm2_dat V c).before_in_eq_fetched 0 rfl (fun _ => rfl) (fun _ _ _ => rfl) (fun _ => rfl) t d).trans rfl
theorem mm2_before1 (d) : (mm2_dat V c).before 1 t d = mm2_iblk V c 1 t :=
  ((mm2_dat V c).before_in_eq_fetched 1 rfl (fun _ => rfl) (fun _ _ _ => rfl) (fun _ => rfl) t d).trans rfl

theorem mm2_leaves (w : Fin cfg2.W) (h : cfg2.idle w (grid2.coords t) = false) :
    (mm2_dat V c).leavesExact w t = owns (c : Thread nD τ) ((cfg2.win w).stage (cfg2.slots t w)) fullShare ((mm2_dat V c).after w t) := by
  unfold Dat.leavesExact; rw [h]

-- By cases on the point's position modulo 4.
theorem mm2_sound_body :
    iprop((mm2_dat V c).Φ t.castSucc ∗ (mm2_dat V c).owesAt () t.castSucc
        ∗ (∃ d, owns (c : Thread nD τ) (mm2_m0 t) fullShare ((mm2_dat V c).before 0 t d))
        ∗ (∃ d, owns (c : Thread nD τ) (mm2_m1 t) fullShare ((mm2_dat V c).before 1 t d))
        ∗ (∃ d, owns (c : Thread nD τ) (mm2_m2 t) fullShare ((mm2_dat V c).before 2 t d)))
      ⊢ wp frame (wpE (defs₀ (F := F)) Variants.none c none) Set.univ (bodyAt2 t) fun _ =>
        iprop((mm2_dat V c).Φ t.succ ∗ (mm2_dat V c).owesAt () t.succ
          ∗ (mm2_dat V c).leavesExact 0 t ∗ (mm2_dat V c).leavesExact 1 t ∗ (mm2_dat V c).leavesExact 2 t) := by
  unfold bodyAt2
  simp only [mm2_before0, mm2_before1]
  rw [show (mm2_dat V c).owesAt () t.succ = (mm2_dat V c).owesAt () t.castSucc from rfl,
    show (mm2_dat V c).Φ t.succ = mm2_inv c (owns (c : Thread nD τ) mm2_sc fullShare (mm2_outsAt V c t.val t.isLt).2) from rfl,
    show (mm2_dat V c).Φ t.castSucc = mm2_inv c (mm2_acc V c t.val (Nat.le_of_lt t.isLt)) from rfl,
    mm2_leaves V c t 0 (mm2_live0 t), mm2_leaves V c t 1 (mm2_live1 t),
    show (mm2_dat V c).after 0 t = mm2_iblk V c 0 t from rfl, show (mm2_dat V c).after 1 t = mm2_iblk V c 1 t from rfl]
  unfold mm2_inv
  by_cases h1 : t.val % 4 = 3
  · have h0 : ¬t.val % 4 = 0 := by omega
    rw [mm2_acc_pos V c _ _ h0, mm2_leaves V c t 2 (mm2_live2 t ((mm2_last_iff t).mpr h1)), mm2_after2, mm2_outsAt_C V c t h0 h1]
    unfold mm2_atO mm2_atC mm2_outC mm2_soutC; dsimp only
    iintro ⟨⟨⟨HS0, HR⟩, Hg⟩, Ho, ⟨%d0, H0⟩, ⟨%d1, H1⟩, ⟨%d2, H2⟩⟩
    iapply ((mm2_runC _ _ _ _ _ _ _ _ _ _ (fun h => h0 ((mm2_first_iff t).mp h)) ((mm2_last_iff t).mpr h1) _ _ _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (mm2_scoverC c _ _ _ _ _ _ _ _ _ _ _ _ _ _)
    unfold owns; iexists _; isplitr
    swap; · iexact H2
    ipureintro; exact View.read_writes_of_cover _ _ _ _ _ (mm2_coverC c _ _ _ _ _ _ _ _ _ _ _ _ _ _)
  have hl : ¬mm2_last (grid2.coords t) := fun h => h1 ((mm2_last_iff t).mp h)
  rw [Dat.leavesExact_idle (mm2_dat V c) 2 t (mm2_idle2 t hl) (mm2_noflush2 t hl)]
  by_cases h0 : t.val % 4 = 0
  · rw [mm2_outsAt_A V c t h0 h1]
    unfold mm2_atA mm2_soutA; dsimp only
    iintro ⟨⟨⟨HS0, HR⟩, Hg⟩, Ho, ⟨%d0, H0⟩, ⟨%d1, H1⟩, ⟨%d2, H2⟩⟩
    iapply ((mm2_runA _ _ _ _ _ _ _ _ _ _ ((mm2_first_iff t).mpr h0) hl _ _).2 _ Set.univ _)
    iframe H0 H1 H2
    isplitl [HS0]; · iapply (mm2_acc_any V c _ _); iexact HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm2_scoverA c _ _ _ _ _ _ _ _ _ _ _ _ _)
    iexists _; iexact H2
  · rw [mm2_acc_pos V c _ _ h0, mm2_outsAt_B V c t h0 h1]
    unfold mm2_atB mm2_soutB; dsimp only
    iintro ⟨⟨⟨HS0, HR⟩, Hg⟩, Ho, ⟨%d0, H0⟩, ⟨%d1, H1⟩, ⟨%d2, H2⟩⟩
    iapply ((mm2_runB _ _ _ _ _ _ _ _ _ _ (fun h => h0 ((mm2_first_iff t).mp h)) hl _ _ _).2 _ Set.univ _)
    iframe H0 H1 H2 HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm2_scoverB c _ _ _ _ _ _ _ _ _ _ _ _ _ _)
    iexists _; iexact H2

theorem mm2_body_obligation : BodyObligation (mm2_dat (F := F) V c) (defs₀ (F := F)) Variants.none () Set.univ := fun t => by
  rw [bigSep_W2, bigSep_W2]
  exact mm2_sound_body V c t

theorem mm2_hin : Pipeline.ΦA spec2 c ⊢ (mm2_dat V c).Φ 0 := Entails.of_eq (mm2_PhiA_eq c)

theorem mm2_hout : (mm2_dat V c).Φ (Fin.last cfg2.N) ⊢ Pipeline.ΦA spec2 c := by
  rw [mm2_PhiA_eq]
  exact sep_mono_left (sep_mono_left (mm2_acc_any V c _ _))

theorem mm2_hin' (P : sProp 𝕄) :
    iprop((∃ r, prngReg c r) ∗ P ∗ Pipeline.scopedRest (Ix := Unit) (Name := ℕ) (U := UR sig nD τ) (Lvl := ℕ) (Val := Elt F) spec2 c) ⊢ (mm2_dat V c).Φ 0 := by
  refine BIBase.Entails.trans ?_ (mm2_hin V c)
  unfold Pipeline.ΦA
  iintro ⟨Hp, -, Hr⟩
  iframe

theorem mm2_hout' :
    (mm2_dat V c).Φ (Fin.last cfg2.N) ⊢ iprop((∃ r, prngReg c r) ∗ (BI.emp : sProp 𝕄) ∗ Pipeline.scopedRest (Ix := Unit) (Name := ℕ) (U := UR sig nD τ) (Lvl := ℕ) (Val := Elt F) spec2 c) := by
  refine BIBase.Entails.trans (mm2_hout V c) ?_
  unfold Pipeline.ΦA
  iintro ⟨Hr, Hp⟩
  iframe; iempintro

end Cert.Kernel.Hand

end
-- ==== Proof.BMmRun4.lean ====
import proofs.«403689_j2439541424354_3_alg».proof.Proof.Gen.Kernel.Launch
import proofs.«403689_j2439541424354_3_alg».proof.Proof.Gen.Kernel.Skeleton
import proofs.«403689_j2439541424354_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

abbrev mm4_first (i : grid4.Coords) : Prop :=
  (Scalar.cmpi .ne (Scalar.extui (Scalar.cmpi .eq (BitVec.ofNat 32 (i 2).val) 0#32)) 0#32) = 1#1

theorem mm4_first_iff : ∀ t : Fin cfg4.N, mm4_first (grid4.coords t) ↔ t.val % 4 = 0 := by decide +kernel

abbrev mm4_last (i : grid4.Coords) : Prop := k4_cond2 i = 1#1

theorem mm4_last_iff : ∀ t : Fin cfg4.N, mm4_last (grid4.coords t) ↔ t.val % 4 = 3 := by decide +kernel

theorem mm4_live0 : ∀ t : Fin cfg4.N, cfg4.idle 0 (grid4.coords t) = false := by decide +kernel
theorem mm4_live1 : ∀ t : Fin cfg4.N, cfg4.idle 1 (grid4.coords t) = false := by decide +kernel

theorem mm4_idle2 : ∀ t : Fin cfg4.N, ¬mm4_last (grid4.coords t) → cfg4.idle 2 (grid4.coords t) = true := by decide +kernel
theorem mm4_noflush2 : ∀ t : Fin cfg4.N, ¬mm4_last (grid4.coords t) → (cfg4.win 2).flush t = false := by decide +kernel

theorem mm4_live2 : ∀ t : Fin cfg4.N, mm4_last (grid4.coords t) → cfg4.idle 2 (grid4.coords t) = false := by decide +kernel

abbrev mm4_m0 (t : Fin cfg4.N) : Memref sig .tc .vmem S1024x512 .f32 := win4_0.stage (cfg4.slots t 0)
abbrev mm4_h0 (t : Fin cfg4.N) : (mm4_m0 t).IsWhole := hstage4_0 ((cfg4.slots t 0).cast nbuf4_0)
abbrev mm4_m1 (t : Fin cfg4.N) : Memref sig .tc .vmem S512x512 .f32 := win4_1.stage (cfg4.slots t 1)
abbrev mm4_h1 (t : Fin cfg4.N) : (mm4_m1 t).IsWhole := hstage4_1 ((cfg4.slots t 1).cast nbuf4_1)
abbrev mm4_m2 (t : Fin cfg4.N) : Memref sig .tc .vmem S1024x512 .f32 := win4_2.stage (cfg4.slots t 2)
abbrev mm4_h2 (t : Fin cfg4.N) : (mm4_m2 t).IsWhole := hstage4_2 ((cfg4.slots t 2).cast nbuf4_2)

abbrev mm4_sc : Memref sig .tc .vmem S1024x512 .f32 := Memref.whole cc4_scratch0

abbrev mm4_VO : View sig .tc .vmem S1024x512 .f32 := (Memref.whole cc4_stg2_0 : Memref sig .tc .vmem S1024x512 .f32).view
abbrev mm4_VS : View sig .tc .vmem S1024x512 .f32 := mm4_sc.view

theorem mm4_PhiA_eq (c : Dev nD) :
    (Pipeline.ΦA spec4 c : sProp 𝕄)
      = iprop(iprop((∃ d, owns (c : Thread nD τ) mm4_sc fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [mm4_sc, owns_whole]; try rfl

-- A whole memref is owned at x exactly when it holds the raw contents that read x.
theorem mm4_owns_eq {s : Shape} {m : Memref sig .tc .vmem s .f32} (h : m.IsWhole) (c : Dev nD) (x : Vec F s .f32) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid4.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

-- The kernel's triple: both factors come back as found; P5, PS hold the output block and the accumulator before, Q5, QS after.
def mm4_triple (x0 : Vec F S1024x512 .f32) (x1 : Vec F S512x512 .f32) (P5 PS Q5 QS : sProp 𝕄) : Prop :=
  ∀ (E : Set ℕ) (K : PUnit → sProp 𝕄),
    iprop(owns (c : Thread nD τ) arg3 fullShare x0 ∗ owns (c : Thread nD τ) arg4 fullShare x1 ∗ P5 ∗ PS ∗ (iprop(owns (c : Thread nD τ) arg3 fullShare x0 ∗ owns (c : Thread nD τ) arg4 fullShare x1 ∗ Q5 ∗ QS) -∗ K ⟨⟩))
      ⊢ wp frame (wpE (defs₀ (F := F)) Variants.none c none) E (cc4__matmul_kernel i arg3 harg3 arg4 harg4 arg5 harg5 arg6 harg6) K

def mm4_runA (hc0 : mm4_first i) (hc1 : ¬mm4_last i) (x0 : Vec F S1024x512 .f32) (x1 : Vec F S512x512 .f32) :
    { LS0 : List (View.Piece (Elt F) S1024x512 .f32) //
      ∀ xi2 : Vec F S1024x512 .f32, mm4_triple c i arg3 harg3 arg4 harg4 arg5 harg5 arg6 harg6 x0 x1 (owns (c : Thread nD τ) arg5 fullShare xi2) iprop(∃ d, owns (c : Thread nD τ) arg6 fullShare d) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc4__matmul_kernel_eq_skeleton, mm4_owns_eq harg3, mm4_owns_eq harg4, mm4_owns_eq harg5, mm4_owns_eq harg6]; unfold cc4__matmul_kernel_skel
    iintro ⟨H0, H1, H2, ⟨%ds0, HS0⟩, Hk⟩
    sl_exec (disch := first | exact hc0 | exact hc1)
    sl_step
    iapply Hk
    iframe H0 H1 H2
    iexists _; iexact HS0

def mm4_runB (hc0 : ¬mm4_first i) (hc1 : ¬mm4_last i) (x0 : Vec F S1024x512 .f32) (x1 : Vec F S512x512 .f32) (xs0 : Vec F S1024x512 .f32) :
    { LS0 : List (View.Piece (Elt F) S1024x512 .f32) //
      ∀ xi2 : Vec F S1024x512 .f32, mm4_triple c i arg3 harg3 arg4 harg4 arg5 harg5 arg6 harg6 x0 x1 (owns (c : Thread nD τ) arg5 fullShare xi2) (owns (c : Thread nD τ) arg6 fullShare xs0) (owns (c : Thread nD τ) arg5 fullShare xi2) iprop(∃ f, arg6.view.loc (c : Thread nD τ) ↦[arg6.view.set]{fullShare} arg6.view.writes (Elt F) f LS0) } := by
  refine ⟨?_, fun xi2 E K => ?run⟩
  case run =>
    simp only [cc4__matmul_kernel_eq_skeleton, mm4_owns_eq harg3, mm4_owns_eq harg4, mm4_owns_eq harg5, mm4_owns_eq harg6]; unfold cc4__matmul_kernel_skel
    iintro ⟨H0, H1, H2, HS0, Hk⟩
    sl_exec (disch := first | exact hc0 | exact hc1)
    sl_step
    iapply Hk
    iframe H0 H1 H2
    iexists _; iexact HS0

def mm4_runC (hc0 : ¬mm4_first i) (hc1 : mm4_last i) (x0 : Vec F S1024x512 .f32) (x1 : Vec F S512x512 .f32) (xs0 : Vec F S1024x512 .f32) :
    Σ' (L2 : List (View.Piece (Elt F) S1024x512 .f32)), { LS0 : List (View.Piece (Elt F) S1024x512 .f32) //
      mm4_triple c i arg3 harg3 arg4 harg4 arg5 harg5 arg6 harg6 x0 x1 iprop(∃ d, owns (c : Thread nD τ) arg5 fullShare d) (owns (c : Thread nD τ) arg6 fullShare xs0) iprop(∃ f, arg5.view.loc (c : Thread nD τ) ↦[arg5.view.set]{fullShare} arg5.view.writes (Elt F) f L2) iprop(∃ f, arg6.view.loc (c : Thread nD τ) ↦[arg6.view.set]{fullShare} arg6.view.writes (Elt F) f LS0) } := by
  refine ⟨?_, ?_, fun E K => ?run⟩
  case run =>
    simp only [cc4__matmul_kernel_eq_skeleton, mm4_owns_eq harg3, mm4_owns_eq harg4, mm4_owns_eq harg5, mm4_owns_eq harg6]; unfold cc4__matmul_kernel_skel
    iintro ⟨H0, H1, ⟨%d2, H2⟩, HS0, Hk⟩
    sl_exec (disch := first | exact hc0 | exact hc1)
    sl_step
    iapply Hk
    iframe H0 H1
    isplitl [H2]; · iexists _; iexact H2
    iexists _; iexact HS0
end

end Cert.Kernel.Hand

end
-- ==== Proof.BMmDat4.lean ====
import proofs.«403689_j2439541424354_3_alg».proof.Proof.BMmRun4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def mm4_iblk (w : Fin cfg4.W) (t : Fin cfg4.N) : ((cfg4.win w).xblock (cfg4.grid.coords t)).Idx → Elt F (cfg4.win w).elt :=
  ((cfg4.win w).blk t).view.read (Elt F) (V c (Pipeline.arrRef spec4 w))

section
variable (i : grid4.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole)

section
variable (hc0 : mm4_first i) (hc1 : ¬mm4_last i) (x0 : Vec F S1024x512 .f32) (x1 : Vec F S512x512 .f32)
theorem mm4_scoverA (y : S1024x512.Idx) : ∃ pc ∈ (mm4_runA c i arg3 harg3 arg4 harg4 arg5 harg5 arg6 harg6 hc0 hc1 x0 x1).1, y ∈ pc.1.set :=
  View.cover_of_tiledL _ S1024x512.size (by sl_kernel_rfl) y
def mm4_soutA : Vec F S1024x512 .f32 :=
  mm4_VS.read (Elt F) (mm4_VS.writes (Elt F) mm4_VS.junk (mm4_runA c i arg3 harg3 arg4 harg4 arg5 harg5 arg6 harg6 hc0 hc1 x0 x1).1)
end

section
variable (hc0 : ¬mm4_first i) (hc1 : ¬mm4_last i) (x0 : Vec F S1024x512 .f32) (x1 : Vec F S512x512 .f32) (xs0 : Vec F S1024x512 .f32)
theorem mm4_scoverB (y : S1024x512.Idx) : ∃ pc ∈ (mm4_runB c i arg3 harg3 arg4 harg4 arg5 harg5 arg6 harg6 hc0 hc1 x0 x1 xs0).1, y ∈ pc.1.set :=
  View.cover_of_tiledL _ S1024x512.size (by sl_kernel_rfl) y
def mm4_soutB : Vec F S1024x512 .f32 :=
  mm4_VS.read (Elt F) (mm4_VS.writes (Elt F) mm4_VS.junk (mm4_runB c i arg3 harg3 arg4 harg4 arg5 harg5 arg6 harg6 hc0 hc1 x0 x1 xs0).1)
end

section
variable (hc0 : ¬mm4_first i) (hc1 : mm4_last i) (x0 : Vec F S1024x512 .f32) (x1 : Vec F S512x512 .f32) (xs0 : Vec F S1024x512 .f32)
theorem mm4_scoverC (y : S1024x512.Idx) : ∃ pc ∈ (mm4_runC c i arg3 harg3 arg4 harg4 arg5 harg5 arg6 harg6 hc0 hc1 x0 x1 xs0).2.1, y ∈ pc.1.set :=
  View.cover_of_tiledL _ S1024x512.size (by sl_kernel_rfl) y
theorem mm4_coverC (y : S1024x512.Idx) : ∃ pc ∈ (mm4_runC c i arg3 harg3 arg4 harg4 arg5 harg5 arg6 harg6 hc0 hc1 x0 x1 xs0).1, y ∈ pc.1.set :=
  View.cover_of_tiledL _ S1024x512.size (by sl_kernel_rfl) y
def mm4_soutC : Vec F S1024x512 .f32 :=
  mm4_VS.read (Elt F) (mm4_VS.writes (Elt F) mm4_VS.junk (mm4_runC c i arg3 harg3 arg4 harg4 arg5 harg5 arg6 harg6 hc0 hc1 x0 x1 xs0).2.1)
def mm4_outC : Vec F S1024x512 .f32 :=
  mm4_VO.read (Elt F) (mm4_VO.writes (Elt F) mm4_VO.junk (mm4_runC c i arg3 harg3 arg4 harg4 arg5 harg5 arg6 harg6 hc0 hc1 x0 x1 xs0).1)
end
end

def mm4_outIdle : Vec F S1024x512 .f32 := mm4_VO.read (Elt F) mm4_VO.junk

variable (t : Fin cfg4.N)

-- Each case at grid point t, on the point's blocks; a later K step continues from the accumulator a.
abbrev mm4_atA (h0 : t.val % 4 = 0) (h1 : ¬t.val % 4 = 3) : Vec F S1024x512 .f32 :=
  mm4_soutA c (grid4.coords t) (mm4_m0 t) (mm4_h0 t) (mm4_m1 t) (mm4_h1 t) (mm4_m2 t) (mm4_h2 t) mm4_sc (Memref.isWhole_whole _) ((mm4_first_iff t).mpr h0) (fun h => h1 ((mm4_last_iff t).mp h)) (mm4_iblk V c 0 t) (mm4_iblk V c 1 t)
abbrev mm4_atB (h0 : ¬t.val % 4 = 0) (h1 : ¬t.val % 4 = 3) (a : Vec F S1024x512 .f32) : Vec F S1024x512 .f32 :=
  mm4_soutB c (grid4.coords t) (mm4_m0 t) (mm4_h0 t) (mm4_m1 t) (mm4_h1 t) (mm4_m2 t) (mm4_h2 t) mm4_sc (Memref.isWhole_whole _) (fun h => h0 ((mm4_first_iff t).mp h)) (fun h => h1 ((mm4_last_iff t).mp h)) (mm4_iblk V c 0 t) (mm4_iblk V c 1 t) a
abbrev mm4_atC (h0 : ¬t.val % 4 = 0) (h1 : t.val % 4 = 3) (a : Vec F S1024x512 .f32) : Vec F S1024x512 .f32 :=
  mm4_soutC c (grid4.coords t) (mm4_m0 t) (mm4_h0 t) (mm4_m1 t) (mm4_h1 t) (mm4_m2 t) (mm4_h2 t) mm4_sc (Memref.isWhole_whole _) (fun h => h0 ((mm4_first_iff t).mp h)) ((mm4_last_iff t).mpr h1) (mm4_iblk V c 0 t) (mm4_iblk V c 1 t) a
abbrev mm4_atO (h0 : ¬t.val % 4 = 0) (h1 : t.val % 4 = 3) (a : Vec F S1024x512 .f32) : Vec F S1024x512 .f32 :=
  mm4_outC c (grid4.coords t) (mm4_m0 t) (mm4_h0 t) (mm4_m1 t) (mm4_h1 t) (mm4_m2 t) (mm4_h2 t) mm4_sc (Memref.isWhole_whole _) (fun h => h0 ((mm4_first_iff t).mp h)) ((mm4_last_iff t).mpr h1) (mm4_iblk V c 0 t) (mm4_iblk V c 1 t) a

-- The pair (output block, accumulator) after point n, by recursion on n.
def mm4_outsAt : (n : ℕ) → n < cfg4.N → Vec F S1024x512 .f32 × Vec F S1024x512 .f32
  | 0, hn => (mm4_outIdle, mm4_atA V c ⟨0, hn⟩ (Nat.zero_mod 4) (by show ¬0 % 4 = 3; decide))
  | n + 1, hn =>
    if h0 : (n + 1) % 4 = 0 then (mm4_outIdle, mm4_atA V c ⟨n + 1, hn⟩ h0 (by show ¬(n + 1) % 4 = 3; omega))
    else if h1 : (n + 1) % 4 = 3 then (mm4_atO V c ⟨n + 1, hn⟩ h0 h1 (mm4_outsAt n (Nat.lt_of_succ_lt hn)).2, mm4_atC V c ⟨n + 1, hn⟩ h0 h1 (mm4_outsAt n (Nat.lt_of_succ_lt hn)).2)
    else (mm4_outIdle, mm4_atB V c ⟨n + 1, hn⟩ h0 h1 (mm4_outsAt n (Nat.lt_of_succ_lt hn)).2)

theorem mm4_outsAt_A (h0 : t.val % 4 = 0) (h1 : ¬t.val % 4 = 3) :
    mm4_outsAt V c t.val t.isLt = (mm4_outIdle, mm4_atA V c t h0 h1) := by
  obtain ⟨n, hn⟩ := t
  cases n with
  | zero => rfl
  | succ n => exact dif_pos h0

theorem mm4_outsAt_B (h0 : ¬t.val % 4 = 0) (h1 : ¬t.val % 4 = 3) :
    mm4_outsAt V c t.val t.isLt = (mm4_outIdle, mm4_atB V c t h0 h1 (mm4_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_neg h1)

theorem mm4_outsAt_C (h0 : ¬t.val % 4 = 0) (h1 : t.val % 4 = 3) :
    mm4_outsAt V c t.val t.isLt = (mm4_atO V c t h0 h1 (mm4_outsAt V c (t.val - 1) (Nat.lt_of_le_of_lt (Nat.sub_le _ _) t.isLt)).2,
      mm4_atC V c t h0 h1 (mm4_outsAt V c (t.val - 1) (Nat.lt_of_le_of_lt (Nat.sub_le _ _) t.isLt)).2) := by
  obtain ⟨n, hn⟩ := t
  cases n with
  | zero => exact absurd (Nat.zero_mod 4) h0
  | succ n => exact (dif_neg h0).trans (dif_pos h1)

-- The accumulator before point n: arbitrary before the first point, then what point n - 1 left.
def mm4_acc : (n : ℕ) → n ≤ cfg4.N → sProp 𝕄
  | 0, _ => iprop(∃ d, owns (c : Thread nD τ) mm4_sc fullShare d)
  | n + 1, hn => owns (c : Thread nD τ) mm4_sc fullShare (mm4_outsAt V c n hn).2

theorem mm4_acc_any (n : ℕ) (h : n ≤ cfg4.N) : mm4_acc V c n h ⊢ iprop(∃ d, owns (c : Thread nD τ) mm4_sc fullShare d) := by
  cases n with
  | zero => exact Idealize.SL.BI.Entails.refl _
  | succ n => unfold mm4_acc; iintro H; iexists _; iexact H

theorem mm4_acc_pos (n : ℕ) (h : n ≤ cfg4.N) (h0 : ¬n % 4 = 0) :
    mm4_acc V c n h = owns (c : Thread nD τ) mm4_sc fullShare (mm4_outsAt V c (n - 1) (by omega)).2 := by
  cases n with
  | zero => exact absurd (Nat.zero_mod 4) h0
  | succ n => rfl

-- The invariant between points; P is what it says of the accumulator.
def mm4_inv (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

def mm4_dat : Dat τ (Elt F) Unit ℕ (UR sig nD τ) ℕ cfg4 c where
  A w := V c (Pipeline.arrRef spec4 w)
  after w t := match w with
    | ⟨0, _⟩ => mm4_iblk V c 0 t
    | ⟨1, _⟩ => mm4_iblk V c 1 t
    | ⟨2, _⟩ => (mm4_outsAt V c t.val t.isLt).1
  Φ t := mm4_inv c (mm4_acc V c t.val (Nat.le_of_lt_succ t.isLt))
  q _ := fullShare
  owed _ := 0

theorem mm4_A_eq (w : Fin cfg4.W) : (mm4_dat V c).A w = V c (Pipeline.arrRef spec4 w) := rfl

theorem mm4_after2 : (mm4_dat V c).after 2 t = (mm4_outsAt V c t.val t.isLt).1 := rfl

theorem mm4_before0 (d) : (mm4_dat V c).before 0 t d = mm4_iblk V c 0 t :=
  ((mm4_dat V c).before_in_eq_fetched 0 rfl (fun _ => rfl) (fun _ _ _ => rfl) (fun _ => rfl) t d).trans rfl
theorem mm4_before1 (d) : (mm4_dat V c).before 1 t d = mm4_iblk V c 1 t :=
  ((mm4_dat V c).before_in_eq_fetched 1 rfl (fun _ => rfl) (fun _ _ _ => rfl) (fun _ => rfl) t d).trans rfl

theorem mm4_leaves (w : Fin cfg4.W) (h : cfg4.idle w (grid4.coords t) = false) :
    (mm4_dat V c).leavesExact w t = owns (c : Thread nD τ) ((cfg4.win w).stage (cfg4.slots t w)) fullShare ((mm4_dat V c).after w t) := by
  unfold Dat.leavesExact; rw [h]

-- By cases on the point's position modulo 4.
theorem mm4_sound_body :
    iprop((mm4_dat V c).Φ t.castSucc ∗ (mm4_dat V c).owesAt () t.castSucc
        ∗ (∃ d, owns (c : Thread nD τ) (mm4_m0 t) fullShare ((mm4_dat V c).before 0 t d))
        ∗ (∃ d, owns (c : Thread nD τ) (mm4_m1 t) fullShare ((mm4_dat V c).before 1 t d))
        ∗ (∃ d, owns (c : Thread nD τ) (mm4_m2 t) fullShare ((mm4_dat V c).before 2 t d)))
      ⊢ wp frame (wpE (defs₀ (F := F)) Variants.none c none) Set.univ (bodyAt4 t) fun _ =>
        iprop((mm4_dat V c).Φ t.succ ∗ (mm4_dat V c).owesAt () t.succ
          ∗ (mm4_dat V c).leavesExact 0 t ∗ (mm4_dat V c).leavesExact 1 t ∗ (mm4_dat V c).leavesExact 2 t) := by
  unfold bodyAt4
  simp only [mm4_before0, mm4_before1]
  rw [show (mm4_dat V c).owesAt () t.succ = (mm4_dat V c).owesAt () t.castSucc from rfl,
    show (mm4_dat V c).Φ t.succ = mm4_inv c (owns (c : Thread nD τ) mm4_sc fullShare (mm4_outsAt V c t.val t.isLt).2) from rfl,
    show (mm4_dat V c).Φ t.castSucc = mm4_inv c (mm4_acc V c t.val (Nat.le_of_lt t.isLt)) from rfl,
    mm4_leaves V c t 0 (mm4_live0 t), mm4_leaves V c t 1 (mm4_live1 t),
    show (mm4_dat V c).after 0 t = mm4_iblk V c 0 t from rfl, show (mm4_dat V c).after 1 t = mm4_iblk V c 1 t from rfl]
  unfold mm4_inv
  by_cases h1 : t.val % 4 = 3
  · have h0 : ¬t.val % 4 = 0 := by omega
    rw [mm4_acc_pos V c _ _ h0, mm4_leaves V c t 2 (mm4_live2 t ((mm4_last_iff t).mpr h1)), mm4_after2, mm4_outsAt_C V c t h0 h1]
    unfold mm4_atO mm4_atC mm4_outC mm4_soutC; dsimp only
    iintro ⟨⟨⟨HS0, HR⟩, Hg⟩, Ho, ⟨%d0, H0⟩, ⟨%d1, H1⟩, ⟨%d2, H2⟩⟩
    iapply ((mm4_runC _ _ _ _ _ _ _ _ _ _ (fun h => h0 ((mm4_first_iff t).mp h)) ((mm4_last_iff t).mpr h1) _ _ _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (mm4_scoverC c _ _ _ _ _ _ _ _ _ _ _ _ _ _)
    unfold owns; iexists _; isplitr
    swap; · iexact H2
    ipureintro; exact View.read_writes_of_cover _ _ _ _ _ (mm4_coverC c _ _ _ _ _ _ _ _ _ _ _ _ _ _)
  have hl : ¬mm4_last (grid4.coords t) := fun h => h1 ((mm4_last_iff t).mp h)
  rw [Dat.leavesExact_idle (mm4_dat V c) 2 t (mm4_idle2 t hl) (mm4_noflush2 t hl)]
  by_cases h0 : t.val % 4 = 0
  · rw [mm4_outsAt_A V c t h0 h1]
    unfold mm4_atA mm4_soutA; dsimp only
    iintro ⟨⟨⟨HS0, HR⟩, Hg⟩, Ho, ⟨%d0, H0⟩, ⟨%d1, H1⟩, ⟨%d2, H2⟩⟩
    iapply ((mm4_runA _ _ _ _ _ _ _ _ _ _ ((mm4_first_iff t).mpr h0) hl _ _).2 _ Set.univ _)
    iframe H0 H1 H2
    isplitl [HS0]; · iapply (mm4_acc_any V c _ _); iexact HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm4_scoverA c _ _ _ _ _ _ _ _ _ _ _ _ _)
    iexists _; iexact H2
  · rw [mm4_acc_pos V c _ _ h0, mm4_outsAt_B V c t h0 h1]
    unfold mm4_atB mm4_soutB; dsimp only
    iintro ⟨⟨⟨HS0, HR⟩, Hg⟩, Ho, ⟨%d0, H0⟩, ⟨%d1, H1⟩, ⟨%d2, H2⟩⟩
    iapply ((mm4_runB _ _ _ _ _ _ _ _ _ _ (fun h => h0 ((mm4_first_iff t).mp h)) hl _ _ _).2 _ Set.univ _)
    iframe H0 H1 H2 HS0
    iintro ⟨H0, H1, H2, ⟨%es0, HS0⟩⟩
    iframe HR Hg Ho H0 H1
    isplitl [HS0]
    · unfold owns; iexists _; isplitr
      swap; · iexact HS0
      ipureintro; exact View.read_writes_of_cover _ _ _ _ _ (mm4_scoverB c _ _ _ _ _ _ _ _ _ _ _ _ _ _)
    iexists _; iexact H2

theorem mm4_body_obligation : BodyObligation (mm4_dat (F := F) V c) (defs₀ (F := F)) Variants.none () Set.univ := fun t => by
  rw [bigSep_W4, bigSep_W4]
  exact mm4_sound_body V c t

theorem mm4_hin : Pipeline.ΦA spec4 c ⊢ (mm4_dat V c).Φ 0 := Entails.of_eq (mm4_PhiA_eq c)

theorem mm4_hout : (mm4_dat V c).Φ (Fin.last cfg4.N) ⊢ Pipeline.ΦA spec4 c := by
  rw [mm4_PhiA_eq]
  exact sep_mono_left (sep_mono_left (mm4_acc_any V c _ _))

theorem mm4_hin' (P : sProp 𝕄) :
    iprop((∃ r, prngReg c r) ∗ P ∗ Pipeline.scopedRest (Ix := Unit) (Name := ℕ) (U := UR sig nD τ) (Lvl := ℕ) (Val := Elt F) spec4 c) ⊢ (mm4_dat V c).Φ 0 := by
  refine BIBase.Entails.trans ?_ (mm4_hin V c)
  unfold Pipeline.ΦA
  iintro ⟨Hp, -, Hr⟩
  iframe

theorem mm4_hout' :
    (mm4_dat V c).Φ (Fin.last cfg4.N) ⊢ iprop((∃ r, prngReg c r) ∗ (BI.emp : sProp 𝕄) ∗ Pipeline.scopedRest (Ix := Unit) (Name := ℕ) (U := UR sig nD τ) (Lvl := ℕ) (Val := Elt F) spec4 c) := by
  refine BIBase.Entails.trans (mm4_hout V c) ?_
  unfold Pipeline.ΦA
  iintro ⟨Hr, Hp⟩
  iframe; iempintro

end Cert.Kernel.Hand

end
-- ==== Proof.BRegs.lean ====
import proofs.«403689_j2439541424354_3_alg».proof.Proof.Gen.Kernel.Regions
import proofs.«403689_j2439541424354_3_alg».proof.Proof.BMmDat0
import proofs.«403689_j2439541424354_3_alg».proof.Proof.BMmDat1
import proofs.«403689_j2439541424354_3_alg».proof.Proof.BMmDat2
import proofs.«403689_j2439541424354_3_alg».proof.Proof.BMmDat4
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI Idealize.SL.BI.BIBase
open scoped Idealize.SL.BI
open Idealize.SL.ProofMode
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (outs : Outs (F := F))

abbrev 𝒱₀ : Variants := Variants.none
abbrev Lz : GSem nD τ sig → Finset Unit := fun _ => ∅
abbrev lvz : GSem nD τ sig → Unit → ℕ := fun _ _ => 0
-- What passes unchanged beside the buffers through every item of @main.
abbrev Rst (c : Dev nD) : sProp 𝕄 := iprop((∃ r, prngReg c r) ∗ ∃ W, owes (c : Thread nD τ) (0 : CellTallies nD τ sig Unit) W)

abbrev En0 : (c : Dev nD) → (b : Ref sig .tc) → Buf (Elt F) ((c : Thread nD τ).loc b) := fun c b => V1 m c b
abbrev En1 : (c : Dev nD) → (b : Ref sig .tc) → Buf (Elt F) ((c : Thread nD τ).loc b) := fun c b => V2 m outs c b
abbrev En2 : (c : Dev nD) → (b : Ref sig .tc) → Buf (Elt F) ((c : Thread nD τ).loc b) := fun c b => V3 m outs c b
abbrev En3 : (c : Dev nD) → (b : Ref sig .tc) → Buf (Elt F) ((c : Thread nD τ).loc b) := fun c b => V5 m outs c b
abbrev Ex3 : (c : Dev nD) → (b : Ref sig .tc) → Buf (Elt F) ((c : Thread nD τ).loc b) := fun c b => V6 m outs c b
abbrev En4 : (c : Dev nD) → (b : Ref sig .tc) → Buf (Elt F) ((c : Thread nD τ).loc b) := fun c b => V7 m outs c b

-- A region entered with every unscoped buffer at Vi and left with them at Vo, given how its arrays split off those buffers and join them again.
def mkReg (pd : (p : Fin 5) → (c : Dev nD) → Dat τ (Elt F) Unit ℕ (UR sig nD τ) ℕ (cfgs p) c) (p : Fin 5)
    (Vi Vo : Dev nD → Valuation τ sig (Elt F))
    (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, BodyObligation (pd p c) (defs₀ (F := F)) 𝒱₀ () Set.univ) (howed : ∀ c t, (pd p c).owed t = 0)
    (hrec : ∀ c, (pd p c).recorded 0 = Set.univ)
    (hsplit : ∀ c, (unscopedBufs c (fun b => Vi c b) : sProp 𝕄)
      ⊢ iprop((pd p c).arrays ((pd p c).arrAt · 0) ∗ Pipeline.unscopedRest (cfgs p).spec c fun b => Vi c b))
    (hjoin : ∀ c, iprop((pd p c).arrays ((pd p c).arrAt · (cfgs p).N) ∗ Pipeline.unscopedRest (cfgs p).spec c fun b => Vi c b)
      ⊢ (unscopedBufs c (fun b => Vo c b) : sProp 𝕄))
    (hin : ∀ c (P : sProp 𝕄), iprop((∃ r, prngReg c r) ∗ P ∗ Pipeline.scopedRest (cfgs p).spec c) ⊢ (pd p c).Φ 0)
    (hout : ∀ c, (pd p c).Φ (Fin.last (cfgs p).N) ⊢ iprop((∃ r, prngReg c r) ∗ (BI.emp : sProp 𝕄) ∗ Pipeline.scopedRest (cfgs p).spec c)) :
    Pipeline.RegionSeg (pcfgs (F := F)) adm pd () defs₀ 𝒱₀ Lz lvz p where
  win := win
  block_pos := block_pos
  stage_whole := stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Vi c) ∗ Rst c)
  post c := iprop(StableHlo.held (c : Thread nD τ) (Pipeline.ucRefs τ sig) (Vo c) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := hin c _
  hout c := by
    rw [Pipeline.ownSems0_none]
    exact hout c
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [howed c]
    icases HO with ⟨%W, -, HO⟩; iexists W; iexact HO

-- The same for a region whose arrays are distinct whole buffers at the full share and whose one output window is wo: off that window's buffer nothing changes.
def mkRegW (pd : (p : Fin 5) → (c : Dev nD) → Dat τ (Elt F) Unit ℕ (UR sig nD τ) ℕ (cfgs p) c) (p : Fin 5)
    (Vi Vo : Dev nD → Valuation τ sig (Elt F)) (lf : Pipeline.LaunchFacts (nD := nD) (τ := τ) cfgs p) (wo : Fin (cfgs p).W)
    (hbody : ∀ c, BodyObligation (pd p c) (defs₀ (F := F)) 𝒱₀ () Set.univ) (howed : ∀ c t, (pd p c).owed t = 0)
    (hrec : ∀ c, (pd p c).recorded 0 = Set.univ) (hq : ∀ c w, (pd p c).q w = fullShare)
    (hA : ∀ c w, (pd p c).A w = Vi c (Pipeline.arrRef (cfgs p).spec w))
    (hVo : ∀ c (b : Ref sig .tc), b ≠ Pipeline.arrRef (cfgs p).spec wo → Vo c b = Vi c b)
    (hio : ∀ w, ((cfgs p).win w).isOut = false → Pipeline.arrRef (cfgs p).spec w ≠ Pipeline.arrRef (cfgs p).spec wo)
    (hoo : ∀ w, ((cfgs p).win w).isOut = true → w = wo)
    (ho : ∀ c, (pd p c).arrAt wo (cfgs p).N = Vo c (Pipeline.arrRef (cfgs p).spec wo))
    (hin : ∀ c (P : sProp 𝕄), iprop((∃ r, prngReg c r) ∗ P ∗ Pipeline.scopedRest (cfgs p).spec c) ⊢ (pd p c).Φ 0)
    (hout : ∀ c, (pd p c).Φ (Fin.last (cfgs p).N) ⊢ iprop((∃ r, prngReg c r) ∗ (BI.emp : sProp 𝕄) ∗ Pipeline.scopedRest (cfgs p).spec c)) :
    Pipeline.RegionSeg (pcfgs (F := F)) adm pd () defs₀ 𝒱₀ Lz lvz p :=
  mkReg pd p Vi Vo lf.win.to₀ lf.block_pos lf.stage_whole hbody howed hrec
    (fun c => Pipeline.arrays_of_unscopedBufs (p := p) (pcfgs (F := F)) adm pd lf.win lf.arr_whole c ((pd p c).share_full (hq c)) (fun b => Vi c b) (hA c))
    (fun c => Pipeline.unscopedBufs_of_arrays (p := p) (pcfgs (F := F)) adm (Ix := Unit) (Name := ℕ) (U := UR sig nD τ) (Lvl := ℕ)
      lf.win lf.arr_whole c pd ((pd p c).share_full (hq c)) (fun b => Vi c b) (fun b => Vo c b) _
      (fun w => by
        cases h : ((cfgs p).win w).isOut
        · exact ((pd p c).arrAt_in w h _).trans ((hA c w).trans (hVo c _ (hio w h)).symm)
        · obtain rfl := hoo w h; exact ho c)
      fun b hb => hVo c b fun e => hb (Finset.mem_image.mpr ⟨wo, Finset.mem_univ _, e.symm⟩))
    hin hout

variable (d3 : (c : Dev nD) → Dat τ (Elt F) Unit ℕ (UR sig nD τ) ℕ cfg3 c)

def pdats : (p : Fin 5) → (c : Dev nD) → Dat τ (Elt F) Unit ℕ (UR sig nD τ) ℕ (cfgs p) c
  | ⟨0, _⟩ => fun c => mm0_dat (En0 m) c
  | ⟨1, _⟩ => fun c => mm1_dat (En1 m outs) c
  | ⟨2, _⟩ => fun c => mm2_dat (En2 m outs) c
  | ⟨3, _⟩ => fun c => d3 c
  | ⟨4, _⟩ => fun c => mm4_dat (En4 m outs) c

-- The unknowns of the fold are what the regions leave: each result buffer holds its output window's array after the last point.
structure OutsOk : Prop where
  o0 : ∀ c : Dev nD, outs 2 main_v1 c = (mm0_dat (En0 m) c).arrAt 2 cfg0.N
  o1 : ∀ c : Dev nD, outs 3 main_v2 c = (mm1_dat (En1 m outs) c).arrAt 2 cfg1.N
  o2 : ∀ c : Dev nD, outs 4 main_v3 c = (mm2_dat (En2 m outs) c).arrAt 2 cfg2.N
  o3w : ∀ c : Dev nD, outs 6 main_v7_0 c = (d3 c).arrAt 8 cfg3.N
  o3o : ∀ c : Dev nD, outs 6 main_v7_1 c = (d3 c).arrAt 9 cfg3.N
  o4 : ∀ c : Dev nD, outs 8 main_v9 c = (mm4_dat (En4 m outs) c).arrAt 2 cfg4.N

def reg0 (ho : OutsOk m outs d3) : Pipeline.RegionSeg (pcfgs (F := F)) adm (pdats m outs d3) () defs₀ 𝒱₀ Lz lvz 0 :=
  mkRegW (pdats m outs d3) 0 (V1 m) (V2 m outs) launch0 2 (mm0_body_obligation (En0 m)) (fun _ _ => rfl) (fun _ => rfl) (fun _ _ => rfl)
    (fun _ _ => rfl) (fun c b h => V2_of m outs c b (mt List.mem_singleton.mp h)) (by decide) (by decide)
    (fun c => (ho.o0 c).symm.trans (show outs 2 main_v1 c = V2 m outs c main_v1 from by simp only [V2, Function.update_self]))
    (mm0_hin' (En0 m)) (mm0_hout' (En0 m))

def reg1 (ho : OutsOk m outs d3) : Pipeline.RegionSeg (pcfgs (F := F)) adm (pdats m outs d3) () defs₀ 𝒱₀ Lz lvz 1 :=
  mkRegW (pdats m outs d3) 1 (V2 m outs) (V3 m outs) launch1 2 (mm1_body_obligation (En1 m outs)) (fun _ _ => rfl) (fun _ => rfl) (fun _ _ => rfl)
    (fun _ _ => rfl) (fun c b h => V3_of m outs c b (mt List.mem_singleton.mp h)) (by decide) (by decide)
    (fun c => (ho.o1 c).symm.trans (show outs 3 main_v2 c = V3 m outs c main_v2 from by simp only [V3, Function.update_self]))
    (mm1_hin' (En1 m outs)) (mm1_hout' (En1 m outs))

def reg2 (ho : OutsOk m outs d3) : Pipeline.RegionSeg (pcfgs (F := F)) adm (pdats m outs d3) () defs₀ 𝒱₀ Lz lvz 2 :=
  mkRegW (pdats m outs d3) 2 (V3 m outs) (V4 m outs) launch2 2 (mm2_body_obligation (En2 m outs)) (fun _ _ => rfl) (fun _ => rfl) (fun _ _ => rfl)
    (fun _ _ => rfl) (fun c b h => V4_of m outs c b (mt List.mem_singleton.mp h)) (by decide) (by decide)
    (fun c => (ho.o2 c).symm.trans (show outs 4 main_v3 c = V4 m outs c main_v3 from by simp only [V4, Function.update_self]))
    (mm2_hin' (En2 m outs)) (mm2_hout' (En2 m outs))

def reg4 (ho : OutsOk m outs d3) : Pipeline.RegionSeg (pcfgs (F := F)) adm (pdats m outs d3) () defs₀ 𝒱₀ Lz lvz 4 :=
  mkRegW (pdats m outs d3) 4 (V7 m outs) (V8 m outs) launch4 2 (mm4_body_obligation (En4 m outs)) (fun _ _ => rfl) (fun _ => rfl) (fun _ _ => rfl)
    (fun _ _ => rfl) (fun c b h => V8_of m outs c b (mt List.mem_singleton.mp h)) (by decide) (by decide)
    (fun c => (ho.o4 c).symm.trans (show outs 8 main_v9 c = V8 m outs c main_v9 from by simp only [V8, Function.update_self]))
    (mm4_hin' (En4 m outs)) (mm4_hout' (En4 m outs))

end Cert.Kernel.Hand

end
-- ==== Proof.BKRun.lean ====
import proofs.«403689_j2439541424354_3_alg».proof.Proof.BRegs

set_option maxRecDepth 16384

noncomputable section

namespace Cert.Kernel.Hand

open Cert.Kernel Cert.Kernel.Gen
open Idealize.ShloMosaic Idealize.ShloMosaic.TcCoe
open Idealize.SL Idealize.SL.BI Idealize.SL.BI.BIBase
open scoped Idealize.SL.BI
open Idealize.SL.BI.Laws Idealize.SL.ProofMode Idealize.SL.Sem
open Idealize.ShloMosaic.Rounds
open Idealize.ShloMosaic.Pipeline (Dat Seg)

variable {F : FTy → Type} [FloatOps F]

variable (m : (ℓ : Loc nD τ sig) → Buf (Elt F) ℓ)

local notation "𝕄" => MT nD τ sig Unit (Elt F) ℕ (UR sig nD τ) ℕ

-- What a core is dealt at launch makes its first thread state.
theorem init_of_launch (ρ : Dev nD → PrngReg) (c : Dev nD) :
    (iprop((unscopedBufs c (fun b => V0 m c b) ∗ unscopedSems0 c ∗ owes (c.tc : Thread nD τ) ((0 : Dev nD → CellTallies nD τ sig Unit) c) ∅
        ∗ Pipeline.launchCred (0 : Dev nD → CellTallies nD τ sig Unit) c ∗ prngReg c (ρ c) ∗ iprop(emp)) ∗ levAts Lz lvz) : sProp 𝕄)
      ⊢ |={Set.univ}=> iprop(StableHlo.held (c : Thread nD τ) (Pipeline.ucRefs τ sig) (V0 m c) ∗ Rst c) := by
  rw [← Pipeline.unscopedBufs_held (Ix := Unit) (Name := ℕ) (U := UR sig nD τ) (Lvl := ℕ) c (V0 m c)]
  iintro ⟨⟨Hb, -, HO, -, Hp, -⟩, -⟩
  imodintro
  isplitl [Hb]; · iexact Hb
  isplitl [Hp]; · iexists _; iexact Hp
  iexists ∅; iexact HO

-- Every weakly fair execution of @main terminates with every unscoped buffer at the fold's last contents.
theorem run_of (ρ : Dev nD → PrngReg) (outs : Outs (F := F))
    (d3 : (c : Dev nD) → Dat τ (Elt F) Unit ℕ (UR sig nD τ) ℕ cfg3 c) (ho : OutsOk m outs d3)
    (R3 : Pipeline.RegionSeg (pcfgs (F := F)) adm (pdats m outs d3) () defs₀ 𝒱₀ Lz lvz 3)
    (hpre3 : ∀ c : Dev nD, iprop(StableHlo.held (c : Thread nD τ) (Pipeline.ucRefs τ sig) (V5 m outs c) ∗ Rst c) ⊢ R3.pre c)
    (hpost3 : ∀ c : Dev nD, R3.post c ⊢ iprop(StableHlo.held (c : Thread nD τ) (Pipeline.ucRefs τ sig) (V6 m outs c) ∗ Rst c)) :
    θ_run defs (onTc (τ := τ) (main (F := F))) ⟨m, fun _ => 0, ρ⟩ (fun r => ∀ c : Dev nD, ∀ b ∈ Pipeline.ucRefs τ sig,
      r.2.mem ((c : Thread nD τ).1, b) = V9 m outs c b) := by
  refine Pipeline.θ_run_regions_kit_dev (pcfgs (F := F)) adm (pdats m outs d3) () cellOf_inj emb₁ defs₀ 𝒱₀ Lz lvz m ρ main
    (segs m outs 𝒱₀ Lz lvz (fun _ c => Rst c) () (pdats m outs d3) (reg0 m outs d3 ho) (reg1 m outs d3 ho) (reg2 m outs d3 ho) R3 (reg4 m outs d3 ho))
    (fun c Q => by
      rewrite [main_chain c, Seg.run_eq_chain]
      exact .rfl)
    (fun c => by simp only [segs, Seg.pipes_host, Seg.pipes_region, Seg.pipes_nil]; decide) 0 (fun _ _ => rfl) (fun _ => (BI.emp : sProp 𝕄))
    (initOf (Pipeline.cells cfgs cellOf_inj) (Pipeline.launchToks cfgs cellOf_inj)) ?_
    (T₀ := fun c => iprop(StableHlo.held (c : Thread nD τ) (Pipeline.ucRefs τ sig) (V0 m c) ∗ Rst c))
    (Tₙ := fun c => StableHlo.held (c : Thread nD τ) (Pipeline.ucRefs τ sig) (V9 m outs c))
    (hch := fun c => ⟨.rfl, .rfl, .rfl, .rfl, .rfl, hpre3 c, hpost3 c, .rfl, .rfl, sep_mono .rfl (by iintro ⟨-, H⟩; iexact H)⟩)
    (hinit := Pipeline.initEach Lz lvz (init_of_launch m ρ)) (QY := fun c s => ∀ b ∈ Pipeline.ucRefs τ sig, s.mem ((c : Thread nD τ).1, b) = V9 m outs c b)
    (hfin := fun c s' => ?_) (hQ := fun _ h => h)
  · rw [BI.bigSep_emp_const]
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iempintro
  · unfold StableHlo.held
    iintro H
    imodintro
    iapply pointsTo_read_all (Pipeline.ucRefs τ sig) (fun b => ((c : Thread nD τ).1, b)) (V9 m outs c) s'
    iexact H

end Cert.Kernel.Hand

end
-- ==== Proof.BAtRun.lean ====
import proofs.«403689_j2439541424354_3_alg».proof.Proof.Gen.Kernel.Launch
import proofs.«403689_j2439541424354_3_alg».proof.Proof.Gen.Kernel.Skeleton
import proofs.«403689_j2439541424354_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.Sem
open scoped Idealize.SL.BI

variable {F : FTy → Type} [FloatOps F]

local notation "𝕄" => MT nD τ sig Unit (Elt F) ℕ (UR sig nD τ) ℕ

variable (x0 : Vec F S1x256x128 .f32) (x1 x2 : Vec F S1x2048x128 .f32) (x3 x4 : Vec F S1x256x128 .f32) (x5 x6 : Vec F S1x2048x128 .f32) (x7 : Vec F S1x1x256x2048 .f32)

-- The softmax weights block and the attended block, from the eight input blocks.
def at3_outW : Vec F S1x1x256x2048 .f32 :=
  k3_pay2 (k3_pay5 x0 x3 x4) (k3_pay6 x1 x5 x6) (constant S256x2048 .f32 0x00000000#32) x7

def at3_outO : Vec F S1x256x128 .f32 :=
  k3_pay3 (k3_pay4 x2) (k3_pay5 x0 x3 x4) (k3_pay6 x1 x5 x6) (constant S256x2048 .f32 0x00000000#32) x7

theorem at3_hz3 : (![0, 0, 0] : Fin 3 → Nat) = fun _ => 0 := funext fun a => by fin_cases a <;> rfl
theorem at3_hz4 : (![0, 0, 0, 0] : Fin 4 → Nat) = fun _ => 0 := funext fun a => by fin_cases a <;> rfl

set_option maxHeartbeats 1000000 in
-- Run on whole blocks, the body returns the input blocks as found and the two output blocks as functions of them.
theorem at3_sound {c : Dev nD} {E : Set ℕ} {i : grid3.Coords} {arg3 arg6 arg7 arg12 : Memref sig .tc .vmem S1x256x128 .f32}
    {arg4 arg5 arg8 arg9 : Memref sig .tc .vmem S1x2048x128 .f32} {arg10 arg11 : Memref sig .tc .vmem S1x1x256x2048 .f32}
    {harg3 : arg3.IsWhole} {harg4 : arg4.IsWhole} {harg5 : arg5.IsWhole} {harg6 : arg6.IsWhole} {harg7 : arg7.IsWhole}
    {harg8 : arg8.IsWhole} {harg9 : arg9.IsWhole} {harg10 : arg10.IsWhole} {harg11 : arg11.IsWhole} {harg12 : arg12.IsWhole}
    {K : PUnit → sProp 𝕄} :
    iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7
        ∗ (∃ d, owns c arg11 fullShare d) ∗ (∃ d, owns c arg12 fullShare d)
        ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7
            ∗ owns c arg11 fullShare (at3_outW x0 x1 x3 x4 x5 x6 x7) ∗ owns c arg12 fullShare (at3_outO x0 x1 x2 x3 x4 x5 x6 x7)) -∗ K ⟨⟩))
      ⊢ wp frame (wpE (defs₀ (F := F)) Variants.none c none) E (cc3__attn_kernel i arg3 harg3 arg4 harg4 arg5 harg5 arg6 harg6 arg7 harg7 arg8 harg8 arg9 harg9 arg10 harg10 arg11 harg11 arg12 harg12) K := by
  simp only [cc3__attn_kernel_eq_skeleton]; unfold cc3__attn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  iexists _; isplitr; swap; iexact H8
  swap
  iexists _; isplitr; swap; iexact H9
  all_goals ipureintro
  rw [View.read_writes_eq_canon _ _ _ (fun y => ⟨_, List.mem_singleton_self _, View.mem_set_unit_zero at3_hz3 inb_S1x256x128_S1x256x128_0_0_0 y⟩), View.canon_unit_zero at3_hz3]
  swap
  rw [View.read_writes_eq_canon _ _ _ (fun y => ⟨_, List.mem_singleton_self _, View.mem_set_unit_zero at3_hz4 inb_S1x1x256x2048_S1x1x256x2048_0_0_0_0 y⟩), View.canon_unit_zero at3_hz4]
  all_goals
    dsimp only
    sl_unfold_run_names
    simp only [View.readAt_eq_ld, View.ld_unit_zero (S := S1x256x128) at3_hz3, View.ld_unit_zero (S := S1x2048x128) at3_hz3, View.ld_unit_zero (S := S1x1x256x2048) at3_hz4]
    rfl

end Cert.Kernel.Hand

end
-- ==== Proof.BAtDat.lean ====
import proofs.«403689_j2439541424354_3_alg».proof.Proof.BAtRun

set_option maxRecDepth 16384

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b)) (c : Dev nD)

def at3_iblk (w : Fin cfg3.W) (t : Fin cfg3.N) : ((cfg3.win w).xblock (cfg3.grid.coords t)).Idx → Elt F (cfg3.win w).elt :=
  ((cfg3.win w).blk t).view.read (Elt F) (V c (Pipeline.arrRef spec3 w))

-- The body leaves each input block in place and the two output blocks as functions of the point's input blocks.
def at3_dat : Dat τ (Elt F) Unit ℕ (UR sig nD τ) ℕ cfg3 c where
  A w := V c (Pipeline.arrRef spec3 w)
  after w t := match w with
    | ⟨0, _⟩ => at3_iblk V c 0 t
    | ⟨1, _⟩ => at3_iblk V c 1 t
    | ⟨2, _⟩ => at3_iblk V c 2 t
    | ⟨3, _⟩ => at3_iblk V c 3 t
    | ⟨4, _⟩ => at3_iblk V c 4 t
    | ⟨5, _⟩ => at3_iblk V c 5 t
    | ⟨6, _⟩ => at3_iblk V c 6 t
    | ⟨7, _⟩ => at3_iblk V c 7 t
    | ⟨8, _⟩ => at3_outW (at3_iblk V c 0 t) (at3_iblk V c 1 t) (at3_iblk V c 3 t) (at3_iblk V c 4 t) (at3_iblk V c 5 t) (at3_iblk V c 6 t) (at3_iblk V c 7 t)
    | ⟨9, _⟩ => at3_outO (at3_iblk V c 0 t) (at3_iblk V c 1 t) (at3_iblk V c 2 t) (at3_iblk V c 3 t) (at3_iblk V c 4 t) (at3_iblk V c 5 t) (at3_iblk V c 6 t) (at3_iblk V c 7 t)
  Φ _ := Pipeline.ΦA spec3 c
  q := fun
    | ⟨3, _⟩ | ⟨4, _⟩ => fullShare.left
    | ⟨5, _⟩ | ⟨6, _⟩ => fullShare.right
    | _ => fullShare
  owed _ := 0

theorem at3_A_eq (w : Fin cfg3.W) : (at3_dat V c).A w = V c (Pipeline.arrRef spec3 w) := rfl

-- What the body is handed for an input window at a point is that window's block there.
theorem at3_before (t : Fin cfg3.N) :
    (∀ d, (at3_dat V c).before 0 t d = at3_iblk V c 0 t) ∧ (∀ d, (at3_dat V c).before 1 t d = at3_iblk V c 1 t) ∧ (∀ d, (at3_dat V c).before 2 t d = at3_iblk V c 2 t) ∧ (∀ d, (at3_dat V c).before 3 t d = at3_iblk V c 3 t) ∧ (∀ d, (at3_dat V c).before 4 t d = at3_iblk V c 4 t) ∧ (∀ d, (at3_dat V c).before 5 t d = at3_iblk V c 5 t) ∧ (∀ d, (at3_dat V c).before 6 t d = at3_iblk V c 6 t) ∧ (∀ d, (at3_dat V c).before 7 t d = at3_iblk V c 7 t) := by
  refine ⟨?_, ?_, ?_, ?_, ?_, ?_, ?_, ?_⟩ <;> intro d <;>
    exact (at3_dat V c).before_in_eq_fetched _ rfl (fun _ => rfl) (fun _ _ _ => rfl) (fun _ => rfl) t d

theorem at3_body_obligation : BodyObligation (at3_dat (F := F) V c) (defs₀ (F := F)) Variants.none () Set.univ := fun t => by
  rw [bigSep_W3, bigSep_W3]
  obtain ⟨b0, b1, b2, b3, b4, b5, b6, b7⟩ := at3_before V c t
  simp only [b0, b1, b2, b3, b4, b5, b6, b7]
  show _ ⊢ wp _ _ _ (bodyAt3 t) fun _ => iprop(_ ∗ (at3_dat V c).owesAt () t.castSucc ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  dsimp only [at3_dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply at3_sound (at3_iblk V c 0 t) (at3_iblk V c 1 t) (at3_iblk V c 2 t) (at3_iblk V c 3 t) (at3_iblk V c 4 t) (at3_iblk V c 5 t) (at3_iblk V c 6 t) (at3_iblk V c 7 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro H
  isplitl [HΦ]; · iexact HΦ
  isplitl [Ho]; · iexact Ho
  iexact H

end Cert.Kernel.Hand

end
-- ==== Proof.BSh3.lean ====
import proofs.«403689_j2439541424354_3_alg».proof.Proof.Gen.Kernel.Launch

set_option maxRecDepth 16384

noncomputable section

namespace Cert.Kernel.Hand

open Cert.Kernel Cert.Kernel.Gen
open Idealize.ShloMosaic Idealize.ShloMosaic.TcCoe
open Idealize.SL Idealize.SL.RA Idealize.SL.BI Idealize.SL.BI.BIBase
open scoped Idealize.SL.BI
open Idealize.SL.BI.Laws Idealize.SL.ProofMode
open Idealize.ShloMosaic.Pipeline (Dat)

variable {F : FTy → Type} [FloatOps F]

local notation "𝕄" => MT nD τ sig Unit (Elt F) ℕ (UR sig nD τ) ℕ

-- The whole buffer behind r on core c, at share q and contents V r.
abbrev pt3 (c : Dev nD) (V : (b : Ref sig .tc) → Buf (Elt F) ((c : Thread nD τ).loc b)) (q : PosShare TreeShare) (r : Ref sig .tc) : sProp 𝕄 :=
  ((c : Thread nD τ).loc r) ↦{q} V r

theorem sh3_arrBufs_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop(pt3 c V fullShare main_v4 ∗ pt3 c V fullShare main_v5
          ∗ pt3 c V fullShare main_v6 ∗ pt3 c V fullShare main_arg1
          ∗ pt3 c V fullShare main_arg2 ∗ pt3 c V fullShare main_arg3
          ∗ pt3 c V fullShare main_v7_0 ∗ pt3 c V fullShare main_v7_1) := by
  unfold Pipeline.arrBufs
  exact bigSep_eq_bigSepL_of_eq [main_v4, main_v5, main_v6, main_arg1, main_arg2, main_arg3, main_v7_0, main_v7_1] (by decide) (by decide) _

-- The share each window holds its array at: an array read through two windows is halved between them.
def sh3 : Fin cfg3.W → PosShare TreeShare
  | ⟨3, _⟩ | ⟨4, _⟩ => fullShare.left
  | ⟨5, _⟩ | ⟨6, _⟩ => fullShare.right
  | _ => fullShare

theorem sh3_win_pt (c : Dev nD) (dat : Dat τ (Elt F) Unit ℕ (UR sig nD τ) ℕ cfg3 c) (w : Fin cfg3.W) (q : PosShare TreeShare) (hq : dat.share w = q)
    (f : Buf (Elt F) (((cfg3.win w).arr.view.loc (c : Thread nD τ)))) :
    (((cfg3.win w).arr.view.loc (c : Thread nD τ)) ↦[(cfg3.win w).arr.view.set]{dat.share w} f : sProp 𝕄)
      = (((c : Thread nD τ).loc (Pipeline.arrRef spec3 w)) ↦{q} f) := by
  rw [(arr_whole3 w).set_eq_univ, hq]

theorem sh3_arrays_eq (c : Dev nD) (dat : Dat τ (Elt F) Unit ℕ (UR sig nD τ) ℕ cfg3 c) (hq : ∀ w, dat.share w = sh3 w)
    (V : (b : Ref sig .tc) → Buf (Elt F) ((c : Thread nD τ).loc b)) :
    (dat.arrays (fun w => V (Pipeline.arrRef spec3 w)) : sProp 𝕄)
      = iprop(pt3 c V fullShare main_v4 ∗ pt3 c V fullShare main_v5 ∗ pt3 c V fullShare main_v6
          ∗ pt3 c V fullShare.left main_arg1 ∗ pt3 c V fullShare.left main_arg2
          ∗ pt3 c V fullShare.right main_arg1 ∗ pt3 c V fullShare.right main_arg2
          ∗ pt3 c V fullShare main_arg3 ∗ pt3 c V fullShare main_v7_0 ∗ pt3 c V fullShare main_v7_1) := by
  unfold Dat.arrays
  rw [bigSep_W3]
  exact congrArg₂ _ (sh3_win_pt c dat 0 _ (hq 0) _) (congrArg₂ _ (sh3_win_pt c dat 1 _ (hq 1) _) (congrArg₂ _ (sh3_win_pt c dat 2 _ (hq 2) _)
    (congrArg₂ _ (sh3_win_pt c dat 3 _ (hq 3) _) (congrArg₂ _ (sh3_win_pt c dat 4 _ (hq 4) _) (congrArg₂ _ (sh3_win_pt c dat 5 _ (hq 5) _)
    (congrArg₂ _ (sh3_win_pt c dat 6 _ (hq 6) _) (congrArg₂ _ (sh3_win_pt c dat 7 _ (hq 7) _) (congrArg₂ _ (sh3_win_pt c dat 8 _ (hq 8) _)
    (sh3_win_pt c dat 9 _ (hq 9) _)))))))))

-- At entry the full share of each twice-read array is cut into the halves its two windows hold.
theorem arrays3_of_unscopedBufs (c : Dev nD) (dat : Dat τ (Elt F) Unit ℕ (UR sig nD τ) ℕ cfg3 c) (hq : ∀ w, dat.share w = sh3 w)
    (V : (b : Ref sig .tc) → Buf (Elt F) ((c : Thread nD τ).loc b)) (hA : ∀ w, dat.A w = V (Pipeline.arrRef spec3 w)) :
    (unscopedBufs c V : sProp 𝕄) ⊢ iprop(dat.arrays (dat.arrAt · 0) ∗ Pipeline.unscopedRest (Ix := Unit) (Name := ℕ) (U := UR sig nD τ) (Lvl := ℕ) spec3 c V) := by
  rw [Pipeline.unscopedBufs_split₀ (P := Unit) (fun _ => cfg3) () winFacts₀3.arr_unscoped c V,
    show (fun w => dat.arrAt w 0) = fun w => V (Pipeline.arrRef spec3 w) from funext hA, sh3_arrBufs_eq, sh3_arrays_eq c dat hq]
  refine sep_mono ?_ .rfl
  iintro ⟨H0, H1, H2, Ha1, Ha2, H7, H8, H9⟩
  icases (pointsTo_share (PosShare.mem_left_op_right fullShare)).1 $$ Ha1 with ⟨Ha1l, Ha1r⟩
  icases (pointsTo_share (PosShare.mem_left_op_right fullShare)).1 $$ Ha2 with ⟨Ha2l, Ha2r⟩
  iframe

-- At exit the two halves of a twice-read array hold the same contents, so they join to its full share.
theorem unscopedBufs_of_arrays3 (c : Dev nD) (dat : Dat τ (Elt F) Unit ℕ (UR sig nD τ) ℕ cfg3 c) (hq : ∀ w, dat.share w = sh3 w)
    (V V' : (b : Ref sig .tc) → Buf (Elt F) ((c : Thread nD τ).loc b))
    (F' : (w : Fin cfg3.W) → Buf (Elt F) (((cfg3.win w).arr.view.loc (c : Thread nD τ))))
    (hF : ∀ w, F' w = V' (Pipeline.arrRef spec3 w)) (hrest : ∀ b, b ∉ Finset.univ.image (Pipeline.arrRef spec3) → V' b = V b) :
    iprop(dat.arrays F' ∗ Pipeline.unscopedRest (Ix := Unit) (Name := ℕ) (U := UR sig nD τ) (Lvl := ℕ) spec3 c V) ⊢ (unscopedBufs c V' : sProp 𝕄) := by
  rw [Pipeline.unscopedBufs_split₀ (P := Unit) (fun _ => cfg3) () winFacts₀3.arr_unscoped c V',
    show F' = fun w => V' (Pipeline.arrRef spec3 w) from funext hF, sh3_arrBufs_eq, sh3_arrays_eq c dat hq]
  refine sep_mono ?_ (Entails.of_eq ?_)
  · iintro ⟨H0, H1, H2, Ha1l, Ha2l, Ha1r, Ha2r, H7, H8, H9⟩
    iframe H0 H1 H2 H7 H8 H9
    isplitl [Ha1l Ha1r] <;> iapply (pointsTo_share (PosShare.mem_left_op_right fullShare)).2 <;> iframe
  · unfold Pipeline.unscopedRest
    exact bigSep_congr fun b hb => by rw [hrest b (Finset.mem_sdiff.mp hb).2]

end Cert.Kernel.Hand
-- ==== Proof.BReg3.lean ====
import proofs.«403689_j2439541424354_3_alg».proof.Proof.BRegs
import proofs.«403689_j2439541424354_3_alg».proof.Proof.BAtDat
import proofs.«403689_j2439541424354_3_alg».proof.Proof.BSh3

set_option maxRecDepth 16384

noncomputable section

namespace Cert.Kernel.Hand

open Cert.Kernel Cert.Kernel.Gen
open Idealize.ShloMosaic Idealize.ShloMosaic.TcCoe
open Idealize.SL Idealize.SL.BI Idealize.SL.BI.BIBase
open scoped Idealize.SL.BI
open Idealize.SL.ProofMode
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (outs : Outs (F := F))

abbrev d3 : (c : Dev nD) → Dat τ (Elt F) Unit ℕ (UR sig nD τ) ℕ cfg3 c := fun c => at3_dat (En3 m outs) c

theorem at3_share (c : Dev nD) : ∀ w, (d3 m outs c).share w = sh3 w
  | ⟨0, _⟩ => rfl | ⟨1, _⟩ => rfl | ⟨2, _⟩ => rfl | ⟨3, _⟩ => rfl | ⟨4, _⟩ => rfl
  | ⟨5, _⟩ => rfl | ⟨6, _⟩ => rfl | ⟨7, _⟩ => rfl | ⟨8, _⟩ => rfl | ⟨9, _⟩ => rfl

theorem hF3 (ho : OutsOk m outs (d3 m outs)) (c : Dev nD) (w : Fin cfg3.W) :
    (at3_dat (En3 m outs) c).arrAt w cfg3.N = Ex3 m outs c (Pipeline.arrRef spec3 w) := by
  cases h : (cfg3.win w).isOut
  · exact ((at3_dat (En3 m outs) c).arrAt_in w h _).trans ((at3_A_eq (En3 m outs) c w).trans (V6_of m outs c _
      ((by decide : ∀ w : Fin cfg3.W, (cfg3.win w).isOut = false → Pipeline.arrRef spec3 w ∉ [main_v7_0, main_v7_1]) w h)).symm)
  · rcases (by decide : ∀ w : Fin cfg3.W, (cfg3.win w).isOut = true → w = 8 ∨ w = 9) w h with rfl | rfl
    · exact (ho.o3w c).symm.trans (show outs 6 main_v7_0 c = V6 m outs c main_v7_0 from by
        simp only [V6, Function.update_of_ne (StableHlo.devRef_ne_of_ne (by decide : main_v7_0 ≠ main_v7_1) : (Proc.devRef .tc main_v7_0 : DevRef τ sig) ≠ Proc.devRef .tc main_v7_1), Function.update_self])
    · exact (ho.o3o c).symm.trans (show outs 6 main_v7_1 c = V6 m outs c main_v7_1 from by simp only [V6, Function.update_self])

theorem hrest3 (c : Dev nD) : ∀ b, b ∉ Finset.univ.image (Pipeline.arrRef spec3) → Ex3 m outs c b = En3 m outs c b :=
  fun b hb => V6_of m outs c b fun hb' => hb (Finset.mem_image.mpr (by
    rcases List.mem_cons.mp hb' with h | h
    · exact ⟨8, Finset.mem_univ _, h.symm⟩
    · exact ⟨9, Finset.mem_univ _, (List.mem_singleton.mp h).symm⟩))

def reg3 (ho : OutsOk m outs (d3 m outs)) : Pipeline.RegionSeg (pcfgs (F := F)) adm (pdats m outs (d3 m outs)) () defs₀ 𝒱₀ Lz lvz 3 :=
  mkReg (pdats m outs (d3 m outs)) 3 (V5 m outs) (V6 m outs) winFacts₀3 block_pos3 stage_whole3
    (at3_body_obligation (En3 m outs)) (fun _ _ => rfl) (fun _ => rfl)
    (fun c => arrays3_of_unscopedBufs c (d3 m outs c) (at3_share m outs c) (En3 m outs c) (at3_A_eq (En3 m outs) c))
    (fun c => unscopedBufs_of_arrays3 c (d3 m outs c) (at3_share m outs c) (En3 m outs c) (Ex3 m outs c) _ (hF3 m outs ho c) (hrest3 m outs c))
    (fun c P => by
      change _ ⊢ Pipeline.ΦA spec3 c; unfold Pipeline.ΦA
      iintro ⟨Hp, -, Hr⟩
      isplitl [Hr]; · iexact Hr
      iexact Hp)
    (fun c => by
      change Pipeline.ΦA spec3 c ⊢ _; unfold Pipeline.ΦA
      iintro ⟨Hr, Hp⟩
      isplitl [Hp]; · iexact Hp
      isplitr; · iempintro
      iexact Hr)

end Cert.Kernel.Hand

end
-- ==== Proof.BOuts.lean ====
import proofs.«403689_j2439541424354_3_alg».proof.Proof.BRegs

set_option maxRecDepth 16384

noncomputable section

namespace Cert.Kernel.Hand

open Cert.Kernel Cert.Kernel.Gen
open Idealize.ShloMosaic Idealize.ShloMosaic.TcCoe
open Idealize.ShloMosaic.Pipeline (Dat)

variable {F : FTy → Type} [FloatOps F]

def setOut (o : Outs (F := F)) (r₀ : Ref sig .tc) (v : (c : Dev nD) → Buf (Elt F) ((c : Thread nD τ).loc r₀)) : Outs (F := F) :=
  fun J r c => Function.update (fun r' : Ref sig .tc => o J r' c) r₀ (v c) r

theorem setOut_self (o : Outs (F := F)) (r₀ : Ref sig .tc) (v : (c : Dev nD) → Buf (Elt F) ((c : Thread nD τ).loc r₀))
    (J : ℕ) (c : Dev nD) : setOut o r₀ v J r₀ c = v c := by
  unfold setOut; exact Function.update_self _ _ _

theorem setOut_ne (o : Outs (F := F)) (r₀ : Ref sig .tc) (v : (c : Dev nD) → Buf (Elt F) ((c : Thread nD τ).loc r₀))
    (J : ℕ) (r : Ref sig .tc) (c : Dev nD) (h : r ≠ r₀) : setOut o r₀ v J r c = o J r c := by
  unfold setOut; exact Function.update_of_ne h _ _

-- Two families agree off L when they hold the same contents at every reference outside L.
def AgreeOff (L : List (Ref sig .tc)) (o o' : Outs (F := F)) : Prop :=
  ∀ (J : ℕ) (r : Ref sig .tc) (c : Dev nD), r ∉ L → o J r c = o' J r c

theorem agree_setOut (o : Outs (F := F)) (r₀ : Ref sig .tc) (v : (c : Dev nD) → Buf (Elt F) ((c : Thread nD τ).loc r₀)) :
    AgreeOff [r₀] (setOut o r₀ v) o := fun J r c h => setOut_ne o r₀ v J r c fun e => h (List.mem_singleton.mpr e)

theorem AgreeOff.trans {L L' : List (Ref sig .tc)} {o o' o'' : Outs (F := F)} (h : AgreeOff L o o') (h' : AgreeOff L' o' o'') :
    AgreeOff (L ++ L') o o'' := fun J r c hr =>
  (h J r c fun x => hr (List.mem_append_left _ x)).trans (h' J r c fun x => hr (List.mem_append_right _ x))

section Congr
variable (m : (ℓ : Loc nD τ sig) → Buf (Elt F) ℓ) (o o' : Outs (F := F)) (c : Dev nD) {L : List (Ref sig .tc)}

-- The fold's contents before a region read the family only at the result buffers of the regions before it.
theorem V2_congr (h : AgreeOff L o o') (h1 : main_v1 ∉ L) : V2 m o c = V2 m o' c := by
  unfold V2; rw [h 2 _ c h1]

theorem V3_congr (h : AgreeOff L o o') (h1 : main_v1 ∉ L) (h2 : main_v2 ∉ L) : V3 m o c = V3 m o' c := by
  unfold V3; rw [V2_congr m o o' c h h1, h 3 _ c h2]

theorem V5_congr (h : AgreeOff L o o') (h1 : main_v1 ∉ L) (h2 : main_v2 ∉ L) (h3 : main_v3 ∉ L) : V5 m o c = V5 m o' c := by
  unfold V5 V4; rw [V3_congr m o o' c h h1 h2, h 4 _ c h3]

theorem V7_congr (h : AgreeOff L o o') (h1 : main_v1 ∉ L) (h2 : main_v2 ∉ L) (h3 : main_v3 ∉ L) (h4 : main_v7_0 ∉ L)
    (h5 : main_v7_1 ∉ L) : V7 m o c = V7 m o' c := by
  unfold V7 V6; rw [V5_congr m o o' c h h1 h2 h3, h 6 _ c h4, h 6 _ c h5]

end Congr

section Build
variable (dA : (V : (c : Dev nD) → (b : Ref sig .tc) → Buf (Elt F) ((c : Thread nD τ).loc b)) → (c : Dev nD)
    → Dat τ (Elt F) Unit ℕ (UR sig nD τ) ℕ cfg3 c)
  (m : (ℓ : Loc nD τ sig) → Buf (Elt F) ℓ)

def outsI : Outs (F := F) := fun _ r c => m ((c : Thread nD τ).loc r)
def outs0 : Outs (F := F) := setOut (outsI m) main_v1 fun c => (mm0_dat (En0 m) c).arrAt 2 cfg0.N
def outs1 : Outs (F := F) := setOut (outs0 m) main_v2 fun c => (mm1_dat (En1 m (outs0 m)) c).arrAt 2 cfg1.N
def outs2 : Outs (F := F) := setOut (outs1 m) main_v3 fun c => (mm2_dat (En2 m (outs1 m)) c).arrAt 2 cfg2.N
def outs3 : Outs (F := F) :=
  setOut (setOut (outs2 m) main_v7_0 fun c => (dA (En3 m (outs2 m)) c).arrAt 8 cfg3.N)
    main_v7_1 fun c => (dA (En3 m (outs2 m)) c).arrAt 9 cfg3.N
def outsH : Outs (F := F) := setOut (outs3 dA m) main_v9 fun c => (mm4_dat (En4 m (outs3 dA m)) c).arrAt 2 cfg4.N

theorem agH3 : AgreeOff [main_v9] (outsH dA m) (outs3 dA m) := agree_setOut _ _ _
theorem agH2 : AgreeOff [main_v9, main_v7_1, main_v7_0] (outsH dA m) (outs2 m) :=
  (agH3 dA m).trans ((agree_setOut _ _ _).trans (agree_setOut _ _ _))
theorem agH1 : AgreeOff [main_v9, main_v7_1, main_v7_0, main_v3] (outsH dA m) (outs1 m) := (agH2 dA m).trans (agree_setOut _ _ _)
theorem agH0 : AgreeOff [main_v9, main_v7_1, main_v7_0, main_v3, main_v2] (outsH dA m) (outs0 m) := (agH1 dA m).trans (agree_setOut _ _ _)

theorem En1_outsH : En1 m (outsH dA m) = En1 m (outs0 m) :=
  funext fun c => funext fun b => congrFun (V2_congr m _ _ c (agH0 dA m) (by decide)) _

theorem En2_outsH : En2 m (outsH dA m) = En2 m (outs1 m) :=
  funext fun c => funext fun b => congrFun (V3_congr m _ _ c (agH1 dA m) (by decide) (by decide)) _

theorem En3_outsH : En3 m (outsH dA m) = En3 m (outs2 m) :=
  funext fun c => funext fun b => congrFun (V5_congr m _ _ c (agH2 dA m) (by decide) (by decide) (by decide)) _

theorem En4_outsH : En4 m (outsH dA m) = En4 m (outs3 dA m) :=
  funext fun c => funext fun b => congrFun (V7_congr m _ _ c (agH3 dA m) (by decide) (by decide) (by decide) (by decide) (by decide)) _

-- Each result buffer of the whole family holds its stage's array, and that stage's entry contents are the whole family's.
theorem outsH_ok : OutsOk m (outsH dA m) (fun c => dA (En3 m (outsH dA m)) c) where
  o0 c := (agH0 dA m 2 _ c (by decide)).trans (setOut_self _ _ _ 2 c)
  o1 c := ((agH1 dA m 3 _ c (by decide)).trans (setOut_self _ _ _ 3 c)).trans
    (congrArg (fun E => (mm1_dat E c).arrAt 2 cfg1.N) (En1_outsH dA m).symm)
  o2 c := ((agH2 dA m 4 _ c (by decide)).trans (setOut_self _ _ _ 4 c)).trans
    (congrArg (fun E => (mm2_dat E c).arrAt 2 cfg2.N) (En2_outsH dA m).symm)
  o3w c := ((agH3 dA m 6 _ c (by decide)).trans ((setOut_ne _ _ _ 6 _ c (by decide)).trans (setOut_self _ _ _ 6 c))).trans
    (congrArg (fun E => (dA E c).arrAt 8 cfg3.N) (En3_outsH dA m).symm)
  o3o c := ((agH3 dA m 6 _ c (by decide)).trans (setOut_self _ _ _ 6 c)).trans
    (congrArg (fun E => (dA E c).arrAt 9 cfg3.N) (En3_outsH dA m).symm)
  o4 c := (setOut_self _ _ _ 8 c).trans (congrArg (fun E => (mm4_dat E c).arrAt 2 cfg4.N) (En4_outsH dA m).symm)

end Build

end Cert.Kernel.Hand

end
-- ==== Proof.BFinal.lean ====
import proofs.«403689_j2439541424354_3_alg».proof.Proof.BKRun
import proofs.«403689_j2439541424354_3_alg».proof.Proof.BReg3
import proofs.«403689_j2439541424354_3_alg».proof.Proof.BOuts

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

abbrev outsF : Outs (F := F) := outsH (fun V c => at3_dat V c) m

theorem outsF_ok : OutsOk m (outsF m) (d3 m (outsF m)) := outsH_ok (fun V c => at3_dat V c) m

-- The run leaves every unscoped buffer at the fold's last contents; read at the two results and at the arguments, which no item writes.
theorem run_main : θ_run defs (onTc (τ := τ) (main (F := F))) ⟨m, fun _ => 0, ρ⟩ (fun r => ∀ c : Dev nD,
      r.2.mem ((c.tc : Thread nD τ).loc main_v10) = V9 m (outsF m) c main_v10
      ∧ r.2.mem ((c.tc : Thread nD τ).loc main_v7_0) = V9 m (outsF m) c main_v7_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun _ h c => ?_)
    (run_of m ρ (outsF m) (d3 m (outsF m)) (outsF_ok m) (reg3 m (outsF m) (outsF_ok m)) (fun c => .rfl) (fun c => .rfl))
  have g := fun (b : Ref sig .tc) (hb : ¬ (Proc.devRef (τ := τ) .tc b).isScoped) =>
    h c (Proc.devRef .tc b) (Finset.mem_filter.mpr ⟨StableHlo.devRef_mem_tcRefs b, hb⟩)
  exact ⟨g main_v10 (by decide), g main_v7_0 (by decide), (g main_arg0 (by decide)).trans (V9_main_arg0 m _ c),
    (g main_arg1 (by decide)).trans (V9_main_arg1 m _ c), (g main_arg2 (by decide)).trans (V9_main_arg2 m _ c),
    (g main_arg3 (by decide)).trans (V9_main_arg3 m _ c), (g main_arg4 (by decide)).trans (V9_main_arg4 m _ c),
    (g main_arg5 (by decide)).trans (V9_main_arg5 m _ c), (g main_arg6 (by decide)).trans (V9_main_arg6 m _ c),
    (g main_arg7 (by decide)).trans (V9_main_arg7 m _ c)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2.2) (run_main m ρ)

end Cert.Kernel.Hand

end
-- ==== Proof.PlainDot.lean ====
import Idealize.ShloMosaic.PureOps.Ideal.Laws
import Idealize.ShloMosaic.Lib.ValueIdx

open scoped BigOperators

namespace Cert.Hand

open Idealize.ShloMosaic Idealize.ShloMosaic.ValueIdx

-- A rows-by-columns product read at (r, t): the accumulator there plus the sum over the contracted axis.
theorem mm_plain_apply {m k n : ℕ} {φ₁ φ₂ : FTy} (D : DotDims ⟨2, ![m, k]⟩ ⟨2, ![k, n]⟩ ⟨2, ![m, n]⟩) (hD : D = DotDims.plain m k n)
    (a : FVec Ideal ⟨2, ![m, k]⟩ φ₁) (b : FVec Ideal ⟨2, ![k, n]⟩ φ₂) (acc : FVec Ideal ⟨2, ![m, n]⟩ .f32) (r : Fin m) (t : Fin n) :
    matmul D none a b acc (ix2 r t) = acc (ix2 r t) + ∑ d : Fin k, a (ix2 r d) * b (ix2 d t) := by
  subst hD
  simp only [matmul]
  rw [Ideal.matmul_apply, ← Equiv.sum_comp (contrEquiv1 (DotDims.plain m k n) k rfl rfl).symm]
  refine congrArg (acc (ix2 r t) + ·) (Finset.sum_congr rfl fun j _ => ?_)
  have hj := contrEquiv1_symm_val (DotDims.plain m k n) k rfl rfl j
  rw [show (DotDims.plain m k n).lhsIdx (ix2 r t) ((contrEquiv1 (DotDims.plain m k n) k rfl rfl).symm j) = ix2 r j from
      funext fun a => Fin.ext (by match a with | ⟨0, _⟩ => rfl | ⟨1, _⟩ => exact hj),
    show (DotDims.plain m k n).rhsIdx (ix2 r t) ((contrEquiv1 (DotDims.plain m k n) k rfl rfl).symm j) = ix2 j t from
      funext fun a => Fin.ext (by match a with | ⟨0, _⟩ => exact hj | ⟨1, _⟩ => rfl)]

-- Into the zero block: just the sum.
theorem mm_plain_zero_apply {m k n : ℕ} {φ₁ φ₂ : FTy} (D : DotDims ⟨2, ![m, k]⟩ ⟨2, ![k, n]⟩ ⟨2, ![m, n]⟩) (hD : D = DotDims.plain m k n)
    (a : FVec Ideal ⟨2, ![m, k]⟩ φ₁) (b : FVec Ideal ⟨2, ![k, n]⟩ φ₂) (r : Fin m) (t : Fin n) :
    matmul D none a b (constant (F := Ideal) ⟨2, ![m, n]⟩ .f32 0x00000000#32) (ix2 r t) = ∑ d : Fin k, a (ix2 r d) * b (ix2 d t) := by
  rw [mm_plain_apply D hD]
  show Ideal.ofBits .f32 0x00000000#32 + _ = _
  rw [Ideal.ofBits_zero_f32, zero_add]

end Cert.Hand
-- ==== Proof.MmLib.lean ====
import proofs.«403689_j2439541424354_3_alg».proof.Proof.Gen.KernelIdeal
import proofs.«403689_j2439541424354_3_alg».proof.Proof.PlainDot
import Idealize.ShloMosaic.Lib.Pipeline.Value

namespace Cert.KernelIdeal.Hand

open Cert.KernelIdeal
open Idealize.ShloMosaic Idealize.ShloMosaic.ValueIdx

theorem mm_hz : (![0, 0] : Fin 2 → Nat) = fun _ => 0 := funext fun a => by fin_cases a <;> rfl

-- The last piece written covers every index, so it alone is read back.
theorem mm_read_cons {sig : RefSig} {κ : Kind} {sp : Space} {S : Shape} {e : EltTy} {Val : EltTy → Type} [∀ e, Nonempty (Val e)]
    (v : View sig κ sp S e) (f : v.ty.Contents Val) {off : Fin S.rank → Nat} (h : off = fun _ => 0) (inb : ∀ a, off a + S.size a ≤ S.size a)
    (w : S.Idx → Val e) (L : List (View.Piece Val S e)) : v.read Val (v.writes Val f (⟨Rect.unit off S.size inb, w⟩ :: L)) = w :=
  (View.read_writes_eq_canon v f _ fun y => ⟨_, List.mem_cons_self, View.mem_set_unit_zero h inb y⟩).trans (View.canon_cons_unit_zero h inb w L)

-- The zero-offset block of the whole shape is every index, in place.
theorem mm_ld {sig : RefSig} {κ : Kind} {sp : Space} {S : Shape} {e : EltTy} {Val : EltTy → Type} {m : Memref sig κ sp S e} (h : m.IsWhole)
    {off : Fin S.rank → Nat} (hz : off = fun _ => 0) (inb : ∀ a, off a + S.size a ≤ S.size a) (X : S.Idx → Val e) :
    View.readAt Val m.view (Rect.unit off S.size inb).toLoadRect (h.unread X) = X := by
  simp only [View.readAt_eq_ld, h.read_unread, View.ld_unit_zero hz]

-- A block element's coordinate in the array, and an array coordinate's membership in a block, once the block index x is known to be i.
theorem mm_emb {x i B y v : ℕ} (e : x = i) (h : v = i * B + y) : x * B + 1 * y = v := by rw [e, h, Nat.one_mul]
theorem mm_in {x i B v : ℕ} (e : x = i) (h : i * B ≤ v ∧ v < i * B + B) : x * B ≤ v ∧ v < x * B + B := e ▸ h

-- At an index the K step's update is the old entry plus the block's row times the block's column; the reset is zero.
theorem mm_pay_apply (h : S1024x512.ShapeCasts S1024x512) (hb : FTy.bf16.bits < FTy.f32.bits) (a : Vec Ideal S1024x512 .f32) (b : Vec Ideal S512x512 .f32)
    (z : Vec Ideal S1024x512 .f32) (r : Fin 1024) (n : Fin 512) :
    shapeCast S1024x512 (addf (F := Ideal) z (matmul dot_S1024x512_S512x512_S1024x512_1_0_0_1_n_n none (truncf .bf16 (shapeCast S1024x512 a h) hb) (truncf .bf16 b hb)
      (constant S1024x512 .f32 0x00000000#32))) h (ix2 r n) = z (ix2 r n) + ∑ l : Fin 512, a (ix2 r l) * b (ix2 l n) := by
  simp only [shapeCast_self]
  exact (addf_apply _ _ (ix2 r n)).trans (congrArg (z (ix2 r n) + ·) (Cert.Hand.mm_plain_zero_apply _ rfl _ _ r n))
theorem mm_zero_apply (h : S1024x512.ShapeCasts S1024x512) (r : Fin 1024) (n : Fin 512) :
    shapeCast S1024x512 (broadcast S1024x512 (Scalar.ofBits (F := Ideal) .f32 0x00000000#32)) h (ix2 r n) = 0 := by
  simp only [shapeCast_self]
  exact Ideal.ofBits_zero_f32

noncomputable def mm_term {M C : ℕ} (a : Vec Ideal ⟨2, ![M, 2048]⟩ .f32) (b : Vec Ideal ⟨2, ![2048, C]⟩ .f32) (R : Fin M) (J : Fin C) (k : ℕ) : EReal :=
  if h : k < 2048 then a (ix2 R ⟨k, h⟩) * b (ix2 ⟨k, h⟩ J) else 0

-- Zero at a first K step plus, at each of the four K steps of run t / 4, the product of the point's blocks is the entry's whole sum: by induction on the point.
theorem mm_acc_last {N M C : ℕ} (a : Vec Ideal ⟨2, ![M, 2048]⟩ .f32) (b : Vec Ideal ⟨2, ![2048, C]⟩ .f32)
    (ab : Fin N → Vec Ideal ⟨2, ![1024, 512]⟩ .f32) (bb : Fin N → Vec Ideal ⟨2, ![512, 512]⟩ .f32)
    (acc : (n : ℕ) → n < N → Vec Ideal ⟨2, ![1024, 512]⟩ .f32) (rb cb : ℕ → ℕ)
    (ha : ∀ (t : Fin N) (r : Fin 1024) (l : Fin 512) (R : Fin M) (K : Fin 2048),
      R.val = rb (t.val / 4) * 1024 + r.val → K.val = t.val % 4 * 512 + l.val → ab t (ix2 r l) = a (ix2 R K))
    (hb : ∀ (t : Fin N) (l n : Fin 512) (K : Fin 2048) (J : Fin C),
      K.val = t.val % 4 * 512 + l.val → J.val = cb (t.val / 4) * 512 + n.val → bb t (ix2 l n) = b (ix2 K J))
    (hacc : ∀ (t : Fin N) (r : Fin 1024) (m : Fin 512), acc t.val t.isLt (ix2 r m)
      = (if t.val % 4 = 0 then 0 else acc (t.val - 1) (Nat.lt_of_le_of_lt (Nat.sub_le _ _) t.isLt) (ix2 r m))
        + ∑ l : Fin 512, ab t (ix2 r l) * bb t (ix2 l m))
    (t : Fin N) (h3 : t.val % 4 = 3) (r : Fin 1024) (m : Fin 512) (R : Fin M) (J : Fin C)
    (hR : R.val = rb (t.val / 4) * 1024 + r.val) (hJ : J.val = cb (t.val / 4) * 512 + m.val) :
    acc t.val t.isLt (ix2 r m) = ∑ k : Fin 2048, a (ix2 R k) * b (ix2 k J) := by
  have key : ∀ (n : ℕ) (t : Fin N), t.val = n → R.val = rb (t.val / 4) * 1024 + r.val → J.val = cb (t.val / 4) * 512 + m.val →
      acc t.val t.isLt (ix2 r m) = ∑ k ∈ Finset.range ((t.val % 4 + 1) * 512), mm_term a b R J k := by
    intro n
    induction n using Nat.strong_induction_on with
    | _ n ih =>
    intro t ht hR hJ
    have hstep : ∑ l : Fin 512, ab t (ix2 r l) * bb t (ix2 l m) = ∑ l ∈ Finset.range 512, mm_term a b R J (t.val % 4 * 512 + l) := by
      rw [← Fin.sum_univ_eq_sum_range (fun l => mm_term a b R J (t.val % 4 * 512 + l)) 512]
      refine Finset.sum_congr rfl fun l _ => ?_
      have hK : t.val % 4 * 512 + l.val < 2048 := by have := l.isLt; omega
      rw [ha t r l R ⟨_, hK⟩ hR rfl, hb t l m ⟨_, hK⟩ J rfl hJ]
      unfold mm_term
      rw [dif_pos hK]
    rw [hacc t r m, hstep]
    by_cases h0 : t.val % 4 = 0
    · rw [if_pos h0, zero_add, h0]
      simp only [Nat.zero_mul, Nat.zero_add, Nat.one_mul]
    · have hq : (t.val - 1) / 4 = t.val / 4 := by omega
      have ihp := ih (t.val - 1) (by omega) ⟨t.val - 1, Nat.lt_of_le_of_lt (Nat.sub_le _ _) t.isLt⟩ rfl
        (by dsimp only; rw [hq]; exact hR) (by dsimp only; rw [hq]; exact hJ)
      dsimp only at ihp
      rw [show (t.val - 1) % 4 + 1 = t.val % 4 by omega] at ihp
      rw [if_neg h0, ihp, show (t.val % 4 + 1) * 512 = t.val % 4 * 512 + 512 by omega, Finset.sum_range_add]
  refine (key t.val t rfl hR hJ).trans ?_
  rw [h3]
  refine (Fin.sum_univ_eq_sum_range (fun k => mm_term a b R J k) 2048).symm.trans (Finset.sum_congr rfl fun k _ => ?_)
  unfold mm_term
  rw [dif_pos k.isLt]

end Cert.KernelIdeal.Hand
-- ==== Proof.MmVal0.lean ====
import proofs.«403689_j2439541424354_3_alg».proof.Proof.MmDat0
import proofs.«403689_j2439541424354_3_alg».proof.Proof.MmLib

namespace Cert.KernelIdeal.Hand

open Cert.KernelIdeal Cert.KernelIdeal.Gen
open Idealize.ShloMosaic Idealize.ShloMosaic.TcCoe
open Idealize.ShloMosaic.ValueIdx

variable {F : FTy → Type} [FloatOps F]

section
variable (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole) (x0 : Vec F S1024x512 .f32) (x1 : Vec F S512x512 .f32) (xs0 : Vec F S1024x512 .f32)

-- What each control case leaves in the accumulator, and the last one in the output block, is the body's update of the blocks.
theorem mm0_soutA_eq (hc0 : mm0_first i) (hc1 : ¬mm0_last i) :
    mm0_soutA c i arg3 harg3 arg4 harg4 arg5 harg5 arg6 harg6 hc0 hc1 x0 x1 = k0_pay2 x0 x1 k0_pay1 := by
  unfold mm0_soutA mm0_runA
  dsimp only
  sl_unfold_words
  rw [mm_read_cons _ _ mm_hz, View.readCov_unit_zero (S := S1024x512) _ mm_hz]
  simp only [mm_ld harg3 mm_hz, mm_ld harg4 mm_hz]

theorem mm0_soutB_eq (hc0 : ¬mm0_first i) (hc1 : ¬mm0_last i) :
    mm0_soutB c i arg3 harg3 arg4 harg4 arg5 harg5 arg6 harg6 hc0 hc1 x0 x1 xs0 = k0_pay2 x0 x1 xs0 := by
  unfold mm0_soutB mm0_runB
  dsimp only
  sl_unfold_words
  rw [mm_read_cons _ _ mm_hz]
  simp only [mm_ld harg3 mm_hz, mm_ld harg4 mm_hz, mm_ld harg6 mm_hz]

theorem mm0_C_eq (hc0 : ¬mm0_first i) (hc1 : mm0_last i) :
    mm0_soutC c i arg3 harg3 arg4 harg4 arg5 harg5 arg6 harg6 hc0 hc1 x0 x1 xs0 = k0_pay2 x0 x1 xs0 ∧ mm0_outC c i arg3 harg3 arg4 harg4 arg5 harg5 arg6 harg6 hc0 hc1 x0 x1 xs0 = k0_pay2 x0 x1 xs0 := by
  unfold mm0_soutC mm0_outC mm0_runC
  dsimp only
  sl_unfold_words
  rw [mm_read_cons _ _ mm_hz, mm_read_cons _ _ mm_hz, View.readCov_unit_zero (S := S1024x512) _ mm_hz]
  simp only [mm_ld harg3 mm_hz, mm_ld harg4 mm_hz, mm_ld harg6 mm_hz]
  exact ⟨trivial, trivial⟩

end

variable (V : (c : Dev nD) → (b : Ref sig .tc) → Buf (Elt Ideal) ((c : Thread nD τ).loc b))

abbrev mm0_aarr (c : Dev nD) : Vec Ideal S4096x2048 .f32 := V c (Pipeline.arrRef spec0 0)
abbrev mm0_barr (c : Dev nD) : Vec Ideal S2048x2048 .f32 := V c (Pipeline.arrRef spec0 1)
abbrev mm0_ablk (c : Dev nD) (t : Fin cfg0.N) : Vec Ideal S1024x512 .f32 := mm0_iblk V c 0 t
abbrev mm0_bblk (c : Dev nD) (t : Fin cfg0.N) : Vec Ideal S512x512 .f32 := mm0_iblk V c 1 t

-- Point t is K step t % 4 of run t / 4: row block t / 4 / 4, column block t / 4 % 4.
theorem mm0_idx : ∀ t : Fin cfg0.N, win0_0.index t (0 : Fin 2) = t.val / 4 / 4 ∧ win0_0.index t (1 : Fin 2) = t.val % 4
    ∧ win0_1.index t (0 : Fin 2) = t.val % 4 ∧ win0_1.index t (1 : Fin 2) = t.val / 4 % 4
    ∧ win0_2.index t (0 : Fin 2) = t.val / 4 / 4 ∧ win0_2.index t (1 : Fin 2) = t.val / 4 % 4 :=
  (by decide +kernel : ∀ t : Fin grid0.N, _)

-- The accumulator after a point: zero at a first K step, what the point before left at a later one, plus the product of the point's blocks.
theorem mm0_acc_step (c : Dev nD) (t : Fin cfg0.N) (r : Fin 1024) (m : Fin 512) :
    (mm0_outsAt V c t.val t.isLt).2 (ix2 r m)
      = (if t.val % 4 = 0 then 0 else (mm0_outsAt V c (t.val - 1) (Nat.lt_of_le_of_lt (Nat.sub_le _ _) t.isLt)).2 (ix2 r m))
        + ∑ l : Fin 512, mm0_ablk V c t (ix2 r l) * mm0_bblk V c t (ix2 l m) := by
  by_cases h0 : t.val % 4 = 0
  · rw [if_pos h0, mm0_outsAt_A V c t h0 (by omega)]
    simp only [mm0_soutA_eq]
    exact (mm_pay_apply _ _ _ _ _ r m).trans (congrArg (· + _) (mm_zero_apply _ r m))
  · rw [if_neg h0]
    by_cases h1 : t.val % 4 = 3
    · rw [mm0_outsAt_C V c t h0 h1]
      simp only [mm0_C_eq]
      exact mm_pay_apply _ _ _ _ _ r m
    · rw [mm0_outsAt_B V c t h0 h1]
      simp only [mm0_soutB_eq]
      exact mm_pay_apply _ _ _ _ _ r m

-- Entry by entry a last K step leaves the whole sum (mm_acc_last); row ρ, column ν lies in the block of the last K step of row block ρ / 1024, column block ν / 512.
theorem mm0_final (V : (c : Dev nD) → (b : Ref sig .tc) → Buf (Elt Ideal) ((c : Thread nD τ).loc b)) (c : Dev nD) :
    (mm0_dat (F := Ideal) V c).arrAt 2 cfg0.N
      = fun i => ∑ k : Fin 2048, mm0_aarr V c (ix2 (i 0) k) * mm0_barr V c (ix2 k (i 1)) :=
  (mm0_dat V c).arrAt_eq_of_cover 2 _ (fun t hf => by
    have h3 : t.val % 4 = 3 := (flush0_2 t).mp hf
    obtain ⟨-, -, -, -, e4, e5⟩ := mm0_idx t
    funext j
    obtain ⟨r, m, rfl⟩ : ∃ (r : Fin 1024) (m : Fin 512), j = ix2 r m := ⟨j 0, j 1, eq_ix2 j⟩
    rw [View.read_apply]
    show (mm0_dat V c).after 2 t (ix2 r m) = _
    rw [mm0_after2 V c t, show (mm0_outsAt V c t.val t.isLt).1 = (mm0_outsAt V c t.val t.isLt).2 by
      rw [mm0_outsAt_C V c t (by omega) h3]; simp only [mm0_C_eq]]
    exact (mm_acc_last (mm0_aarr V c) (mm0_barr V c) (mm0_ablk V c) (mm0_bblk V c) (fun n h => (mm0_outsAt V c n h).2)
      (· / 4) (· % 4) (fun t _ _ _ _ hR hK => congrArg (mm0_aarr V c) (Shape.idx_ext₂ (mm_emb (mm0_idx t).1 hR) (mm_emb (mm0_idx t).2.1 hK)))
      (fun t _ _ _ _ hK hN => congrArg (mm0_barr V c) (Shape.idx_ext₂ (mm_emb (mm0_idx t).2.2.1 hK) (mm_emb (mm0_idx t).2.2.2.1 hN))) (mm0_acc_step V c) t h3 r m _ _
      (mm_emb (B := 1024) (y := r.val) e4 rfl) (mm_emb (B := 512) (y := m.val) e5 rfl))) fun i => by
    have hi0 : (i 0).val < 4096 := (i 0).isLt
    have hi1 : (i 1).val < 2048 := (i 1).isLt
    obtain ⟨tv, htv⟩ : ∃ tv : ℕ, tv = (i 0).val / 1024 * 16 + (i 1).val / 512 * 4 + 3 := ⟨_, rfl⟩
    have hlt : tv < cfg0.N := by rw [show cfg0.N = 64 from N_0]; omega
    have e := mm0_idx ⟨tv, hlt⟩
    dsimp only at e
    refine ⟨⟨tv, hlt⟩, (flush0_2 _).mpr (by show tv % 4 = 3; omega), ?_⟩
    show i ∈ ((View.whole (Pipeline.arrRef spec0 2)).slice (win0_2.rect ⟨tv, hlt⟩)).set
    rw [View.set_slice_whole, Rect.mem_set_unit]
    exact Fin.forall_fin_two.mpr ⟨mm_in (B := 1024) (v := (i 0).val) e.2.2.2.2.1 (by omega), mm_in (B := 512) (v := (i 1).val) e.2.2.2.2.2 (by omega)⟩

end Cert.KernelIdeal.Hand
-- ==== Proof.MmVal1.lean ====
import proofs.«403689_j2439541424354_3_alg».proof.Proof.MmDat1
import proofs.«403689_j2439541424354_3_alg».proof.Proof.MmLib

namespace Cert.KernelIdeal.Hand

open Cert.KernelIdeal Cert.KernelIdeal.Gen
open Idealize.ShloMosaic Idealize.ShloMosaic.TcCoe
open Idealize.ShloMosaic.ValueIdx

variable {F : FTy → Type} [FloatOps F]

section
variable (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole) (x0 : Vec F S1024x512 .f32) (x1 : Vec F S512x512 .f32) (xs0 : Vec F S1024x512 .f32)

-- What each control case leaves in the accumulator, and the last one in the output block, is the body's update of the blocks.
theorem mm1_soutA_eq (hc0 : mm1_first i) (hc1 : ¬mm1_last i) :
    mm1_soutA c i arg3 harg3 arg4 harg4 arg5 harg5 arg6 harg6 hc0 hc1 x0 x1 = k1_pay2 x0 x1 k1_pay1 := by
  unfold mm1_soutA mm1_runA
  dsimp only
  sl_unfold_words
  rw [mm_read_cons _ _ mm_hz, View.readCov_unit_zero (S := S1024x512) _ mm_hz]
  simp only [mm_ld harg3 mm_hz, mm_ld harg4 mm_hz]

theorem mm1_soutB_eq (hc0 : ¬mm1_first i) (hc1 : ¬mm1_last i) :
    mm1_soutB c i arg3 harg3 arg4 harg4 arg5 harg5 arg6 harg6 hc0 hc1 x0 x1 xs0 = k1_pay2 x0 x1 xs0 := by
  unfold mm1_soutB mm1_runB
  dsimp only
  sl_unfold_words
  rw [mm_read_cons _ _ mm_hz]
  simp only [mm_ld harg3 mm_hz, mm_ld harg4 mm_hz, mm_ld harg6 mm_hz]

theorem mm1_C_eq (hc0 : ¬mm1_first i) (hc1 : mm1_last i) :
    mm1_soutC c i arg3 harg3 arg4 harg4 arg5 harg5 arg6 harg6 hc0 hc1 x0 x1 xs0 = k1_pay2 x0 x1 xs0 ∧ mm1_outC c i arg3 harg3 arg4 harg4 arg5 harg5 arg6 harg6 hc0 hc1 x0 x1 xs0 = k1_pay2 x0 x1 xs0 := by
  unfold mm1_soutC mm1_outC mm1_runC
  dsimp only
  sl_unfold_words
  rw [mm_read_cons _ _ mm_hz, mm_read_cons _ _ mm_hz, View.readCov_unit_zero (S := S1024x512) _ mm_hz]
  simp only [mm_ld harg3 mm_hz, mm_ld harg4 mm_hz, mm_ld harg6 mm_hz]
  exact ⟨trivial, trivial⟩

end

variable (V : (c : Dev nD) → (b : Ref sig .tc) → Buf (Elt Ideal) ((c : Thread nD τ).loc b))

abbrev mm1_aarr (c : Dev nD) : Vec Ideal S4096x2048 .f32 := V c (Pipeline.arrRef spec1 0)
abbrev mm1_barr (c : Dev nD) : Vec Ideal S2048x512 .f32 := V c (Pipeline.arrRef spec1 1)
abbrev mm1_ablk (c : Dev nD) (t : Fin cfg1.N) : Vec Ideal S1024x512 .f32 := mm1_iblk V c 0 t
abbrev mm1_bblk (c : Dev nD) (t : Fin cfg1.N) : Vec Ideal S512x512 .f32 := mm1_iblk V c 1 t

-- Point t is K step t % 4 of run t / 4: row block t / 4, the one column block.
theorem mm1_idx : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

-- The accumulator after a point: zero at a first K step, what the point before left at a later one, plus the product of the point's blocks.
theorem mm1_acc_step (c : Dev nD) (t : Fin cfg1.N) (r : Fin 1024) (m : Fin 512) :
    (mm1_outsAt V c t.val t.isLt).2 (ix2 r m)
      = (if t.val % 4 = 0 then 0 else (mm1_outsAt V c (t.val - 1) (Nat.lt_of_le_of_lt (Nat.sub_le _ _) t.isLt)).2 (ix2 r m))
        + ∑ l : Fin 512, mm1_ablk V c t (ix2 r l) * mm1_bblk V c t (ix2 l m) := by
  by_cases h0 : t.val % 4 = 0
  · rw [if_pos h0, mm1_outsAt_A V c t h0 (by omega)]
    simp only [mm1_soutA_eq]
    exact (mm_pay_apply _ _ _ _ _ r m).trans (congrArg (· + _) (mm_zero_apply _ r m))
  · rw [if_neg h0]
    by_cases h1 : t.val % 4 = 3
    · rw [mm1_outsAt_C V c t h0 h1]
      simp only [mm1_C_eq]
      exact mm_pay_apply _ _ _ _ _ r m
    · rw [mm1_outsAt_B V c t h0 h1]
      simp only [mm1_soutB_eq]
      exact mm_pay_apply _ _ _ _ _ r m

-- Entry by entry a last K step leaves the whole sum (mm_acc_last); row ρ lies in the block of the last K step of row block ρ / 1024.
theorem mm1_final (V : (c : Dev nD) → (b : Ref sig .tc) → Buf (Elt Ideal) ((c : Thread nD τ).loc b)) (c : Dev nD) :
    (mm1_dat (F := Ideal) V c).arrAt 2 cfg1.N
      = fun i => ∑ k : Fin 2048, mm1_aarr V c (ix2 (i 0) k) * mm1_barr V c (ix2 k (i 1)) :=
  (mm1_dat V c).arrAt_eq_of_cover 2 _ (fun t hf => by
    have h3 : t.val % 4 = 3 := (flush1_2 t).mp hf
    obtain ⟨-, -, -, -, e4, e5⟩ := mm1_idx t
    funext j
    obtain ⟨r, m, rfl⟩ : ∃ (r : Fin 1024) (m : Fin 512), j = ix2 r m := ⟨j 0, j 1, eq_ix2 j⟩
    rw [View.read_apply]
    show (mm1_dat V c).after 2 t (ix2 r m) = _
    rw [mm1_after2 V c t, show (mm1_outsAt V c t.val t.isLt).1 = (mm1_outsAt V c t.val t.isLt).2 by
      rw [mm1_outsAt_C V c t (by omega) h3]; simp only [mm1_C_eq]]
    exact (mm_acc_last (mm1_aarr V c) (mm1_barr V c) (mm1_ablk V c) (mm1_bblk V c) (fun n h => (mm1_outsAt V c n h).2)
      (fun q => q) (fun _ => 0) (fun t _ _ _ _ hR hK => congrArg (mm1_aarr V c) (Shape.idx_ext₂ (mm_emb (mm1_idx t).1 hR) (mm_emb (mm1_idx t).2.1 hK)))
      (fun t _ _ _ _ hK hN => congrArg (mm1_barr V c) (Shape.idx_ext₂ (mm_emb (mm1_idx t).2.2.1 hK) (mm_emb (mm1_idx t).2.2.2.1 hN))) (mm1_acc_step V c) t h3 r m _ _
      (mm_emb (B := 1024) (y := r.val) e4 rfl) (mm_emb (B := 512) (y := m.val) e5 rfl))) fun i => by
    have hi0 : (i 0).val < 4096 := (i 0).isLt
    have hi1 : (i 1).val < 512 := (i 1).isLt
    obtain ⟨tv, htv⟩ : ∃ tv : ℕ, tv = (i 0).val / 1024 * 4 + 3 := ⟨_, rfl⟩
    have hlt : tv < cfg1.N := by rw [show cfg1.N = 16 from N_1]; omega
    have e := mm1_idx ⟨tv, hlt⟩
    dsimp only at e
    refine ⟨⟨tv, hlt⟩, (flush1_2 _).mpr (by show tv % 4 = 3; omega), ?_⟩
    show i ∈ ((View.whole (Pipeline.arrRef spec1 2)).slice (win1_2.rect ⟨tv, hlt⟩)).set
    rw [View.set_slice_whole, Rect.mem_set_unit]
    exact Fin.forall_fin_two.mpr ⟨mm_in (B := 1024) (v := (i 0).val) e.2.2.2.2.1 (by omega), mm_in (B := 512) (v := (i 1).val) e.2.2.2.2.2 (by omega)⟩

end Cert.KernelIdeal.Hand
-- ==== Proof.MmVal2.lean ====
import proofs.«403689_j2439541424354_3_alg».proof.Proof.MmDat2
import proofs.«403689_j2439541424354_3_alg».proof.Proof.MmLib

namespace Cert.KernelIdeal.Hand

open Cert.KernelIdeal Cert.KernelIdeal.Gen
open Idealize.ShloMosaic Idealize.ShloMosaic.TcCoe
open Idealize.ShloMosaic.ValueIdx

variable {F : FTy → Type} [FloatOps F]

section
variable (c : Dev nD) (i : grid2.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole) (x0 : Vec F S1024x512 .f32) (x1 : Vec F S512x512 .f32) (xs0 : Vec F S1024x512 .f32)

-- What each control case leaves in the accumulator, and the last one in the output block, is the body's update of the blocks.
theorem mm2_soutA_eq (hc0 : mm2_first i) (hc1 : ¬mm2_last i) :
    mm2_soutA c i arg3 harg3 arg4 harg4 arg5 harg5 arg6 harg6 hc0 hc1 x0 x1 = k2_pay2 x0 x1 k2_pay1 := by
  unfold mm2_soutA mm2_runA
  dsimp only
  sl_unfold_words
  rw [mm_read_cons _ _ mm_hz, View.readCov_unit_zero (S := S1024x512) _ mm_hz]
  simp only [mm_ld harg3 mm_hz, mm_ld harg4 mm_hz]

theorem mm2_soutB_eq (hc0 : ¬mm2_first i) (hc1 : ¬mm2_last i) :
    mm2_soutB c i arg3 harg3 arg4 harg4 arg5 harg5 arg6 harg6 hc0 hc1 x0 x1 xs0 = k2_pay2 x0 x1 xs0 := by
  unfold mm2_soutB mm2_runB
  dsimp only
  sl_unfold_words
  rw [mm_read_cons _ _ mm_hz]
  simp only [mm_ld harg3 mm_hz, mm_ld harg4 mm_hz, mm_ld harg6 mm_hz]

theorem mm2_C_eq (hc0 : ¬mm2_first i) (hc1 : mm2_last i) :
    mm2_soutC c i arg3 harg3 arg4 harg4 arg5 harg5 arg6 harg6 hc0 hc1 x0 x1 xs0 = k2_pay2 x0 x1 xs0 ∧ mm2_outC c i arg3 harg3 arg4 harg4 arg5 harg5 arg6 harg6 hc0 hc1 x0 x1 xs0 = k2_pay2 x0 x1 xs0 := by
  unfold mm2_soutC mm2_outC mm2_runC
  dsimp only
  sl_unfold_words
  rw [mm_read_cons _ _ mm_hz, mm_read_cons _ _ mm_hz, View.readCov_unit_zero (S := S1024x512) _ mm_hz]
  simp only [mm_ld harg3 mm_hz, mm_ld harg4 mm_hz, mm_ld harg6 mm_hz]
  exact ⟨trivial, trivial⟩

end

variable (V : (c : Dev nD) → (b : Ref sig .tc) → Buf (Elt Ideal) ((c : Thread nD τ).loc b))

abbrev mm2_aarr (c : Dev nD) : Vec Ideal S4096x2048 .f32 := V c (Pipeline.arrRef spec2 0)
abbrev mm2_barr (c : Dev nD) : Vec Ideal S2048x512 .f32 := V c (Pipeline.arrRef spec2 1)
abbrev mm2_ablk (c : Dev nD) (t : Fin cfg2.N) : Vec Ideal S1024x512 .f32 := mm2_iblk V c 0 t
abbrev mm2_bblk (c : Dev nD) (t : Fin cfg2.N) : Vec Ideal S512x512 .f32 := mm2_iblk V c 1 t

-- Point t is K step t % 4 of run t / 4: row block t / 4, the one column block.
theorem mm2_idx : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

-- The accumulator after a point: zero at a first K step, what the point before left at a later one, plus the product of the point's blocks.
theorem mm2_acc_step (c : Dev nD) (t : Fin cfg2.N) (r : Fin 1024) (m : Fin 512) :
    (mm2_outsAt V c t.val t.isLt).2 (ix2 r m)
      = (if t.val % 4 = 0 then 0 else (mm2_outsAt V c (t.val - 1) (Nat.lt_of_le_of_lt (Nat.sub_le _ _) t.isLt)).2 (ix2 r m))
        + ∑ l : Fin 512, mm2_ablk V c t (ix2 r l) * mm2_bblk V c t (ix2 l m) := by
  by_cases h0 : t.val % 4 = 0
  · rw [if_pos h0, mm2_outsAt_A V c t h0 (by omega)]
    simp only [mm2_soutA_eq]
    exact (mm_pay_apply _ _ _ _ _ r m).trans (congrArg (· + _) (mm_zero_apply _ r m))
  · rw [if_neg h0]
    by_cases h1 : t.val % 4 = 3
    · rw [mm2_outsAt_C V c t h0 h1]
      simp only [mm2_C_eq]
      exact mm_pay_apply _ _ _ _ _ r m
    · rw [mm2_outsAt_B V c t h0 h1]
      simp only [mm2_soutB_eq]
      exact mm_pay_apply _ _ _ _ _ r m

-- Entry by entry a last K step leaves the whole sum (mm_acc_last); row ρ lies in the block of the last K step of row block ρ / 1024.
theorem mm2_final (V : (c : Dev nD) → (b : Ref sig .tc) → Buf (Elt Ideal) ((c : Thread nD τ).loc b)) (c : Dev nD) :
    (mm2_dat (F := Ideal) V c).arrAt 2 cfg2.N
      = fun i => ∑ k : Fin 2048, mm2_aarr V c (ix2 (i 0) k) * mm2_barr V c (ix2 k (i 1)) :=
  (mm2_dat V c).arrAt_eq_of_cover 2 _ (fun t hf => by
    have h3 : t.val % 4 = 3 := (flush2_2 t).mp hf
    obtain ⟨-, -, -, -, e4, e5⟩ := mm2_idx t
    funext j
    obtain ⟨r, m, rfl⟩ : ∃ (r : Fin 1024) (m : Fin 512), j = ix2 r m := ⟨j 0, j 1, eq_ix2 j⟩
    rw [View.read_apply]
    show (mm2_dat V c).after 2 t (ix2 r m) = _
    rw [mm2_after2 V c t, show (mm2_outsAt V c t.val t.isLt).1 = (mm2_outsAt V c t.val t.isLt).2 by
      rw [mm2_outsAt_C V c t (by omega) h3]; simp only [mm2_C_eq]]
    exact (mm_acc_last (mm2_aarr V c) (mm2_barr V c) (mm2_ablk V c) (mm2_bblk V c) (fun n h => (mm2_outsAt V c n h).2)
      (fun q => q) (fun _ => 0) (fun t _ _ _ _ hR hK => congrArg (mm2_aarr V c) (Shape.idx_ext₂ (mm_emb (mm2_idx t).1 hR) (mm_emb (mm2_idx t).2.1 hK)))
      (fun t _ _ _ _ hK hN => congrArg (mm2_barr V c) (Shape.idx_ext₂ (mm_emb (mm2_idx t).2.2.1 hK) (mm_emb (mm2_idx t).2.2.2.1 hN))) (mm2_acc_step V c) t h3 r m _ _
      (mm_emb (B := 1024) (y := r.val) e4 rfl) (mm_emb (B := 512) (y := m.val) e5 rfl))) fun i => by
    have hi0 : (i 0).val < 4096 := (i 0).isLt
    have hi1 : (i 1).val < 512 := (i 1).isLt
    obtain ⟨tv, htv⟩ : ∃ tv : ℕ, tv = (i 0).val / 1024 * 4 + 3 := ⟨_, rfl⟩
    have hlt : tv < cfg2.N := by rw [show cfg2.N = 16 from N_2]; omega
    have e := mm2_idx ⟨tv, hlt⟩
    dsimp only at e
    refine ⟨⟨tv, hlt⟩, (flush2_2 _).mpr (by show tv % 4 = 3; omega), ?_⟩
    show i ∈ ((View.whole (Pipeline.arrRef spec2 2)).slice (win2_2.rect ⟨tv, hlt⟩)).set
    rw [View.set_slice_whole, Rect.mem_set_unit]
    exact Fin.forall_fin_two.mpr ⟨mm_in (B := 1024) (v := (i 0).val) e.2.2.2.2.1 (by omega), mm_in (B := 512) (v := (i 1).val) e.2.2.2.2.2 (by omega)⟩

end Cert.KernelIdeal.Hand
-- ==== Proof.MmVal4.lean ====
import proofs.«403689_j2439541424354_3_alg».proof.Proof.MmDat4
import proofs.«403689_j2439541424354_3_alg».proof.Proof.MmLib

namespace Cert.KernelIdeal.Hand

open Cert.KernelIdeal Cert.KernelIdeal.Gen
open Idealize.ShloMosaic Idealize.ShloMosaic.TcCoe
open Idealize.ShloMosaic.ValueIdx

variable {F : FTy → Type} [FloatOps F]

section
variable (c : Dev nD) (i : grid4.Coords) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole) (arg6 : Memref sig .tc .vmem S1024x512 .f32) (harg6 : arg6.IsWhole) (x0 : Vec F S1024x512 .f32) (x1 : Vec F S512x512 .f32) (xs0 : Vec F S1024x512 .f32)

-- What each control case leaves in the accumulator, and the last one in the output block, is the body's update of the blocks.
theorem mm4_soutA_eq (hc0 : mm4_first i) (hc1 : ¬mm4_last i) :
    mm4_soutA c i arg3 harg3 arg4 harg4 arg5 harg5 arg6 harg6 hc0 hc1 x0 x1 = k4_pay2 x0 x1 k4_pay1 := by
  unfold mm4_soutA mm4_runA
  dsimp only
  sl_unfold_words
  rw [mm_read_cons _ _ mm_hz, View.readCov_unit_zero (S := S1024x512) _ mm_hz]
  simp only [mm_ld harg3 mm_hz, mm_ld harg4 mm_hz]

theorem mm4_soutB_eq (hc0 : ¬mm4_first i) (hc1 : ¬mm4_last i) :
    mm4_soutB c i arg3 harg3 arg4 harg4 arg5 harg5 arg6 harg6 hc0 hc1 x0 x1 xs0 = k4_pay2 x0 x1 xs0 := by
  unfold mm4_soutB mm4_runB
  dsimp only
  sl_unfold_words
  rw [mm_read_cons _ _ mm_hz]
  simp only [mm_ld harg3 mm_hz, mm_ld harg4 mm_hz, mm_ld harg6 mm_hz]

theorem mm4_C_eq (hc0 : ¬mm4_first i) (hc1 : mm4_last i) :
    mm4_soutC c i arg3 harg3 arg4 harg4 arg5 harg5 arg6 harg6 hc0 hc1 x0 x1 xs0 = k4_pay2 x0 x1 xs0 ∧ mm4_outC c i arg3 harg3 arg4 harg4 arg5 harg5 arg6 harg6 hc0 hc1 x0 x1 xs0 = k4_pay2 x0 x1 xs0 := by
  unfold mm4_soutC mm4_outC mm4_runC
  dsimp only
  sl_unfold_words
  rw [mm_read_cons _ _ mm_hz, mm_read_cons _ _ mm_hz, View.readCov_unit_zero (S := S1024x512) _ mm_hz]
  simp only [mm_ld harg3 mm_hz, mm_ld harg4 mm_hz, mm_ld harg6 mm_hz]
  exact ⟨trivial, trivial⟩

end

variable (V : (c : Dev nD) → (b : Ref sig .tc) → Buf (Elt Ideal) ((c : Thread nD τ).loc b))

abbrev mm4_aarr (c : Dev nD) : Vec Ideal S4096x2048 .f32 := V c (Pipeline.arrRef spec4 0)
abbrev mm4_barr (c : Dev nD) : Vec Ideal S2048x2048 .f32 := V c (Pipeline.arrRef spec4 1)
abbrev mm4_ablk (c : Dev nD) (t : Fin cfg4.N) : Vec Ideal S1024x512 .f32 := mm4_iblk V c 0 t
abbrev mm4_bblk (c : Dev nD) (t : Fin cfg4.N) : Vec Ideal S512x512 .f32 := mm4_iblk V c 1 t

-- Point t is K step t % 4 of run t / 4: row block t / 4 / 4, column block t / 4 % 4.
theorem mm4_idx : ∀ t : Fin cfg4.N, win4_0.index t (0 : Fin 2) = t.val / 4 / 4 ∧ win4_0.index t (1 : Fin 2) = t.val % 4
    ∧ win4_1.index t (0 : Fin 2) = t.val % 4 ∧ win4_1.index t (1 : Fin 2) = t.val / 4 % 4
    ∧ win4_2.index t (0 : Fin 2) = t.val / 4 / 4 ∧ win4_2.index t (1 : Fin 2) = t.val / 4 % 4 :=
  (by decide +kernel : ∀ t : Fin grid4.N, _)

-- The accumulator after a point: zero at a first K step, what the point before left at a later one, plus the product of the point's blocks.
theorem mm4_acc_step (c : Dev nD) (t : Fin cfg4.N) (r : Fin 1024) (m : Fin 512) :
    (mm4_outsAt V c t.val t.isLt).2 (ix2 r m)
      = (if t.val % 4 = 0 then 0 else (mm4_outsAt V c (t.val - 1) (Nat.lt_of_le_of_lt (Nat.sub_le _ _) t.isLt)).2 (ix2 r m))
        + ∑ l : Fin 512, mm4_ablk V c t (ix2 r l) * mm4_bblk V c t (ix2 l m) := by
  by_cases h0 : t.val % 4 = 0
  · rw [if_pos h0, mm4_outsAt_A V c t h0 (by omega)]
    simp only [mm4_soutA_eq]
    exact (mm_pay_apply _ _ _ _ _ r m).trans (congrArg (· + _) (mm_zero_apply _ r m))
  · rw [if_neg h0]
    by_cases h1 : t.val % 4 = 3
    · rw [mm4_outsAt_C V c t h0 h1]
      simp only [mm4_C_eq]
      exact mm_pay_apply _ _ _ _ _ r m
    · rw [mm4_outsAt_B V c t h0 h1]
      simp only [mm4_soutB_eq]
      exact mm_pay_apply _ _ _ _ _ r m

-- Entry by entry a last K step leaves the whole sum (mm_acc_last); row ρ, column ν lies in the block of the last K step of row block ρ / 1024, column block ν / 512.
theorem mm4_final (V : (c : Dev nD) → (b : Ref sig .tc) → Buf (Elt Ideal) ((c : Thread nD τ).loc b)) (c : Dev nD) :
    (mm4_dat (F := Ideal) V c).arrAt 2 cfg4.N
      = fun i => ∑ k : Fin 2048, mm4_aarr V c (ix2 (i 0) k) * mm4_barr V c (ix2 k (i 1)) :=
  (mm4_dat V c).arrAt_eq_of_cover 2 _ (fun t hf => by
    have h3 : t.val % 4 = 3 := (flush4_2 t).mp hf
    obtain ⟨-, -, -, -, e4, e5⟩ := mm4_idx t
    funext j
    obtain ⟨r, m, rfl⟩ : ∃ (r : Fin 1024) (m : Fin 512), j = ix2 r m := ⟨j 0, j 1, eq_ix2 j⟩
    rw [View.read_apply]
    show (mm4_dat V c).after 2 t (ix2 r m) = _
    rw [mm4_after2 V c t, show (mm4_outsAt V c t.val t.isLt).1 = (mm4_outsAt V c t.val t.isLt).2 by
      rw [mm4_outsAt_C V c t (by omega) h3]; simp only [mm4_C_eq]]
    exact (mm_acc_last (mm4_aarr V c) (mm4_barr V c) (mm4_ablk V c) (mm4_bblk V c) (fun n h => (mm4_outsAt V c n h).2)
      (· / 4) (· % 4) (fun t _ _ _ _ hR hK => congrArg (mm4_aarr V c) (Shape.idx_ext₂ (mm_emb (mm4_idx t).1 hR) (mm_emb (mm4_idx t).2.1 hK)))
      (fun t _ _ _ _ hK hN => congrArg (mm4_barr V c) (Shape.idx_ext₂ (mm_emb (mm4_idx t).2.2.1 hK) (mm_emb (mm4_idx t).2.2.2.1 hN))) (mm4_acc_step V c) t h3 r m _ _
      (mm_emb (B := 1024) (y := r.val) e4 rfl) (mm_emb (B := 512) (y := m.val) e5 rfl))) fun i => by
    have hi0 : (i 0).val < 4096 := (i 0).isLt
    have hi1 : (i 1).val < 2048 := (i 1).isLt
    obtain ⟨tv, htv⟩ : ∃ tv : ℕ, tv = (i 0).val / 1024 * 16 + (i 1).val / 512 * 4 + 3 := ⟨_, rfl⟩
    have hlt : tv < cfg4.N := by rw [show cfg4.N = 64 from N_4]; omega
    have e := mm4_idx ⟨tv, hlt⟩
    dsimp only at e
    refine ⟨⟨tv, hlt⟩, (flush4_2 _).mpr (by show tv % 4 = 3; omega), ?_⟩
    show i ∈ ((View.whole (Pipeline.arrRef spec4 2)).slice (win4_2.rect ⟨tv, hlt⟩)).set
    rw [View.set_slice_whole, Rect.mem_set_unit]
    exact Fin.forall_fin_two.mpr ⟨mm_in (B := 1024) (v := (i 0).val) e.2.2.2.2.1 (by omega), mm_in (B := 512) (v := (i 1).val) e.2.2.2.2.2 (by omega)⟩

end Cert.KernelIdeal.Hand
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![2, 2048, 2048]⟩
abbrev ST : Shape := ⟨3, ![2, 2048, 128]⟩
abbrev SM : Shape := ⟨4, ![2, 1, 2048, 2048]⟩
abbrev SQ : Shape := ⟨2, ![2048, 2048]⟩
abbrev SK : Shape := ⟨2, ![2048, 512]⟩
abbrev SA : Shape := ⟨4, ![2, 16, 2048, 2048]⟩

-- The score scale, the f32 nearest to 128^(-1/2), and the f32 minus infinity a row maximum starts from.
abbrev scale : EReal := Ideal.ofBits .f32 0x3DB504F3#32
abbrev negInf : EReal := Ideal.ofBits .f32 0xFF800000#32

-- Column hd * 128 + d of a 16-head row and of a 4-group row; query head hd reads key and value group hd / 4.
def col16 (hd : Fin 16) (d : Fin 128) : Fin 2048 := ⟨hd.val * 128 + d.val, by have := hd.isLt; have := d.isLt; omega⟩
def col4 (g : Fin 4) (d : Fin 128) : Fin 512 := ⟨g.val * 128 + d.val, by have := g.isLt; have := d.isLt; omega⟩
def grp (hd : Fin 16) : Fin 4 := ⟨hd.val / 4, by have := hd.isLt; omega⟩

-- The half-rotation of a 128-vector, the negated upper half followed by the lower half, and the rotary embedding.
def rot (f : Fin 128 → EReal) (d : Fin 128) : EReal :=
  if h : d.val < 64 then -(f ⟨d.val + 64, by omega⟩) else f ⟨d.val - 64, by have := d.isLt; omega⟩
def rope (f cs sn : Fin 128 → EReal) (d : Fin 128) : EReal := f d * cs d + rot f d * sn d

-- A projection: at (batch, position, column) a row of the first array against a column of the second.
def proj {N : Nat} (X : SX.Idx → EReal) (W : (⟨2, ![2048, N]⟩ : Shape).Idx → EReal) :
    (⟨3, ![2, 2048, N]⟩ : Shape).Idx → EReal := fun i => ∑ h : Fin 2048, X (ix3 (i 0) (i 1) h) * W (ix2 h (i 2))

end Cert.Spec

end
-- ==== Proof.AtPay.lean ====
import proofs.«403689_j2439541424354_3_alg».proof.Proof.AtRun
import proofs.«403689_j2439541424354_3_alg».proof.Proof.Spec
import proofs.«403689_j2439541424354_3_alg».proof.Proof.PlainDot
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.ValueIdx
open Cert.Spec (rope rot scale negInf)
open Cert.Hand (mm_plain_zero_apply)

variable (x0 : Vec Ideal S1x256x128 .f32) (x1 x2 : Vec Ideal S1x2048x128 .f32) (x3 x4 : Vec Ideal S1x256x128 .f32)
  (x5 x6 : Vec Ideal S1x2048x128 .f32) (x7 : Vec Ideal S1x1x256x2048 .f32) (r : Fin 256) (t : Fin 2048) (d : Fin 128)

-- Lane d of query row r, and of key row t, after the rotary embedding.
def at3_qrot : EReal :=
  rope (fun d' => x0 (ix3 0 r d')) (fun d' => x3 (ix3 0 r d')) (fun d' => x4 (ix3 0 r d')) d

def at3_krot : EReal :=
  rope (fun d' => x1 (ix3 0 t d')) (fun d' => x5 (ix3 0 t d')) (fun d' => x6 (ix3 0 t d')) d

-- Row r against row t: the lanes' products summed, scaled, plus the mask entry.
def at3_sc : EReal :=
  (∑ d : Fin 128, at3_qrot x0 x3 x4 r d * at3_krot x1 x5 x6 t d) * scale + x7 (ix4 0 0 r t)

def at3_smax (f : Fin 2048 → EReal) (t : Fin 2048) : EReal :=
  Ideal.div (Ideal.exp (f t - (Finset.univ : Finset (Fin 2048)).fold max negInf f))
    (∑ t' : Fin 2048, Ideal.exp (f t' - (Finset.univ : Finset (Fin 2048)).fold max negInf f))

def at3_wt : EReal := at3_smax (at3_sc x0 x1 x3 x4 x5 x6 x7 r) t

-- A row's half-rotation as the body spells it: 0 - the upper half, then the lower half.
def at3_rotv {n : ℕ} (v : FVec Ideal ⟨2, ![n, 128]⟩ .f32)
    (h0 : (⟨2, ![n, 128]⟩ : Shape).Slices ![0, 0] ⟨2, ![n, 64]⟩)
    (h1 : (⟨2, ![n, 128]⟩ : Shape).Slices ![0, 64] ⟨2, ![n, 64]⟩)
    (hc : Shape.Concatenates [(⟨2, ![n, 64]⟩ : Shape), ⟨2, ![n, 64]⟩] ⟨2, ![n, 128]⟩ 1) : FVec Ideal ⟨2, ![n, 128]⟩ .f32 :=
  concatenate (⟨2, ![n, 128]⟩ : Shape) 1
    [⟨⟨2, ![n, 64]⟩, subf (broadcast ⟨2, ![n, 64]⟩ (Scalar.ofBits (F := Ideal) .f32 0x00000000#32)) (extractStridedSlice ⟨2, ![n, 64]⟩ ![0, 64] v h1)⟩,
     ⟨⟨2, ![n, 64]⟩, extractStridedSlice ⟨2, ![n, 64]⟩ ![0, 0] v h0⟩] hc

theorem at3_rot_read {n : ℕ} (v : FVec Ideal ⟨2, ![n, 128]⟩ .f32) (h0 h1 hc) (r : Fin n) (d : Fin 128) :
    at3_rotv v h0 h1 hc (ix2 r d) = rot (fun d' => v (ix2 r d')) d := by
  unfold rot at3_rotv
  by_cases h : d.val < 64
  · rw [dif_pos h]
    refine (concatenate_pair_apply_left (t := ⟨2, ![n, 128]⟩) (s₁ := ⟨2, ![n, 64]⟩) (s₂ := ⟨2, ![n, 64]⟩) (1 : Fin 2) _ _ hc (ix2 r d) (rfl : (2 : ℕ) = 2) (ix2 r (⟨d.val, h⟩ : Fin 64))
      (fun b => match b with | ⟨0, _⟩ => rfl | ⟨1, _⟩ => rfl)).trans ?_
    show Ideal.ofBits .f32 0x00000000#32 - extractStridedSlice ⟨2, ![n, 64]⟩ ![0, 64] v h1 (ix2 r ⟨d.val, h⟩) = _
    rw [Ideal.ofBits_zero_f32, zero_sub]
    exact congrArg Neg.neg (slice2_axis1_apply 64 v h1 r ⟨d.val, h⟩ ⟨d.val + 64, by omega⟩ (Nat.add_comm _ _))
  · rw [dif_neg h]
    have hd : d.val - 64 < 64 := by have := d.isLt; omega
    refine (concatenate_pair_apply_right (t := ⟨2, ![n, 128]⟩) (s₁ := ⟨2, ![n, 64]⟩) (s₂ := ⟨2, ![n, 64]⟩) (1 : Fin 2) _ _ hc (ix2 r d) (rfl : (2 : ℕ) = 2) (rfl : (2 : ℕ) = 2) (ix2 r (⟨d.val - 64, hd⟩ : Fin 64)) ?_ ?_).trans ?_
    · intro b hb
      match b with
      | ⟨0, _⟩ => rfl
      | ⟨1, _⟩ => exact absurd rfl hb
    · show d.val - 64 + 64 = d.val
      omega
    · exact slice2_axis1_apply 0 v h0 r ⟨d.val - 64, hd⟩ ⟨d.val - 64, by have := d.isLt; omega⟩ (Nat.zero_add _).symm

theorem at3_rope_read {n : ℕ} (x c s : Vec Ideal ⟨3, ![1, n, 128]⟩ .f32)
    (hs : (⟨3, ![1, n, 128]⟩ : Shape).ShapeCasts ⟨2, ![n, 128]⟩) (h0 h1 hc)
    (hb : FTy.bits .bf16 < FTy.bits .f32) (r : Fin n) (d : Fin 128) :
    (truncf .bf16 (addf (mulf (shapeCast ⟨2, ![n, 128]⟩ x hs) (shapeCast ⟨2, ![n, 128]⟩ c hs))
        (mulf (at3_rotv (shapeCast ⟨2, ![n, 128]⟩ x hs) h0 h1 hc) (shapeCast ⟨2, ![n, 128]⟩ s hs))) hb : FVec Ideal ⟨2, ![n, 128]⟩ .bf16) (ix2 r d)
      = rope (fun d' => x (ix3 0 r d')) (fun d' => c (ix3 0 r d')) (fun d' => s (ix3 0 r d')) d := by
  unfold rope
  rw [truncf_apply, addf_apply, mulf_apply, mulf_apply, at3_rot_read _ h0 h1 hc r d,
    shapeCast_1ab_ab_apply x hs r d, shapeCast_1ab_ab_apply c hs r d, shapeCast_1ab_ab_apply s hs r d]
  exact congrArg (fun f => x (ix3 0 r d) * c (ix3 0 r d) + rot f d * s (ix3 0 r d))
    (funext fun d' => shapeCast_1ab_ab_apply x hs r d')

theorem at3_pay5_apply : k3_pay5 x0 x3 x4 (ix2 r d) = at3_qrot x0 x3 x4 r d :=
  at3_rope_read x0 x3 x4 _ _ _ _ _ r d

theorem at3_pay6_apply : k3_pay6 x1 x5 x6 (ix2 d t) = at3_krot x1 x5 x6 t d :=
  (transpose_ix2_apply _ _ d t).trans (at3_rope_read x1 x5 x6 _ _ _ _ _ t d)

theorem at3_pay4_apply : k3_pay4 x2 (ix2 t d) = x2 (ix3 0 t d) :=
  shapeCast_1ab_ab_apply x2 _ t d

variable (h : S256x2048.Reduces [1] S256) (hφ : FKind.Formats .f32) (hs : S256.ShapeCasts S256x1) (hb : S256x1.Broadcasts S256x2048)

theorem at3_rowmax_apply (src : FVec Ideal S256x2048 .f32) (hacc : (0xFF800000#32 : BitVec 32) = 0xFF800000#32) :
    multiReduction .maximumf [1] S256 src 0xFF800000#32 h hφ hacc (ix1 r)
      = (Finset.univ : Finset (Fin 2048)).fold max negInf (fun t => src (ix2 r t)) :=
  (Ideal.multiReduction_maximumf_single src 0xFF800000#32 h hφ hacc (ix1 r)).trans
    (congrArg (fun f => (Finset.univ : Finset (Fin 2048)).fold max negInf f)
      (funext fun k => congrArg src (funext fun a => Fin.ext (by match a with | ⟨0, _⟩ => rfl | ⟨1, _⟩ => rfl))))

theorem at3_rowsum_apply (src : FVec Ideal S256x2048 .f32) (hacc : (0x00000000#32 : BitVec 32) = 0x00000000#32) :
    multiReduction .add [1] S256 src 0x00000000#32 h hφ hacc (ix1 r) = ∑ t : Fin 2048, src (ix2 r t) :=
  (Ideal.multiReduction_add_single src 0x00000000#32 h hφ hacc (ix1 r)).trans
    (Finset.sum_congr rfl fun k _ => congrArg src (funext fun a => Fin.ext (by match a with | ⟨0, _⟩ => rfl | ⟨1, _⟩ => rfl)))

theorem at3_col_read (v : FVec Ideal S256 .f32) :
    broadcastTo S256x2048 (shapeCast S256x1 v hs) hb (ix2 r t) = v (ix1 r) := by
  refine (broadcastTo_apply _ hb (ix2 r t) (ix2 r (0 : Fin 1)) (fun a => ?_)).trans ?_
  · match a with
    | ⟨0, _⟩ => show r.val = if (256 : ℕ) = 1 then 0 else r.val; rw [if_neg (by decide)]
    | ⟨1, _⟩ => show (0 : ℕ) = if (1 : ℕ) = 1 then 0 else t.val; rw [if_pos rfl]
  · exact shapeCast_apply v hs _ (ix1 r) (by
      rw [Shape.rowMajor_val_one, Shape.rowMajor_val_two]
      show r.val = r.val * 1 + 0
      omega)

-- hf names row r of the block, so that the maximum is a fold over that row function.
theorem at3_shift_read (s : FVec Ideal S256x2048 .f32) (hm : (0xFF800000#32 : BitVec 32) = 0xFF800000#32)
    (f : Fin 2048 → EReal) (hf : ∀ t, s (ix2 r t) = f t) :
    exp (subf s (broadcastTo S256x2048 (shapeCast S256x1 (multiReduction .maximumf [1] S256 s 0xFF800000#32 h hφ hm) hs) hb)) (ix2 r t)
      = Ideal.exp (f t - (Finset.univ : Finset (Fin 2048)).fold max negInf f) := by
  show Ideal.exp (s (ix2 r t) - broadcastTo S256x2048 (shapeCast S256x1 (multiReduction .maximumf [1] S256 s 0xFF800000#32 h hφ hm) hs) hb (ix2 r t)) = _
  rw [at3_col_read r t hs hb, at3_rowmax_apply r h hφ s hm, hf, show (fun t' => s (ix2 r t')) = f from funext hf]

theorem at3_norm_read (e : FVec Ideal S256x2048 .f32) (ha : (0x00000000#32 : BitVec 32) = 0x00000000#32) :
    divf e (broadcastTo S256x2048 (shapeCast S256x1 (multiReduction .add [1] S256 e 0x00000000#32 h hφ ha) hs) hb) (ix2 r t)
      = Ideal.div (e (ix2 r t)) (∑ t' : Fin 2048, e (ix2 r t')) := by
  rw [divf_apply, at3_col_read r t hs hb, at3_rowsum_apply r h hφ e ha]

theorem at3_score_read (hc : S1x1x256x2048.ShapeCasts S256x2048) :
    addf (mulf (matmul dot_S256x128_S128x2048_S256x2048_1_0_0_1_n_n none (k3_pay5 x0 x3 x4) (k3_pay6 x1 x5 x6) (constant (F := Ideal) S256x2048 .f32 0x00000000#32))
        (broadcast S256x2048 (Scalar.ofBits (F := Ideal) .f32 0x3DB504F3#32))) (shapeCast S256x2048 x7 hc) (ix2 r t)
      = at3_sc x0 x1 x3 x4 x5 x6 x7 r t := by
  rw [addf_apply, mulf_apply, broadcast_apply, mm_plain_zero_apply dot_S256x128_S128x2048_S256x2048_1_0_0_1_n_n rfl _ _ r t,
    shapeCast_apply x7 hc (ix2 r t) (ix4 0 0 r t) (by
      rw [Shape.rowMajor_val_four, Shape.rowMajor_val_two]
      show ((0 * 1 + 0) * 256 + r.val) * 2048 + t.val = r.val * 2048 + t.val
      omega)]
  exact congrArg (fun z => z * scale + x7 (ix4 0 0 r t))
    (Finset.sum_congr rfl fun d _ => by rw [at3_pay5_apply, at3_pay6_apply])

theorem at3_pay1_wt :
    k3_pay1 (k3_pay5 x0 x3 x4) (k3_pay6 x1 x5 x6) (constant (F := Ideal) S256x2048 .f32 0x00000000#32) x7 (ix2 r t)
      = at3_wt x0 x1 x3 x4 x5 x6 x7 r t := by
  unfold k3_pay1 at3_wt at3_smax
  dsimp only
  refine (at3_norm_read r t _ _ _ _ _ _).trans (congrArg₂ Ideal.div ?_ (Finset.sum_congr rfl fun t' _ => ?_)) <;>
    exact at3_shift_read r _ _ _ _ _ _ _ _ (at3_score_read x0 x1 x3 x4 x5 x6 x7 r · _)

theorem at3_outW_apply : at3_outW x0 x1 x3 x4 x5 x6 x7 (ix4 0 0 r t) = at3_wt x0 x1 x3 x4 x5 x6 x7 r t := by
  unfold at3_outW k3_pay2
  refine (shapeCast_apply _ _ (ix4 0 0 r t) (ix2 r t) (by
    rw [Shape.rowMajor_val_two, Shape.rowMajor_val_four]
    show r.val * 2048 + t.val = ((0 * 1 + 0) * 256 + r.val) * 2048 + t.val
    omega)).trans (at3_pay1_wt x0 x1 x3 x4 x5 x6 x7 r t)

theorem at3_outO_apply :
    at3_outO x0 x1 x2 x3 x4 x5 x6 x7 (ix3 0 r d) = ∑ t : Fin 2048, at3_wt x0 x1 x3 x4 x5 x6 x7 r t * x2 (ix3 0 t d) := by
  unfold at3_outO k3_pay3
  refine (shapeCast_ab_1ab_apply _ _ 0 r d).trans ((mm_plain_zero_apply _ rfl _ _ r d).trans (Finset.sum_congr rfl fun t _ => ?_))
  rw [truncf_apply, truncf_apply, at3_pay4_apply x2 t d, at3_pay1_wt x0 x1 x3 x4 x5 x6 x7 r t]

end Cert.KernelIdeal.Hand

end
-- ==== Proof.SpecA.lean ====
import proofs.«403689_j2439541424354_3_alg».proof.Proof.Spec

noncomputable section

open scoped BigOperators

-- The attention core over given query, key and value arrays: rotary embedding, masked scaled scores, row softmax, attended values.
namespace Cert.SpecA

open Idealize.ShloMosaic Idealize.ShloMosaic.ValueIdx Cert.Spec

abbrev SKV : Shape := ⟨3, ![2, 2048, 512]⟩

section

variable (Q : SX.Idx → EReal) (K Vv : SKV.Idx → EReal) (Cs Sn : ST.Idx → EReal) (M : SM.Idx → EReal)

def qR (b : Fin 2) (hd : Fin 16) (s : Fin 2048) (d : Fin 128) : EReal :=
  rope (fun d' => Q (ix3 b s (col16 hd d'))) (fun d' => Cs (ix3 b s d')) (fun d' => Sn (ix3 b s d')) d
def kR (b : Fin 2) (g : Fin 4) (s : Fin 2048) (d : Fin 128) : EReal :=
  rope (fun d' => K (ix3 b s (col4 g d'))) (fun d' => Cs (ix3 b s d')) (fun d' => Sn (ix3 b s d')) d

def score (b : Fin 2) (hd : Fin 16) (s t : Fin 2048) : EReal :=
  (∑ d : Fin 128, qR Q Cs Sn b hd s d * kR K Cs Sn b (grp hd) t d) * scale + M (ix4 b 0 s t)
def rowMax (b : Fin 2) (hd : Fin 16) (s : Fin 2048) : EReal :=
  (Finset.univ : Finset (Fin 2048)).fold max negInf (fun t => score Q K Cs Sn M b hd s t)
def ex (b : Fin 2) (hd : Fin 16) (s t : Fin 2048) : EReal :=
  Ideal.exp (score Q K Cs Sn M b hd s t - rowMax Q K Cs Sn M b hd s)
def den (b : Fin 2) (hd : Fin 16) (s : Fin 2048) : EReal := ∑ t : Fin 2048, ex Q K Cs Sn M b hd s t
def wgt (b : Fin 2) (hd : Fin 16) (s t : Fin 2048) : EReal :=
  Ideal.div (ex Q K Cs Sn M b hd s t) (den Q K Cs Sn M b hd s)
def att (b : Fin 2) (hd : Fin 16) (s : Fin 2048) (d : Fin 128) : EReal :=
  ∑ t : Fin 2048, wgt Q K Cs Sn M b hd s t * Vv (ix3 b t (col4 (grp hd) d))

def weights : SA.Idx → EReal := fun i => wgt Q K Cs Sn M (i 0) (i 1) (i 2) (i 3)
def heads : SX.Idx → EReal := fun i =>
  att Q K Vv Cs Sn M (i 0) ⟨(i 2).val / 128, by have h : (i 2).val < 2048 := (i 2).isLt; omega⟩ (i 1) ⟨(i 2).val % 128, by omega⟩

end

end Cert.SpecA

namespace Cert.Spec

open Idealize.ShloMosaic

variable (X : SX.Idx → EReal) (Cs Sn : ST.Idx → EReal) (M : SM.Idx → EReal)
  (Wq : SQ.Idx → EReal) (Wk Wv : SK.Idx → EReal) (Wo : SQ.Idx → EReal)

-- The two results: the core at the three projections of the hidden states, and the output projection of its attended values.
def weights : SA.Idx → EReal := SpecA.weights (proj X Wq) (proj X Wk) Cs Sn M
def output : SX.Idx → EReal := proj (SpecA.heads (proj X Wq) (proj X Wk) (proj X Wv) Cs Sn M) Wo

end Cert.Spec

end
-- ==== Proof.AtVal.lean ====
import proofs.«403689_j2439541424354_3_alg».proof.Proof.AtDat
import proofs.«403689_j2439541424354_3_alg».proof.Proof.AtPay
import proofs.«403689_j2439541424354_3_alg».proof.Proof.SpecA

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Cert.Spec (col16 col4 grp)

variable (V : (c : Dev nD) → (b : Ref sig .tc) → Buf (Elt Ideal) ((c : Thread nD τ).loc b)) (c : Dev nD) (t : Fin cfg3.N) (r : Fin 256) (s : Fin 2048) (d : Fin 128)

-- Point t is (batch * 8 + query tile) * 16 + head; every window's block index is a function of these three.
theorem at3_idx : ∀ t : Fin cfg3.N,
    (win3_0.index t (0 : Fin 3) = t.val / 128 ∧ win3_0.index t (1 : Fin 3) = t.val / 16 % 8 ∧ win3_0.index t (2 : Fin 3) = t.val % 16)
    ∧ (win3_1.index t (0 : Fin 3) = t.val / 128 ∧ win3_1.index t (1 : Fin 3) = 0 ∧ win3_1.index t (2 : Fin 3) = t.val % 16 / 4)
    ∧ (win3_2.index t (0 : Fin 3) = t.val / 128 ∧ win3_2.index t (1 : Fin 3) = 0 ∧ win3_2.index t (2 : Fin 3) = t.val % 16 / 4)
    ∧ (win3_3.index t (0 : Fin 3) = t.val / 128 ∧ win3_3.index t (1 : Fin 3) = t.val / 16 % 8 ∧ win3_3.index t (2 : Fin 3) = 0)
    ∧ (win3_4.index t (0 : Fin 3) = t.val / 128 ∧ win3_4.index t (1 : Fin 3) = t.val / 16 % 8 ∧ win3_4.index t (2 : Fin 3) = 0)
    ∧ (win3_5.index t (0 : Fin 3) = t.val / 128 ∧ win3_5.index t (1 : Fin 3) = 0 ∧ win3_5.index t (2 : Fin 3) = 0)
    ∧ (win3_6.index t (0 : Fin 3) = t.val / 128 ∧ win3_6.index t (1 : Fin 3) = 0 ∧ win3_6.index t (2 : Fin 3) = 0)
    ∧ (win3_7.index t (0 : Fin 4) = t.val / 128 ∧ win3_7.index t (1 : Fin 4) = 0 ∧ win3_7.index t (2 : Fin 4) = t.val / 16 % 8 ∧ win3_7.index t (3 : Fin 4) = 0)
    ∧ (win3_8.index t (0 : Fin 4) = t.val / 128 ∧ win3_8.index t (1 : Fin 4) = t.val % 16 ∧ win3_8.index t (2 : Fin 4) = t.val / 16 % 8 ∧ win3_8.index t (3 : Fin 4) = 0)
    ∧ (win3_9.index t (0 : Fin 3) = t.val / 128 ∧ win3_9.index t (1 : Fin 3) = t.val / 16 % 8 ∧ win3_9.index t (2 : Fin 3) = t.val % 16) :=
  (by decide +kernel : ∀ t : Fin grid3.N, _)

def at3_b : Fin 2 := ⟨t.val / 128, by have h : t.val < 256 := N_3 ▸ t.isLt; omega⟩
def at3_q : Fin 8 := ⟨t.val / 16 % 8, by omega⟩
def at3_h : Fin 16 := ⟨t.val % 16, by omega⟩

def at3_row (q : Fin 8) (r : Fin 256) : Fin 2048 := ⟨q.val * 256 + r.val, by have := q.isLt; have := r.isLt; omega⟩

abbrev at3_Q : Vec Ideal S2x2048x2048 .f32 := V c (Pipeline.arrRef spec3 0)
abbrev at3_K : Vec Ideal S2x2048x512 .f32 := V c (Pipeline.arrRef spec3 1)
abbrev at3_Vv : Vec Ideal S2x2048x512 .f32 := V c (Pipeline.arrRef spec3 2)
abbrev at3_Cs : Vec Ideal S2x2048x128 .f32 := V c (Pipeline.arrRef spec3 3)
abbrev at3_Sn : Vec Ideal S2x2048x128 .f32 := V c (Pipeline.arrRef spec3 4)
abbrev at3_M : Vec Ideal S2x1x2048x2048 .f32 := V c (Pipeline.arrRef spec3 7)

-- Each input block of point t is a block of its array: block index times block size plus the local coordinate.
theorem at3_x0_apply :
    (at3_iblk V c 0 t : Vec Ideal S1x256x128 .f32) (ix3 0 r d) = at3_Q V c (ix3 (at3_b t) (at3_row (at3_q t) r) (col16 (at3_h t) d)) := by
  obtain ⟨⟨e0, e1, e2⟩, -⟩ := at3_idx t
  show at3_Q V c _ = _
  congr 1; funext a; apply Fin.ext
  match a with
  | ⟨0, _⟩ => show win3_0.index t (0 : Fin 3) * 1 + 1 * 0 = t.val / 128; omega
  | ⟨1, _⟩ => show win3_0.index t (1 : Fin 3) * 256 + 1 * r.val = t.val / 16 % 8 * 256 + r.val; omega
  | ⟨2, _⟩ => show win3_0.index t (2 : Fin 3) * 128 + 1 * d.val = t.val % 16 * 128 + d.val; omega

theorem at3_x1_apply :
    (at3_iblk V c 1 t : Vec Ideal S1x2048x128 .f32) (ix3 0 s d) = at3_K V c (ix3 (at3_b t) s (col4 (grp (at3_h t)) d)) := by
  obtain ⟨-, ⟨e0, e1, e2⟩, -⟩ := at3_idx t
  show at3_K V c _ = _
  congr 1; funext a; apply Fin.ext
  match a with
  | ⟨0, _⟩ => show win3_1.index t (0 : Fin 3) * 1 + 1 * 0 = t.val / 128; omega
  | ⟨1, _⟩ => show win3_1.index t (1 : Fin 3) * 2048 + 1 * s.val = s.val; omega
  | ⟨2, _⟩ => show win3_1.index t (2 : Fin 3) * 128 + 1 * d.val = t.val % 16 / 4 * 128 + d.val; omega

theorem at3_x2_apply :
    (at3_iblk V c 2 t : Vec Ideal S1x2048x128 .f32) (ix3 0 s d) = at3_Vv V c (ix3 (at3_b t) s (col4 (grp (at3_h t)) d)) := by
  obtain ⟨-, -, ⟨e0, e1, e2⟩, -⟩ := at3_idx t
  show at3_Vv V c _ = _
  congr 1; funext a; apply Fin.ext
  match a with
  | ⟨0, _⟩ => show win3_2.index t (0 : Fin 3) * 1 + 1 * 0 = t.val / 128; omega
  | ⟨1, _⟩ => show win3_2.index t (1 : Fin 3) * 2048 + 1 * s.val = s.val; omega
  | ⟨2, _⟩ => show win3_2.index t (2 : Fin 3) * 128 + 1 * d.val = t.val % 16 / 4 * 128 + d.val; omega

theorem at3_x3_apply :
    (at3_iblk V c 3 t : Vec Ideal S1x256x128 .f32) (ix3 0 r d) = at3_Cs V c (ix3 (at3_b t) (at3_row (at3_q t) r) d) := by
  obtain ⟨-, -, -, ⟨e0, e1, e2⟩, -⟩ := at3_idx t
  show at3_Cs V c _ = _
  congr 1; funext a; apply Fin.ext
  match a with
  | ⟨0, _⟩ => show win3_3.index t (0 : Fin 3) * 1 + 1 * 0 = t.val / 128; omega
  | ⟨1, _⟩ => show win3_3.index t (1 : Fin 3) * 256 + 1 * r.val = t.val / 16 % 8 * 256 + r.val; omega
  | ⟨2, _⟩ => show win3_3.index t (2 : Fin 3) * 128 + 1 * d.val = d.val; omega

theorem at3_x4_apply :
    (at3_iblk V c 4 t : Vec Ideal S1x256x128 .f32) (ix3 0 r d) = at3_Sn V c (ix3 (at3_b t) (at3_row (at3_q t) r) d) := by
  obtain ⟨-, -, -, -, ⟨e0, e1, e2⟩, -⟩ := at3_idx t
  show at3_Sn V c _ = _
  congr 1; funext a; apply Fin.ext
  match a with
  | ⟨0, _⟩ => show win3_4.index t (0 : Fin 3) * 1 + 1 * 0 = t.val / 128; omega
  | ⟨1, _⟩ => show win3_4.index t (1 : Fin 3) * 256 + 1 * r.val = t.val / 16 % 8 * 256 + r.val; omega
  | ⟨2, _⟩ => show win3_4.index t (2 : Fin 3) * 128 + 1 * d.val = d.val; omega

theorem at3_x5_apply :
    (at3_iblk V c 5 t : Vec Ideal S1x2048x128 .f32) (ix3 0 s d) = at3_Cs V c (ix3 (at3_b t) s d) := by
  obtain ⟨-, -, -, -, -, ⟨e0, e1, e2⟩, -⟩ := at3_idx t
  show at3_Cs V c _ = _
  congr 1; funext a; apply Fin.ext
  match a with
  | ⟨0, _⟩ => show win3_5.index t (0 : Fin 3) * 1 + 1 * 0 = t.val / 128; omega
  | ⟨1, _⟩ => show win3_5.index t (1 : Fin 3) * 2048 + 1 * s.val = s.val; omega
  | ⟨2, _⟩ => show win3_5.index t (2 : Fin 3) * 128 + 1 * d.val = d.val; omega

theorem at3_x6_apply :
    (at3_iblk V c 6 t : Vec Ideal S1x2048x128 .f32) (ix3 0 s d) = at3_Sn V c (ix3 (at3_b t) s d) := by
  obtain ⟨-, -, -, -, -, -, ⟨e0, e1, e2⟩, -⟩ := at3_idx t
  show at3_Sn V c _ = _
  congr 1; funext a; apply Fin.ext
  match a with
  | ⟨0, _⟩ => show win3_6.index t (0 : Fin 3) * 1 + 1 * 0 = t.val / 128; omega
  | ⟨1, _⟩ => show win3_6.index t (1 : Fin 3) * 2048 + 1 * s.val = s.val; omega
  | ⟨2, _⟩ => show win3_6.index t (2 : Fin 3) * 128 + 1 * d.val = d.val; omega

theorem at3_x7_apply :
    (at3_iblk V c 7 t : Vec Ideal S1x1x256x2048 .f32) (ix4 0 0 r s) = at3_M V c (ix4 (at3_b t) 0 (at3_row (at3_q t) r) s) := by
  obtain ⟨-, -, -, -, -, -, -, ⟨e0, e1, e2, e3⟩, -⟩ := at3_idx t
  show at3_M V c _ = _
  congr 1; funext a; apply Fin.ext
  match a with
  | ⟨0, _⟩ => show win3_7.index t (0 : Fin 4) * 1 + 1 * 0 = t.val / 128; omega
  | ⟨1, _⟩ => show win3_7.index t (1 : Fin 4) * 1 + 1 * 0 = 0; omega
  | ⟨2, _⟩ => show win3_7.index t (2 : Fin 4) * 256 + 1 * r.val = t.val / 16 % 8 * 256 + r.val; omega
  | ⟨3, _⟩ => show win3_7.index t (3 : Fin 4) * 2048 + 1 * s.val = s.val; omega

section
open Cert.SpecA (SKV)
variable {Q : Cert.Spec.SX.Idx → EReal} {K Vv : SKV.Idx → EReal} {Cs Sn : Cert.Spec.ST.Idx → EReal} {M : Cert.Spec.SM.Idx → EReal}
  {x0 : Vec Ideal S1x256x128 .f32} {x1 x2 : Vec Ideal S1x2048x128 .f32} {x3 x4 : Vec Ideal S1x256x128 .f32}
  {x5 x6 : Vec Ideal S1x2048x128 .f32} {x7 : Vec Ideal S1x1x256x2048 .f32} {b : Fin 2} {hd : Fin 16} {q : Fin 8}
  (h0 : ∀ r d, x0 (ix3 0 r d) = Q (ix3 b (at3_row q r) (col16 hd d)))
  (h1 : ∀ s d, x1 (ix3 0 s d) = K (ix3 b s (col4 (grp hd) d)))
  (h3 : ∀ r d, x3 (ix3 0 r d) = Cs (ix3 b (at3_row q r) d))
  (h4 : ∀ r d, x4 (ix3 0 r d) = Sn (ix3 b (at3_row q r) d))
  (h5 : ∀ s d, x5 (ix3 0 s d) = Cs (ix3 b s d))
  (h6 : ∀ s d, x6 (ix3 0 s d) = Sn (ix3 b s d))
  (h7 : ∀ r s, x7 (ix4 0 0 r s) = M (ix4 b 0 (at3_row q r) s))
  (h2 : ∀ s d, x2 (ix3 0 s d) = Vv (ix3 b s (col4 (grp hd) d)))
theorem at3_heads_col (b : Fin 2) (s : Fin 2048) (hd : Fin 16) (d : Fin 128) :
    Cert.SpecA.heads Q K Vv Cs Sn M (ix3 b s (col16 hd d)) = Cert.SpecA.att Q K Vv Cs Sn M b hd s d := by
  have e1 : (⟨(hd.val * 128 + d.val) / 128, by have := hd.isLt; have := d.isLt; omega⟩ : Fin 16) = hd :=
    Fin.ext (by show (hd.val * 128 + d.val) / 128 = hd.val; have := d.isLt; omega)
  have e2 : (⟨(hd.val * 128 + d.val) % 128, Nat.mod_lt _ (by decide)⟩ : Fin 128) = d :=
    Fin.ext (by show (hd.val * 128 + d.val) % 128 = d.val; have := d.isLt; omega)
  show Cert.SpecA.att Q K Vv Cs Sn M b ⟨(hd.val * 128 + d.val) / 128, _⟩ s ⟨(hd.val * 128 + d.val) % 128, _⟩ = _
  rw [e1, e2]

include h0 h1 h3 h4 h5 h6 h7

theorem at3_blockW (r : Fin 256) (s : Fin 2048) :
    at3_wt x0 x1 x3 x4 x5 x6 x7 r s = Cert.SpecA.weights Q K Cs Sn M (ix4 b hd (at3_row q r) s) := by
  show at3_smax _ s = at3_smax (fun s' => Cert.SpecA.score Q K Cs Sn M b hd (at3_row q r) s') s
  refine congrArg (at3_smax · s) (funext fun s' => ?_)
  unfold at3_sc Cert.SpecA.score at3_qrot at3_krot Cert.SpecA.qR Cert.SpecA.kR
  simp only [h0, h1, h3, h4, h5, h6, h7]

include h2
theorem at3_blockO (r : Fin 256) (d : Fin 128) :
    ∑ s : Fin 2048, at3_wt x0 x1 x3 x4 x5 x6 x7 r s * x2 (ix3 0 s d)
      = Cert.SpecA.heads Q K Vv Cs Sn M (ix3 b (at3_row q r) (col16 hd d)) := by
  rw [at3_heads_col]
  unfold Cert.SpecA.att
  refine Finset.sum_congr rfl fun s _ => ?_
  rw [at3_blockW h0 h1 h3 h4 h5 h6 h7 r s, h2 s d]
  rfl

end

theorem at3_flushedW :
    (at3_dat (F := Ideal) V c).flushed 8 t = ((cfg3.win 8).blk t).view.read (Elt Ideal)
      (Cert.SpecA.weights (at3_Q V c) (at3_K V c) (at3_Cs V c) (at3_Sn V c) (at3_M V c)) := by
  obtain ⟨-, -, -, -, -, -, -, -, ⟨e0, e1, e2, e3⟩, -⟩ := at3_idx t
  funext j
  have hj0 : (j 0).val < 1 := (j 0).isLt
  have hj1 : (j 1).val < 1 := (j 1).isLt
  have hj2 : (j 2).val < 256 := (j 2).isLt
  have hj3 : (j 3).val < 2048 := (j 3).isLt
  have ej : ((cfg3.win 8).xinj (grid3.coords t) j : S1x1x256x2048.Idx) = ix4 0 0 ⟨(j 2).val, hj2⟩ ⟨(j 3).val, hj3⟩ :=
    funext fun a => Fin.ext (by
      match a with
      | ⟨0, _⟩ => show (j 0).val = 0; omega
      | ⟨1, _⟩ => show (j 1).val = 0; omega
      | ⟨2, _⟩ => rfl
      | ⟨3, _⟩ => rfl)
  show at3_outW (F := Ideal) _ _ _ _ _ _ _ ((cfg3.win 8).xinj (grid3.coords t) j) = Cert.SpecA.weights _ _ _ _ _ (((cfg3.win 8).blk t).view.emb j)
  rw [ej, at3_outW_apply, at3_blockW (at3_x0_apply V c t) (at3_x1_apply V c t) (at3_x3_apply V c t) (at3_x4_apply V c t) (at3_x5_apply V c t) (at3_x6_apply V c t) (at3_x7_apply V c t)]
  congr 1; funext a; apply Fin.ext
  match a with
  | ⟨0, _⟩ => show t.val / 128 = win3_8.index t (0 : Fin 4) * 1 + 1 * (j 0).val; omega
  | ⟨1, _⟩ => show t.val % 16 = win3_8.index t (1 : Fin 4) * 1 + 1 * (j 1).val; omega
  | ⟨2, _⟩ => show t.val / 16 % 8 * 256 + (j 2).val = win3_8.index t (2 : Fin 4) * 256 + 1 * (j 2).val; omega
  | ⟨3, _⟩ => show (j 3).val = win3_8.index t (3 : Fin 4) * 2048 + 1 * (j 3).val; omega

theorem at3_flushedO :
    (at3_dat (F := Ideal) V c).flushed 9 t = ((cfg3.win 9).blk t).view.read (Elt Ideal)
      (Cert.SpecA.heads (at3_Q V c) (at3_K V c) (at3_Vv V c) (at3_Cs V c) (at3_Sn V c) (at3_M V c)) := by
  obtain ⟨-, -, -, -, -, -, -, -, -, e0, e1, e2⟩ := at3_idx t
  funext j
  have hj0 : (j 0).val < 1 := (j 0).isLt
  have hj1 : (j 1).val < 256 := (j 1).isLt
  have hj2 : (j 2).val < 128 := (j 2).isLt
  have ej : ((cfg3.win 9).xinj (grid3.coords t) j : S1x256x128.Idx) = ix3 0 ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  show at3_outO (F := Ideal) _ _ _ _ _ _ _ _ ((cfg3.win 9).xinj (grid3.coords t) j) = Cert.SpecA.heads _ _ _ _ _ _ (((cfg3.win 9).blk t).view.emb j)
  rw [ej, at3_outO_apply, at3_blockO (at3_x0_apply V c t) (at3_x1_apply V c t) (at3_x3_apply V c t) (at3_x4_apply V c t) (at3_x5_apply V c t) (at3_x6_apply V c t) (at3_x7_apply V c t) (at3_x2_apply V c t)]
  congr 1; funext a; apply Fin.ext
  match a with
  | ⟨0, _⟩ => show t.val / 128 = win3_9.index t (0 : Fin 3) * 1 + 1 * (j 0).val; omega
  | ⟨1, _⟩ => show t.val / 16 % 8 * 256 + (j 1).val = win3_9.index t (1 : Fin 3) * 256 + 1 * (j 1).val; omega
  | ⟨2, _⟩ => show t.val % 16 * 128 + (j 2).val = win3_9.index t (2 : Fin 3) * 128 + 1 * (j 2).val; omega

-- Every index of an output array lies in the block of the point with its batch, its row's tile and its head.
theorem at3_blocksW (i : S2x16x2048x2048.Idx) : ∃ t : Fin cfg3.N, (cfg3.win 8).flush t = true ∧ i ∈ ((cfg3.win 8).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ : ∃ t : Fin cfg3.N, t.val = ((i 0).val * 8 + (i 2).val / 256) * 16 + (i 1).val :=
    ⟨⟨_, by have : cfg3.N = 256 := N_3; omega⟩, rfl⟩
  obtain ⟨-, -, -, -, -, -, -, -, ⟨e0, e1, e2, e3⟩, -⟩ := at3_idx t
  refine ⟨t, flush3_8 t, ?_⟩
  show i ∈ ((View.whole main_v7_0).slice (win3_8.rect t)).set
  rw [View.set_slice_whole, Rect.mem_set_unit]
  intro a
  match a with
  | ⟨0, _⟩ => show win3_8.index t (0 : Fin 4) * 1 ≤ (i 0).val ∧ (i 0).val < win3_8.index t (0 : Fin 4) * 1 + 1; omega
  | ⟨1, _⟩ => show win3_8.index t (1 : Fin 4) * 1 ≤ (i 1).val ∧ (i 1).val < win3_8.index t (1 : Fin 4) * 1 + 1; omega
  | ⟨2, _⟩ => show win3_8.index t (2 : Fin 4) * 256 ≤ (i 2).val ∧ (i 2).val < win3_8.index t (2 : Fin 4) * 256 + 256; omega
  | ⟨3, _⟩ => show win3_8.index t (3 : Fin 4) * 2048 ≤ (i 3).val ∧ (i 3).val < win3_8.index t (3 : Fin 4) * 2048 + 2048; omega

theorem at3_blocksO (i : S2x2048x2048.Idx) : ∃ t : Fin cfg3.N, (cfg3.win 9).flush t = true ∧ i ∈ ((cfg3.win 9).blk t).view.set := by
  have h0 : (i 0).val < 2 := (i 0).isLt
  have h1 : (i 1).val < 2048 := (i 1).isLt
  have h2 : (i 2).val < 2048 := (i 2).isLt
  obtain ⟨t, ht⟩ : ∃ t : Fin cfg3.N, t.val = ((i 0).val * 8 + (i 1).val / 256) * 16 + (i 2).val / 128 :=
    ⟨⟨_, by have : cfg3.N = 256 := N_3; omega⟩, rfl⟩
  obtain ⟨-, -, -, -, -, -, -, -, -, e0, e1, e2⟩ := at3_idx t
  refine ⟨t, flush3_9 t, ?_⟩
  show i ∈ ((View.whole main_v7_1).slice (win3_9.rect t)).set
  rw [View.set_slice_whole, Rect.mem_set_unit]
  intro a
  match a with
  | ⟨0, _⟩ => show win3_9.index t (0 : Fin 3) * 1 ≤ (i 0).val ∧ (i 0).val < win3_9.index t (0 : Fin 3) * 1 + 1; omega
  | ⟨1, _⟩ => show win3_9.index t (1 : Fin 3) * 256 ≤ (i 1).val ∧ (i 1).val < win3_9.index t (1 : Fin 3) * 256 + 256; omega
  | ⟨2, _⟩ => show win3_9.index t (2 : Fin 3) * 128 ≤ (i 2).val ∧ (i 2).val < win3_9.index t (2 : Fin 3) * 128 + 128; omega

theorem at3_finalW :
    (at3_dat (F := Ideal) V c).arrAt 8 cfg3.N = Cert.SpecA.weights (V c (Pipeline.arrRef spec3 0)) (V c (Pipeline.arrRef spec3 1)) (V c (Pipeline.arrRef spec3 3)) (V c (Pipeline.arrRef spec3 4)) (V c (Pipeline.arrRef spec3 7)) :=
  (at3_dat (F := Ideal) V c).arrAt_eq_of_cover 8 _ (fun t _ => at3_flushedW V c t) at3_blocksW

theorem at3_finalO :
    (at3_dat (F := Ideal) V c).arrAt 9 cfg3.N = Cert.SpecA.heads (V c (Pipeline.arrRef spec3 0)) (V c (Pipeline.arrRef spec3 1)) (V c (Pipeline.arrRef spec3 2)) (V c (Pipeline.arrRef spec3 3)) (V c (Pipeline.arrRef spec3 4)) (V c (Pipeline.arrRef spec3 7)) :=
  (at3_dat (F := Ideal) V c).arrAt_eq_of_cover 9 _ (fun t _ => at3_flushedO V c t) at3_blocksO

end Cert.KernelIdeal.Hand

end
-- ==== Proof.KVal.lean ====
import proofs.«403689_j2439541424354_3_alg».proof.Proof.Reg3
import proofs.«403689_j2439541424354_3_alg».proof.Proof.MmVal0
import proofs.«403689_j2439541424354_3_alg».proof.Proof.MmVal1
import proofs.«403689_j2439541424354_3_alg».proof.Proof.MmVal2
import proofs.«403689_j2439541424354_3_alg».proof.Proof.MmVal4
import proofs.«403689_j2439541424354_3_alg».proof.Proof.AtVal

set_option maxRecDepth 16384

noncomputable section

open scoped BigOperators

namespace Cert.KernelIdeal.Hand

open Cert.KernelIdeal.Gen Idealize.ShloMosaic Idealize.ShloMosaic.TcCoe Idealize.ShloMosaic.ValueIdx

namespace KV

abbrev vw (S : Shape) (x : Vec Ideal S .f32) : S.Idx → EReal := x

def row (b : Fin 2) (s : Fin 2048) : Fin 4096 := ⟨b.val * 2048 + s.val, by have := b.isLt; have := s.isLt; omega⟩

theorem flat2048_row (x : S2x2048x2048.Idx → EReal) (b : Fin 2) (s k : Fin 2048) :
    shapeCast S4096x2048 x shapeCasts_S2x2048x2048_S4096x2048 (ix2 (row b s) k) = x (ix3 b s k) := by
  refine shapeCast_apply x _ (ix2 (row b s) k) (ix3 b s k) ?_
  rw [Shape.rowMajor_val_three, Shape.rowMajor_val_two]
  rfl

-- A product by rows b * 2048 + s of an array that holds X at (b, s), laid out by batch and position, is the projection of X.
theorem proj_unflat {N : Nat} (o : (⟨2, ![4096, N]⟩ : Shape).Idx → EReal) (A : S4096x2048.Idx → EReal)
    (X : S2x2048x2048.Idx → EReal) (W : (⟨2, ![2048, N]⟩ : Shape).Idx → EReal)
    (hc : (⟨2, ![4096, N]⟩ : Shape).ShapeCasts ⟨3, ![2, 2048, N]⟩)
    (ho : o = fun i => ∑ k : Fin 2048, A (ix2 (i 0) k) * W (ix2 k (i 1)))
    (hA : ∀ b s k, A (ix2 (row b s) k) = X (ix3 b s k)) :
    shapeCast _ o hc = fun i => ∑ h : Fin 2048, X (ix3 (i 0) (i 1) h) * W (ix2 h (i 2)) := by
  subst ho
  funext i
  refine (shapeCast_apply _ hc i (ix2 (row (i 0) (i 1)) (i 2)) ?_).trans
    (Finset.sum_congr rfl fun k _ => congrArg (· * _) (hA _ _ k))
  rw [Shape.rowMajor_val_three, Shape.rowMajor_val_two]
  rfl

section Host
variable (W : Valuation τ sig (Elt Ideal))

theorem after0_v0 : vw S4096x2048 (StableHlo.after hostOps0 W (Proc.devRef .tc main_v0))
    = shapeCast S4096x2048 (vw S2x2048x2048 (W (Proc.devRef .tc main_arg0))) shapeCasts_S2x2048x2048_S4096x2048 := by
  after_results
  rfl

theorem after3_v4 : vw S2x2048x2048 (StableHlo.after hostOps3 W (Proc.devRef .tc main_v4))
    = shapeCast S2x2048x2048 (vw S4096x2048 (W (Proc.devRef .tc main_v1))) shapeCasts_S4096x2048_S2x2048x2048 := by
  after_results
  rfl

theorem after3_v5 : vw S2x2048x512 (StableHlo.after hostOps3 W (Proc.devRef .tc main_v5))
    = shapeCast S2x2048x512 (vw S4096x512 (W (Proc.devRef .tc main_v2))) shapeCasts_S4096x512_S2x2048x512 := by
  after_results
  rfl

theorem after3_v6 : vw S2x2048x512 (StableHlo.after hostOps3 W (Proc.devRef .tc main_v6))
    = shapeCast S2x2048x512 (vw S4096x512 (W (Proc.devRef .tc main_v3))) shapeCasts_S4096x512_S2x2048x512 := by
  after_results
  rfl

theorem after4_v8 : vw S4096x2048 (StableHlo.after hostOps4 W (Proc.devRef .tc main_v8))
    = shapeCast S4096x2048 (vw S2x2048x2048 (W (Proc.devRef .tc main_v7_1))) shapeCasts_S2x2048x2048_S4096x2048 := by
  after_results
  rfl

theorem after5_v10 : vw S2x2048x2048 (StableHlo.after hostOps5 W (Proc.devRef .tc main_v10))
    = shapeCast S2x2048x2048 (vw S4096x2048 (W (Proc.devRef .tc main_v9))) shapeCasts_S4096x2048_S2x2048x2048 := by
  after_results
  rfl

end Host

section Args
variable (m : (ℓ : Loc nD τ sig) → Buf (Elt Ideal) ℓ) (c : Dev nD)
abbrev aX : S2x2048x2048.Idx → EReal := m ((c.tc : Thread nD τ).loc main_arg0)
abbrev aCs : S2x2048x128.Idx → EReal := m ((c.tc : Thread nD τ).loc main_arg1)
abbrev aSn : S2x2048x128.Idx → EReal := m ((c.tc : Thread nD τ).loc main_arg2)
abbrev aM : S2x1x2048x2048.Idx → EReal := m ((c.tc : Thread nD τ).loc main_arg3)
abbrev aWq : S2048x2048.Idx → EReal := m ((c.tc : Thread nD τ).loc main_arg4)
abbrev aWk : S2048x512.Idx → EReal := m ((c.tc : Thread nD τ).loc main_arg5)
abbrev aWv : S2048x512.Idx → EReal := m ((c.tc : Thread nD τ).loc main_arg6)
abbrev aWo : S2048x2048.Idx → EReal := m ((c.tc : Thread nD τ).loc main_arg7)
end Args

section Fold
variable (m : (ℓ : Loc nD τ sig) → Buf (Elt Ideal) ℓ) (outs : Outs (F := Ideal)) (c : Dev nD)

theorem V1_v0_row (b : Fin 2) (s k : Fin 2048) :
    vw S4096x2048 (V1 m c main_v0) (ix2 (row b s) k) = aX m c (ix3 b s k) :=
  (congrFun (after0_v0 (V0 m c)) _).trans (flat2048_row _ b s k)

variable (ho : OutsOk m outs (d3 m outs))
include ho

theorem V5_q : vw S2x2048x2048 (V5 m outs c main_v4) = Cert.Spec.proj (aX m c) (aWq m c) :=
  (after3_v4 (V4 m outs c)).trans
    (proj_unflat _ _ _ _ _ ((ho.o0 c).trans (mm0_final (En0 m) c)) (V1_v0_row m c))

theorem V5_k : vw S2x2048x512 (V5 m outs c main_v5) = Cert.Spec.proj (aX m c) (aWk m c) :=
  (after3_v5 (V4 m outs c)).trans
    (proj_unflat _ _ _ _ _ ((ho.o1 c).trans (mm1_final (En1 m outs) c)) (V1_v0_row m c))

theorem V5_v : vw S2x2048x512 (V5 m outs c main_v6) = Cert.Spec.proj (aX m c) (aWv m c) :=
  (after3_v6 (V4 m outs c)).trans
    (proj_unflat _ _ _ _ _ ((ho.o2 c).trans (mm2_final (En2 m outs) c)) (V1_v0_row m c))

theorem weights_eq :
    V9 m outs c main_v7_0
      = Cert.Spec.weights (aX m c) (aCs m c) (aSn m c) (aM m c) (aWq m c) (aWk m c) := by
  refine (ho.o3w c).trans ((at3_finalW (En3 m outs) c).trans ?_)
  unfold Cert.Spec.weights
  congr 1
  · exact V5_q m outs c ho
  · exact V5_k m outs c ho

theorem V7_v8_row (b : Fin 2) (s k : Fin 2048) :
    vw S4096x2048 (V7 m outs c main_v8) (ix2 (row b s) k)
      = Cert.SpecA.heads (Cert.Spec.proj (aX m c) (aWq m c)) (Cert.Spec.proj (aX m c) (aWk m c))
          (Cert.Spec.proj (aX m c) (aWv m c)) (aCs m c) (aSn m c) (aM m c) (ix3 b s k) := by
  refine (congrFun (after4_v8 (V6 m outs c)) _).trans ((flat2048_row _ b s k).trans
    (congrFun (((ho.o3o c).trans (at3_finalO (En3 m outs) c)).trans ?_) _))
  congr 1
  · exact V5_q m outs c ho
  · exact V5_k m outs c ho
  · exact V5_v m outs c ho

theorem output_eq :
    V9 m outs c main_v10
      = Cert.Spec.output (aX m c) (aCs m c) (aSn m c) (aM m c) (aWq m c) (aWk m c) (aWv m c) (aWo m c) :=
  (after5_v10 (V8 m outs c)).trans
    (proj_unflat _ _ _ _ _ ((ho.o4 c).trans (mm4_final (En4 m outs) c)) (V7_v8_row m outs c ho))

end Fold

end KV

end Cert.KernelIdeal.Hand

end
-- ==== Proof.Idx.lean ====
import Idealize.ShloMosaic.Lib.ValueIdx

namespace Cert.Idx

open Idealize.ShloMosaic Idealize.ShloMosaic.ValueIdx

-- A statement about the four axes of a rank-4 shape holds once it holds for each.
theorem fin4 {P : Fin 4 → Prop} (h0 : P 0) (h1 : P 1) (h2 : P 2) (h3 : P 3) : ∀ a, P a
  | ⟨0, _⟩ => h0 | ⟨1, _⟩ => h1 | ⟨2, _⟩ => h2 | ⟨3, _⟩ => h3

-- An index is determined by the values of its coordinates.
theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  (eq_ix3 j).trans (by rw [Fin.ext h0, Fin.ext h1, Fin.ext h2]; rfl)

theorem ix4_of {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d :=
  (eq_ix4 j).trans (by rw [Fin.ext h0, Fin.ext h1, Fin.ext h2, Fin.ext h3]; rfl)

end Cert.Idx
-- ==== Proof.RefSpecA.lean ====
import proofs.«403689_j2439541424354_3_alg».proof.Proof.Gen.ReferenceIdeal.Read
import proofs.«403689_j2439541424354_3_alg».proof.Proof.SpecA
import proofs.«403689_j2439541424354_3_alg».proof.Proof.Idx

namespace Cert.ReferenceIdeal.RefStage

open Cert.ReferenceIdeal.Read Idealize.ShloMosaic Idealize.ShloMosaic.ValueIdx Cert.Spec Cert.Idx

variable (x0 : (⟨S2x2048x2048, .f32⟩ : BufTy).Contents (Elt Ideal)) (x4 : (⟨S2048x2048, .f32⟩ : BufTy).Contents (Elt Ideal)) (x5 : (⟨S2048x512, .f32⟩ : BufTy).Contents (Elt Ideal))

theorem proj_q : val_main_v0 (F := Ideal) x0 x4 = proj x0 x4 := funext fun i =>
  (val_main_v0_apply x0 x4 i).trans <| Finset.sum_congr rfl fun _ _ =>
    congrArg₂ _ (congrArg x0 (eq_ix3 _)) (congrArg x4 (eq_ix2 _))

theorem proj_k : val_main_v3 (F := Ideal) x0 x5 = proj x0 x5 := funext fun i =>
  (val_main_v3_apply x0 x5 i).trans <| Finset.sum_congr rfl fun _ _ =>
    congrArg₂ _ (congrArg x0 (eq_ix3 _)) (congrArg x5 (eq_ix2 _))

-- Splitting the columns into heads and moving the head axis forward reads column hd * 128 + d.
theorem head_q (b : Fin 2) (hd : Fin 16) (s : Fin 2048) (d : Fin 128) :
    val_main_v2 (F := Ideal) x0 x4 (ix4 b hd s d) = proj x0 x4 (ix3 b s (col16 hd d)) := by
  rw [val_main_v2_apply, val_main_v1_apply, proj_q]
  have hh := hd.isLt; have hs := s.isLt; have hd' := d.isLt
  exact congrArg _ (ix3_of _ _ _ _
    (show (((b.val * 2048 + s.val) * 16 + hd.val) * 128 + d.val) / 4194304 = b.val by omega)
    (show (((b.val * 2048 + s.val) * 16 + hd.val) * 128 + d.val) / 2048 % 2048 = s.val by omega)
    (show (((b.val * 2048 + s.val) * 16 + hd.val) * 128 + d.val) % 2048 = hd.val * 128 + d.val by omega))

-- The key and the value projections are one function of the weight matrix, so this reads both.
theorem head_k (b : Fin 2) (g : Fin 4) (s : Fin 2048) (d : Fin 128) :
    val_main_v5 (F := Ideal) x0 x5 (ix4 b g s d) = proj x0 x5 (ix3 b s (col4 g d)) := by
  rw [val_main_v5_apply, val_main_v4_apply, proj_k]
  have hh := g.isLt; have hs := s.isLt; have hd' := d.isLt
  exact congrArg _ (ix3_of _ _ _ _
    (show (((b.val * 2048 + s.val) * 4 + g.val) * 128 + d.val) / 1048576 = b.val by omega)
    (show (((b.val * 2048 + s.val) * 4 + g.val) * 128 + d.val) / 512 % 2048 = s.val by omega)
    (show (((b.val * 2048 + s.val) * 4 + g.val) * 128 + d.val) % 512 = g.val * 128 + d.val by omega))

end Cert.ReferenceIdeal.RefStage
-- ==== Proof.RefSpecB.lean ====
import proofs.«403689_j2439541424354_3_alg».proof.Proof.RefSpecA

namespace Cert.ReferenceIdeal.RefStage

open Cert.ReferenceIdeal.Read Idealize.ShloMosaic Idealize.ShloMosaic.ValueIdx Cert.Spec Cert.SpecA Cert.Idx

variable (x0 : (⟨S2x2048x2048, .f32⟩ : BufTy).Contents (Elt Ideal)) (x1 x2 : (⟨S2x2048x128, .f32⟩ : BufTy).Contents (Elt Ideal))
  (x4 : (⟨S2048x2048, .f32⟩ : BufTy).Contents (Elt Ideal)) (x5 x6 : (⟨S2048x512, .f32⟩ : BufTy).Contents (Elt Ideal))

theorem cos16 (b : Fin 2) (hd : Fin 16) (s : Fin 2048) (d : Fin 128) :
    val_main_v11 (F := Ideal) x1 (ix4 b hd s d) = x1 (ix3 b s d) :=
  (val_main_v11_apply x1 _).trans ((val_main_v9_apply x1 _).trans (congrArg x1 (eq_ix3 _)))

theorem cos4 (b : Fin 2) (g : Fin 4) (s : Fin 2048) (d : Fin 128) :
    val_main_v20 (F := Ideal) x1 (ix4 b g s d) = x1 (ix3 b s d) :=
  (val_main_v20_apply x1 _).trans ((val_main_v9_apply x1 _).trans (congrArg x1 (eq_ix3 _)))

abbrev SH (H n : Nat) : Shape := ⟨4, ![2, H, 2048, n]⟩

-- The negated upper lanes joined in front of the lower lanes are the half-rotation, for any number of heads.
theorem rot_cat {H : Nat} (y : (SH H 128).Idx → EReal) (lo hi : (SH H 64).Idx → EReal)
    (hc : Shape.Concatenates [SH H 64, SH H 64] (SH H 128) 3)
    (hlo : ∀ b h s (d : Fin 64), lo (ix4 b h s d) = -y (ix4 b h s ⟨d.val + 64, by omega⟩))
    (hhi : ∀ b h s (d : Fin 64), hi (ix4 b h s d) = y (ix4 b h s ⟨d.val, by omega⟩))
    (b : Fin 2) (h : Fin H) (s : Fin 2048) (d : Fin 128) :
    concatenate (SH H 128) 3 [⟨SH H 64, lo⟩, ⟨SH H 64, hi⟩] hc (ix4 b h s d) = rot (fun d' => y (ix4 b h s d')) d := by
  unfold rot
  by_cases hd : d.val < 64
  · rw [dif_pos hd]
    exact (concatenate_pair_apply_left (t := SH H 128) (s₁ := SH H 64) (s₂ := SH H 64) (3 : Fin 4) _ _ hc (ix4 b h s d) rfl
      (ix4 b h s ⟨d.val, hd⟩) (fin4 rfl rfl rfl rfl)).trans (hlo b h s _)
  · rw [dif_neg hd]
    exact (concatenate_pair_apply_right (t := SH H 128) (s₁ := SH H 64) (s₂ := SH H 64) (3 : Fin 4) _ _ hc (ix4 b h s d) rfl rfl
      (ix4 b h s ⟨d.val - 64, by omega⟩) (fin4 (fun _ => rfl) (fun _ => rfl) (fun _ => rfl) fun h => absurd rfl h)
      (show d.val - 64 + 64 = d.val by omega)).trans (hhi b h s _)

theorem rot_q (b : Fin 2) (hd : Fin 16) (s : Fin 2048) (d : Fin 128) :
    val_main_v16 (F := Ideal) x0 x4 (ix4 b hd s d)
      = rot (fun d' => val_main_v2 (F := Ideal) x0 x4 (ix4 b hd s d')) d :=
  rot_cat (val_main_v2 (F := Ideal) x0 x4) _ _ _
    (fun b h s d => by
      rw [val_main_v15_apply, val_main_v14_apply, Ideal.hostNegf_def, Ideal.negf_def]
      exact congrArg (fun i => -val_main_v2 (F := Ideal) x0 x4 i) (ix4_of _ _ _ _ _ rfl rfl rfl (Nat.add_comm _ _)))
    (fun b h s d => (val_main_v13_apply x0 x4 _).trans (congrArg _ (eq_ix4 _))) b hd s d

theorem rot_k (b : Fin 2) (g : Fin 4) (s : Fin 2048) (d : Fin 128) :
    val_main_v25 (F := Ideal) x0 x5 (ix4 b g s d)
      = rot (fun d' => val_main_v5 (F := Ideal) x0 x5 (ix4 b g s d')) d :=
  rot_cat (val_main_v5 (F := Ideal) x0 x5) _ _ _
    (fun b h s d => by
      rw [val_main_v24_apply, val_main_v23_apply, Ideal.hostNegf_def, Ideal.negf_def]
      exact congrArg (fun i => -val_main_v5 (F := Ideal) x0 x5 i) (ix4_of _ _ _ _ _ rfl rfl rfl (Nat.add_comm _ _)))
    (fun b h s d => (val_main_v22_apply x0 x5 _).trans (congrArg _ (eq_ix4 _))) b g s d

theorem rope_q (b : Fin 2) (hd : Fin 16) (s : Fin 2048) (d : Fin 128) :
    val_main_v19 (F := Ideal) x0 x1 x2 x4 (ix4 b hd s d) = qR (proj x0 x4) x1 x2 b hd s d := by
  rw [val_main_v19_apply, val_main_v12_apply, val_main_v18_apply, rot_q, head_q,
    show val_main_v17 (F := Ideal) x2 = val_main_v11 x2 from rfl, cos16, cos16,
    funext fun d' => head_q x0 x4 b hd s d']
  rfl

theorem rope_k (b : Fin 2) (g : Fin 4) (s : Fin 2048) (d : Fin 128) :
    val_main_v28 (F := Ideal) x0 x1 x2 x5 (ix4 b g s d) = kR (proj x0 x5) x1 x2 b g s d := by
  rw [val_main_v28_apply, val_main_v21_apply, val_main_v27_apply, rot_k, head_k,
    show val_main_v26 (F := Ideal) x2 = val_main_v20 x2 from rfl, cos4, cos4,
    funext fun d' => head_k x0 x5 b g s d']
  rfl

-- Repeating each group over its four heads reads group hd / 4; the keys and the values are repeated alike.
theorem rep_idx (b : Fin 2) (hd : Fin 16) (s : Fin 2048) (d : Fin 128) :
    idx_main_v29 (idx_main_v30 (ix4 b hd s d)) = ix4 b (grp hd) s d := by
  have hh := hd.isLt; have hs := s.isLt; have hd' := d.isLt
  exact ix4_of _ _ _ _ _
    (show (((b.val * 16 + hd.val) * 2048 + s.val) * 128 + d.val) / 4194304 = b.val by omega)
    (show (((b.val * 16 + hd.val) * 2048 + s.val) * 128 + d.val) / 1048576 % 4 = hd.val / 4 by omega)
    (show (((b.val * 16 + hd.val) * 2048 + s.val) * 128 + d.val) / 128 % 2048 = s.val by omega)
    (show (((b.val * 16 + hd.val) * 2048 + s.val) * 128 + d.val) % 128 = d.val by omega)

theorem rep_k (b : Fin 2) (hd : Fin 16) (s : Fin 2048) (d : Fin 128) :
    val_main_v30 (F := Ideal) x0 x1 x2 x5 (ix4 b hd s d) = kR (proj x0 x5) x1 x2 b (grp hd) s d := by
  rw [← rope_k, val_main_v30_apply, val_main_v29_apply, rep_idx]

theorem rep_v (b : Fin 2) (hd : Fin 16) (s : Fin 2048) (d : Fin 128) :
    val_main_v32 (F := Ideal) x0 x6 (ix4 b hd s d) = proj x0 x6 (ix3 b s (col4 (grp hd) d)) := by
  rw [val_main_v32_apply, val_main_v31_apply]
  exact (congrArg _ (rep_idx b hd s d)).trans (head_k x0 x6 b (grp hd) s d)

end Cert.ReferenceIdeal.RefStage
-- ==== Proof.RefSpecC.lean ====
import proofs.«403689_j2439541424354_3_alg».proof.Proof.RefSpecB

namespace Cert.ReferenceIdeal.RefStage

open Cert.ReferenceIdeal.Gen Cert.ReferenceIdeal.Read Idealize.ShloMosaic Idealize.ShloMosaic.ValueIdx Cert.Spec Cert.SpecA Cert.Idx

variable (x0 : (⟨S2x2048x2048, .f32⟩ : BufTy).Contents (Elt Ideal)) (x1 x2 : (⟨S2x2048x128, .f32⟩ : BufTy).Contents (Elt Ideal))
  (x3 : (⟨S2x1x2048x2048, .f32⟩ : BufTy).Contents (Elt Ideal)) (x4 : (⟨S2048x2048, .f32⟩ : BufTy).Contents (Elt Ideal))
  (x5 x6 : (⟨S2048x512, .f32⟩ : BufTy).Contents (Elt Ideal)) (x7 : (⟨S2048x2048, .f32⟩ : BufTy).Contents (Elt Ideal))

theorem score_eq (b : Fin 2) (hd : Fin 16) (s t : Fin 2048) :
    val_main_v37 (F := Ideal) x0 x1 x2 x3 x4 x5 (ix4 b hd s t) = score (proj x0 x4) (proj x0 x5) x1 x2 x3 b hd s t := by
  have hs : (∑ k : Fin 128, (val_main_v19 (F := Ideal) x0 x1 x2 x4) (lidx_main_v33 (ix4 b hd s t) k)
        * (val_main_v30 (F := Ideal) x0 x1 x2 x5) (ridx_main_v33 (ix4 b hd s t) k))
      = ∑ d : Fin 128, qR (proj x0 x4) x1 x2 b hd s d * kR (proj x0 x5) x1 x2 b (grp hd) t d :=
    Finset.sum_congr rfl fun k _ => congrArg₂ _
      ((congrArg _ (eq_ix4 _)).trans (rope_q x0 x1 x2 x4 b hd s k)) ((congrArg _ (eq_ix4 _)).trans (rep_k x0 x1 x2 x5 b hd t k))
  rw [val_main_v37_apply, val_main_v35_apply, val_main_v33_apply, val_main_v34_apply, val_main_cst_apply,
    val_main_v36_apply, hs, show idx_main_v36 (ix4 b hd s t) = ix4 b 0 s t from eq_ix4 _]
  rfl

theorem hostMax_row (x : S2x16x2048x2048.Idx → EReal) (b : Fin 2) (hd : Fin 16) (s : Fin 2048) :
    Host.reduce (α := EReal) (FloatOps.maximumf (F := Ideal) (φ := .f32)) x (val_main_cst_0 (F := Ideal))
        reducesTo_S2x16x2048x2048_S2x16x2048_d3 h_S_ (ix3 b hd s)
      = (Finset.univ : Finset (Fin 2048)).fold max negInf (fun t => x (ix4 b hd s t)) := by
  have h : S2x16x2048x2048.Reduces [3] S2x16x2048 := by decide
  rw [Host.reduce_eq_fold_single (FloatOps.maximumf (F := Ideal) (φ := .f32)) x _ reducesTo_S2x16x2048x2048_S2x16x2048_d3 h h_S_]
  exact congrArg (fun f => Finset.fold max negInf f (Finset.univ : Finset (Fin 2048)))
    (funext fun k => congrArg x (eq_ix4 _))

-- A fold of max is at least its initial value, so the maximum with minus infinity after the fold changes nothing.
theorem rowmax_eq (b : Fin 2) (hd : Fin 16) (s : Fin 2048) :
    val_main_v40 (F := Ideal) x0 x1 x2 x3 x4 x5 (ix3 b hd s) = rowMax (proj x0 x4) (proj x0 x5) x1 x2 x3 b hd s := by
  have hv : val_main_v38 (F := Ideal) x0 x1 x2 x3 x4 x5 (ix3 b hd s) = rowMax (proj x0 x4) (proj x0 x5) x1 x2 x3 b hd s := by
    unfold val_main_v38 rowMax
    exact (hostMax_row _ b hd s).trans (congrArg (fun f => Finset.fold max negInf f (Finset.univ : Finset (Fin 2048)))
      (funext fun t => score_eq x0 x1 x2 x3 x4 x5 b hd s t))
  rw [val_main_v40_apply, val_main_v39_apply, val_main_cst_1_apply, hv, Ideal.maximumf_def, Ideal.ofBits_def]
  exact max_eq_right ((Finset.le_fold_max _).2 (Or.inl le_rfl))

theorem ex_eq (b : Fin 2) (hd : Fin 16) (s t : Fin 2048) :
    val_main_v44 (F := Ideal) x0 x1 x2 x3 x4 x5 (ix4 b hd s t) = ex (proj x0 x4) (proj x0 x5) x1 x2 x3 b hd s t := by
  rw [val_main_v44_apply, val_main_v43_apply, val_main_v42_apply, val_main_v41_apply,
    show idx_main_v41 (idx_main_v42 (ix4 b hd s t)) = ix3 b hd s from eq_ix3 _, score_eq, rowmax_eq]
  rfl

theorem den_eq (b : Fin 2) (hd : Fin 16) (s : Fin 2048) :
    val_main_v45 (F := Ideal) x0 x1 x2 x3 x4 x5 (ix3 b hd s) = den (proj x0 x4) (proj x0 x5) x1 x2 x3 b hd s := by
  rw [val_main_v45_apply, val_main_cst_2_apply, Ideal.ofBits_def, Ideal.ofBits_zero_f32, zero_add]
  exact Finset.sum_congr rfl fun k _ => (congrArg _ (eq_ix4 _)).trans (ex_eq x0 x1 x2 x3 x4 x5 b hd s k)

theorem wgt_eq (b : Fin 2) (hd : Fin 16) (s t : Fin 2048) :
    val_main_v48 (F := Ideal) x0 x1 x2 x3 x4 x5 (ix4 b hd s t) = wgt (proj x0 x4) (proj x0 x5) x1 x2 x3 b hd s t := by
  rw [val_main_v48_apply, val_main_v47_apply, val_main_v46_apply,
    show idx_main_v46 (idx_main_v47 (ix4 b hd s t)) = ix3 b hd s from eq_ix3 _, ex_eq, den_eq]
  rfl

theorem att_eq (b : Fin 2) (hd : Fin 16) (s : Fin 2048) (d : Fin 128) :
    val_main_v49 (F := Ideal) x0 x1 x2 x3 x4 x5 x6 (ix4 b hd s d) = att (proj x0 x4) (proj x0 x5) (proj x0 x6) x1 x2 x3 b hd s d :=
  (val_main_v49_apply x0 x1 x2 x3 x4 x5 x6 _).trans <| Finset.sum_congr rfl fun k _ => congrArg₂ _
    ((congrArg _ (eq_ix4 _)).trans (wgt_eq x0 x1 x2 x3 x4 x5 b hd s k)) ((congrArg _ (eq_ix4 _)).trans (rep_v x0 x6 b hd k d))

-- Laying the heads side by side: column j is lane j % 128 of head j / 128.
theorem heads_eq : val_main_v51 (F := Ideal) x0 x1 x2 x3 x4 x5 x6 = heads (proj x0 x4) (proj x0 x5) (proj x0 x6) x1 x2 x3 := by
  funext i
  rw [val_main_v51_apply, val_main_v50_apply]
  have hs : (i 1).val < 2048 := (i 1).isLt; have hj : (i 2).val < 2048 := (i 2).isLt
  exact (congrArg _ (ix4_of _ (i 0) ⟨(i 2).val / 128, by omega⟩ (i 1) ⟨(i 2).val % 128, by omega⟩
    (show (((i 0).val * 2048 + (i 1).val) * 2048 + (i 2).val) / 4194304 = (i 0).val by omega)
    (show (((i 0).val * 2048 + (i 1).val) * 2048 + (i 2).val) / 128 % 16 = (i 2).val / 128 by omega)
    (show (((i 0).val * 2048 + (i 1).val) * 2048 + (i 2).val) / 2048 % 2048 = (i 1).val by omega)
    (show (((i 0).val * 2048 + (i 1).val) * 2048 + (i 2).val) % 128 = (i 2).val % 128 by omega))).trans (att_eq x0 x1 x2 x3 x4 x5 x6 _ _ _ _)

-- The output projection is the projection of the heads laid side by side.
theorem out_eq : val_main_v52 (F := Ideal) x0 x1 x2 x3 x4 x5 x6 x7 = output x0 x1 x2 x3 x4 x5 x6 x7 :=
  (proj_q _ x7).trans (congrArg (proj · x7) (heads_eq x0 x1 x2 x3 x4 x5 x6))

end Cert.ReferenceIdeal.RefStage
-- ==== Proof.RefSpec.lean ====
import proofs.«403689_j2439541424354_3_alg».proof.Proof.RefSpecC

namespace Cert.ReferenceIdeal.RefValue

open Idealize.ShloMosaic Idealize.ShloMosaic.TcCoe Idealize.ShloMosaic.ValueIdx

variable (m : (ℓ : Loc nD τ sig) → Buf (Elt Ideal) ℓ) (c : Dev nD)

theorem res_out1_eq :
    Cert.ReferenceIdeal.Value.res_out1 (F := Ideal) m c
      = Cert.Spec.weights (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (Cert.ReferenceIdeal.Read.val_main_v48_eq (F := Ideal) m c).trans <| funext fun i =>
    (congrArg _ (eq_ix4 i)).trans (Cert.ReferenceIdeal.RefStage.wgt_eq _ _ _ _ _ _ (i 0) (i 1) (i 2) (i 3))

theorem res_out0_eq :
    Cert.ReferenceIdeal.Value.res_out0 (F := Ideal) m c
      = Cert.Spec.output (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (Cert.ReferenceIdeal.Read.val_main_v52_eq (F := Ideal) m c).trans (Cert.ReferenceIdeal.RefStage.out_eq _ _ _ _ _ _ _ _)

end Cert.ReferenceIdeal.RefValue
-- ==== Proof.lean ====
/-
  Read over the extended reals, both programs compute one function of the eight argument arrays, the softmax weights and
  the projected output of Proof/SpecA.lean: a sum over 2048 taken in four blocks of 512 is the same sum, 0 - x is -x, and
  the maximum of minus infinity and a row maximum is that row maximum. No law used needs the inputs finite.
-/
import proofs.«403689_j2439541424354_3_alg».proof.Defs
import proofs.«403689_j2439541424354_3_alg».proof.Proof.Gen.Kernel
import proofs.«403689_j2439541424354_3_alg».proof.Proof.Gen.KernelIdeal
import proofs.«403689_j2439541424354_3_alg».proof.Proof.Gen.ReferenceIdeal
import proofs.«403689_j2439541424354_3_alg».proof.Proof.Gen.Pre_finite_inputs
import proofs.«403689_j2439541424354_3_alg».proof.Proof.Final
import proofs.«403689_j2439541424354_3_alg».proof.Proof.BFinal
import proofs.«403689_j2439541424354_3_alg».proof.Proof.KVal
import proofs.«403689_j2439541424354_3_alg».proof.Proof.RefSpec

namespace Cert.Proof

open Idealize.ShloMosaic Idealize.SL.Sem Cert.KernelIdeal.Hand

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

-- Each program ends with the specification's output and weights of its arguments, and the arguments agree.
theorem algebraic : Cert.algebraic_KernelIdeal_ReferenceIdeal := fun m ρ m' ρ' _ hagree =>
  ⟨_, _,
    (θ_run Cert.KernelIdeal.defs _ _).mono (fun _ h c =>
      ⟨(h c).1.trans (KV.output_eq m _ c (outsF_ok m)), (h c).2.1.trans (KV.weights_eq m _ c (outsF_ok m)),
        (h c).2.2⟩) (run_main (F := Ideal) m ρ),
    (θ_run Cert.ReferenceIdeal.defs _ _).mono (fun _ h c =>
      ⟨(h c).1.trans ((Cert.ReferenceIdeal.RefValue.res_out0_eq m' c).trans (by simp only [hagree c])),
        (h c).2.1.trans ((Cert.ReferenceIdeal.RefValue.res_out1_eq m' c).trans (by simp only [hagree c])), (h c).2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof
